-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 1024]⟩ ⟨2, ![16384, 1024]⟩ (Layout.meshBlock [2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Pre_finite_inputs_ReferenceIdeal.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  main_v3
-- ==== Kernel.lean ====
abbrev S8192x1024 : Shape := ⟨2, ![8192, 1024]⟩
abbrev S3x1024x1024 : Shape := ⟨3, ![3, 1024, 1024]⟩
abbrev S4096x1024 : Shape := ⟨2, ![4096, 1024]⟩
abbrev S4 : Shape := ⟨1, ![4]⟩
abbrev S16 : Shape := ⟨1, ![16]⟩
abbrev S1 : Shape := ⟨1, ![1]⟩
abbrev S_ : Shape := ⟨0, ![]⟩
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩

abbrev nBuf : Space → Nat
  | .hbm => 2
  | .vmem => 3
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .local _ .vmem, ⟨0, _⟩ => ⟨S3x1024x1024, .f32⟩
  | .local _ .vmem, ⟨1, _⟩ => ⟨S4096x1024, .bf16⟩
  | .local _ .vmem, ⟨2, _⟩ => ⟨S4096x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  (ofTc nBuf bufTy 1 84 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v8 : BitVec 32 := Scalar.muli v5 c4096_i32
  let v11 : BitVec 32 := Scalar.addi v8 c0_i32
  let c0_i32_10 : BitVec 32 := 0#32
  ![v11.toNat, 0]
def k0_dev1 (d0 : Dev nD) : Nat :=
  let c0_i32_18 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_17 : BitVec 32 := 2#32
  let v26 : BitVec 32 := Scalar.muli v6 c2_i32_17
  let v27 : BitVec 32 := Scalar.addi c0_i32_18 v26
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_19 : BitVec 32 := 1#32
  let v28 : BitVec 32 := Scalar.muli v5 c1_i32_19
  let v29 : BitVec 32 := Scalar.addi v27 v28
  v29.toNat
def k0_dev2 (d0 : Dev nD) : Nat :=
  let c0_i32_22 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_21 : BitVec 32 := 2#32
  let v30 : BitVec 32 := Scalar.muli v2 c2_i32_21
  let v31 : BitVec 32 := Scalar.addi c0_i32_22 v30
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_23 : BitVec 32 := 1#32
  let v32 : BitVec 32 := Scalar.muli v7 c1_i32_23
  let v33 : BitVec 32 := Scalar.addi v31 v32
  v33.toNat
def k0_dev3 (d0 : Dev nD) : Nat :=
  let c0_i32_42 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_41 : BitVec 32 := 2#32
  let v50 : BitVec 32 := Scalar.muli v6 c2_i32_41
  let v51 : BitVec 32 := Scalar.addi c0_i32_42 v50
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_43 : BitVec 32 := 1#32
  let v52 : BitVec 32 := Scalar.muli v5 c1_i32_43
  let v53 : BitVec 32 := Scalar.addi v51 v52
  v53.toNat
def k0_dev4 (d0 : Dev nD) : Nat :=
  let c0_i32_55 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_54 : BitVec 32 := 2#32
  let v66 : BitVec 32 := Scalar.muli v6 c2_i32_54
  let v67 : BitVec 32 := Scalar.addi c0_i32_55 v66
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_56 : BitVec 32 := 1#32
  let v68 : BitVec 32 := Scalar.muli v5 c1_i32_56
  let v69 : BitVec 32 := Scalar.addi v67 v68
  v69.toNat
def k0_dev5 (d0 : Dev nD) : Nat :=
  let c0_i32_67 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_66 : BitVec 32 := 2#32
  let v82 : BitVec 32 := Scalar.muli v6 c2_i32_66
  let v83 : BitVec 32 := Scalar.addi c0_i32_67 v82
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_68 : BitVec 32 := 1#32
  let v84 : BitVec 32 := Scalar.muli v5 c1_i32_68
  let v85 : BitVec 32 := Scalar.addi v83 v84
  v85.toNat
def k0_dev6 (d0 : Dev nD) : Nat :=
  let c0_i32_78 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_77 : BitVec 32 := 2#32
  let v98 : BitVec 32 := Scalar.muli v6 c2_i32_77
  let v99 : BitVec 32 := Scalar.addi c0_i32_78 v98
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_79 : BitVec 32 := 1#32
  let v100 : BitVec 32 := Scalar.muli v5 c1_i32_79
  let v101 : BitVec 32 := Scalar.addi v99 v100
  v101.toNat
def k0_dev7 (d0 : Dev nD) : Nat :=
  let c0_i32_98 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_97 : BitVec 32 := 2#32
  let v124 : BitVec 32 := Scalar.muli v6 c2_i32_97
  let v125 : BitVec 32 := Scalar.addi c0_i32_98 v124
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_99 : BitVec 32 := 1#32
  let v126 : BitVec 32 := Scalar.muli v5 c1_i32_99
  let v127 : BitVec 32 := Scalar.addi v125 v126
  v127.toNat
def k0_dev8 (d0 : Dev nD) : Nat :=
  let c0_i32_110 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_109 : BitVec 32 := 2#32
  let v140 : BitVec 32 := Scalar.muli v6 c2_i32_109
  let v141 : BitVec 32 := Scalar.addi c0_i32_110 v140
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_111 : BitVec 32 := 1#32
  let v142 : BitVec 32 := Scalar.muli v5 c1_i32_111
  let v143 : BitVec 32 := Scalar.addi v141 v142
  v143.toNat
def k0_dev9 (d0 : Dev nD) : Nat :=
  let c0_i32_121 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_120 : BitVec 32 := 2#32
  let v156 : BitVec 32 := Scalar.muli v6 c2_i32_120
  let v157 : BitVec 32 := Scalar.addi c0_i32_121 v156
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_122 : BitVec 32 := 1#32
  let v158 : BitVec 32 := Scalar.muli v5 c1_i32_122
  let v159 : BitVec 32 := Scalar.addi v157 v158
  v159.toNat
def k0_dev10 (d0 : Dev nD) : Nat :=
  let c0_i32_132 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_131 : BitVec 32 := 2#32
  let v172 : BitVec 32 := Scalar.muli v6 c2_i32_131
  let v173 : BitVec 32 := Scalar.addi c0_i32_132 v172
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_133 : BitVec 32 := 1#32
  let v174 : BitVec 32 := Scalar.muli v5 c1_i32_133
  let v175 : BitVec 32 := Scalar.addi v173 v174
  v175.toNat
def k0_dev11 (d0 : Dev nD) : Nat :=
  let c0_i32_147 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_146 : BitVec 32 := 2#32
  let v193 : BitVec 32 := Scalar.muli v6 c2_i32_146
  let v194 : BitVec 32 := Scalar.addi c0_i32_147 v193
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_148 : BitVec 32 := 1#32
  let v195 : BitVec 32 := Scalar.muli v5 c1_i32_148
  let v196 : BitVec 32 := Scalar.addi v194 v195
  v196.toNat
def k0_dev12 (d0 : Dev nD) : Nat :=
  let c0_i32_159 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_158 : BitVec 32 := 2#32
  let v209 : BitVec 32 := Scalar.muli v6 c2_i32_158
  let v210 : BitVec 32 := Scalar.addi c0_i32_159 v209
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_160 : BitVec 32 := 1#32
  let v211 : BitVec 32 := Scalar.muli v5 c1_i32_160
  let v212 : BitVec 32 := Scalar.addi v210 v211
  v212.toNat
def k0_dev13 (d0 : Dev nD) : Nat :=
  let c0_i32_170 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_169 : BitVec 32 := 2#32
  let v225 : BitVec 32 := Scalar.muli v6 c2_i32_169
  let v226 : BitVec 32 := Scalar.addi c0_i32_170 v225
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_171 : BitVec 32 := 1#32
  let v227 : BitVec 32 := Scalar.muli v5 c1_i32_171
  let v228 : BitVec 32 := Scalar.addi v226 v227
  v228.toNat
def k0_dev14 (d0 : Dev nD) : Nat :=
  let c0_i32_181 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_180 : BitVec 32 := 2#32
  let v241 : BitVec 32 := Scalar.muli v6 c2_i32_180
  let v242 : BitVec 32 := Scalar.addi c0_i32_181 v241
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_182 : BitVec 32 := 1#32
  let v243 : BitVec 32 := Scalar.muli v5 c1_i32_182
  let v244 : BitVec 32 := Scalar.addi v242 v243
  v244.toNat
def k0_dev15 (d0 : Dev nD) : Nat :=
  let c0_i32_197 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_196 : BitVec 32 := 2#32
  let v262 : BitVec 32 := Scalar.muli v6 c2_i32_196
  let v263 : BitVec 32 := Scalar.addi c0_i32_197 v262
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_198 : BitVec 32 := 1#32
  let v264 : BitVec 32 := Scalar.muli v5 c1_i32_198
  let v265 : BitVec 32 := Scalar.addi v263 v264
  v265.toNat
def k0_dev16 (d0 : Dev nD) : Nat :=
  let c0_i32_209 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_208 : BitVec 32 := 2#32
  let v278 : BitVec 32 := Scalar.muli v6 c2_i32_208
  let v279 : BitVec 32 := Scalar.addi c0_i32_209 v278
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_210 : BitVec 32 := 1#32
  let v280 : BitVec 32 := Scalar.muli v5 c1_i32_210
  let v281 : BitVec 32 := Scalar.addi v279 v280
  v281.toNat
def k0_dev17 (d0 : Dev nD) : Nat :=
  let c0_i32_220 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_219 : BitVec 32 := 2#32
  let v294 : BitVec 32 := Scalar.muli v6 c2_i32_219
  let v295 : BitVec 32 := Scalar.addi c0_i32_220 v294
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_221 : BitVec 32 := 1#32
  let v296 : BitVec 32 := Scalar.muli v5 c1_i32_221
  let v297 : BitVec 32 := Scalar.addi v295 v296
  v297.toNat
def k0_dev18 (d0 : Dev nD) : Nat :=
  let c0_i32_231 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_230 : BitVec 32 := 2#32
  let v310 : BitVec 32 := Scalar.muli v6 c2_i32_230
  let v311 : BitVec 32 := Scalar.addi c0_i32_231 v310
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_232 : BitVec 32 := 1#32
  let v312 : BitVec 32 := Scalar.muli v5 c1_i32_232
  let v313 : BitVec 32 := Scalar.addi v311 v312
  v313.toNat
def k0_off2 (d0 : Dev nD) (c0_i32_252 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v8 : BitVec 32 := Scalar.muli v5 c4096_i32
  let v332 : BitVec 32 := Scalar.addi v8 c0_i32_252
  let c0_i32_264 : BitVec 32 := 0#32
  ![v332.toNat, 0]
def k0_dev19 (d0 : Dev nD) : Nat :=
  let c0_i32_262 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_261 : BitVec 32 := 2#32
  let v339 : BitVec 32 := Scalar.muli v2 c2_i32_261
  let v340 : BitVec 32 := Scalar.addi c0_i32_262 v339
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_263 : BitVec 32 := 1#32
  let v341 : BitVec 32 := Scalar.muli v7 c1_i32_263
  let v342 : BitVec 32 := Scalar.addi v340 v341
  v342.toNat
def k0_dev20 (d0 : Dev nD) : Nat :=
  let c0_i32_297 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_296 : BitVec 32 := 2#32
  let v372 : BitVec 32 := Scalar.muli v2 c2_i32_296
  let v373 : BitVec 32 := Scalar.addi c0_i32_297 v372
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_298 : BitVec 32 := 1#32
  let v374 : BitVec 32 := Scalar.muli v7 c1_i32_298
  let v375 : BitVec 32 := Scalar.addi v373 v374
  v375.toNat
def k0_dev21 (d0 : Dev nD) : Nat :=
  let c0_i32_332 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_331 : BitVec 32 := 2#32
  let v405 : BitVec 32 := Scalar.muli v2 c2_i32_331
  let v406 : BitVec 32 := Scalar.addi c0_i32_332 v405
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_333 : BitVec 32 := 1#32
  let v407 : BitVec 32 := Scalar.muli v7 c1_i32_333
  let v408 : BitVec 32 := Scalar.addi v406 v407
  v408.toNat
def k0_dev22 (d0 : Dev nD) : Nat :=
  let c0_i32_367 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_366 : BitVec 32 := 2#32
  let v438 : BitVec 32 := Scalar.muli v2 c2_i32_366
  let v439 : BitVec 32 := Scalar.addi c0_i32_367 v438
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_368 : BitVec 32 := 1#32
  let v440 : BitVec 32 := Scalar.muli v7 c1_i32_368
  let v441 : BitVec 32 := Scalar.addi v439 v440
  v441.toNat
def k0_dev23 (d0 : Dev nD) : Nat :=
  let c0_i32_402 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_401 : BitVec 32 := 2#32
  let v471 : BitVec 32 := Scalar.muli v2 c2_i32_401
  let v472 : BitVec 32 := Scalar.addi c0_i32_402 v471
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_403 : BitVec 32 := 1#32
  let v473 : BitVec 32 := Scalar.muli v7 c1_i32_403
  let v474 : BitVec 32 := Scalar.addi v472 v473
  v474.toNat
def k0_dev24 (d0 : Dev nD) : Nat :=
  let c0_i32_437 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_436 : BitVec 32 := 2#32
  let v504 : BitVec 32 := Scalar.muli v2 c2_i32_436
  let v505 : BitVec 32 := Scalar.addi c0_i32_437 v504
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_438 : BitVec 32 := 1#32
  let v506 : BitVec 32 := Scalar.muli v7 c1_i32_438
  let v507 : BitVec 32 := Scalar.addi v505 v506
  v507.toNat
def k0_dev25 (d0 : Dev nD) : Nat :=
  let c0_i32_472 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_471 : BitVec 32 := 2#32
  let v537 : BitVec 32 := Scalar.muli v2 c2_i32_471
  let v538 : BitVec 32 := Scalar.addi c0_i32_472 v537
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_473 : BitVec 32 := 1#32
  let v539 : BitVec 32 := Scalar.muli v7 c1_i32_473
  let v540 : BitVec 32 := Scalar.addi v538 v539
  v540.toNat
def k0_dev26 (d0 : Dev nD) : Nat :=
  let c0_i32_507 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_506 : BitVec 32 := 2#32
  let v570 : BitVec 32 := Scalar.muli v2 c2_i32_506
  let v571 : BitVec 32 := Scalar.addi c0_i32_507 v570
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_508 : BitVec 32 := 1#32
  let v572 : BitVec 32 := Scalar.muli v7 c1_i32_508
  let v573 : BitVec 32 := Scalar.addi v571 v572
  v573.toNat
def k0_dev27 (d0 : Dev nD) : Nat :=
  let c0_i32_542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_541 : BitVec 32 := 2#32
  let v603 : BitVec 32 := Scalar.muli v2 c2_i32_541
  let v604 : BitVec 32 := Scalar.addi c0_i32_542 v603
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_543 : BitVec 32 := 1#32
  let v605 : BitVec 32 := Scalar.muli v7 c1_i32_543
  let v606 : BitVec 32 := Scalar.addi v604 v605
  v606.toNat
def k0_dev28 (d0 : Dev nD) : Nat :=
  let c0_i32_577 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_576 : BitVec 32 := 2#32
  let v636 : BitVec 32 := Scalar.muli v2 c2_i32_576
  let v637 : BitVec 32 := Scalar.addi c0_i32_577 v636
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_578 : BitVec 32 := 1#32
  let v638 : BitVec 32 := Scalar.muli v7 c1_i32_578
  let v639 : BitVec 32 := Scalar.addi v637 v638
  v639.toNat
def k0_dev29 (d0 : Dev nD) : Nat :=
  let c0_i32_612 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_611 : BitVec 32 := 2#32
  let v669 : BitVec 32 := Scalar.muli v2 c2_i32_611
  let v670 : BitVec 32 := Scalar.addi c0_i32_612 v669
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_613 : BitVec 32 := 1#32
  let v671 : BitVec 32 := Scalar.muli v7 c1_i32_613
  let v672 : BitVec 32 := Scalar.addi v670 v671
  v672.toNat
def k0_dev30 (d0 : Dev nD) : Nat :=
  let c0_i32_647 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_646 : BitVec 32 := 2#32
  let v702 : BitVec 32 := Scalar.muli v2 c2_i32_646
  let v703 : BitVec 32 := Scalar.addi c0_i32_647 v702
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_648 : BitVec 32 := 1#32
  let v704 : BitVec 32 := Scalar.muli v7 c1_i32_648
  let v705 : BitVec 32 := Scalar.addi v703 v704
  v705.toNat
def k0_dev31 (d0 : Dev nD) : Nat :=
  let c0_i32_682 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_681 : BitVec 32 := 2#32
  let v735 : BitVec 32 := Scalar.muli v2 c2_i32_681
  let v736 : BitVec 32 := Scalar.addi c0_i32_682 v735
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_683 : BitVec 32 := 1#32
  let v737 : BitVec 32 := Scalar.muli v7 c1_i32_683
  let v738 : BitVec 32 := Scalar.addi v736 v737
  v738.toNat
def k0_dev32 (d0 : Dev nD) : Nat :=
  let c0_i32_717 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_716 : BitVec 32 := 2#32
  let v768 : BitVec 32 := Scalar.muli v2 c2_i32_716
  let v769 : BitVec 32 := Scalar.addi c0_i32_717 v768
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_718 : BitVec 32 := 1#32
  let v770 : BitVec 32 := Scalar.muli v7 c1_i32_718
  let v771 : BitVec 32 := Scalar.addi v769 v770
  v771.toNat
def k0_dev33 (d0 : Dev nD) : Nat :=
  let c0_i32_752 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_751 : BitVec 32 := 2#32
  let v801 : BitVec 32 := Scalar.muli v2 c2_i32_751
  let v802 : BitVec 32 := Scalar.addi c0_i32_752 v801
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_753 : BitVec 32 := 1#32
  let v803 : BitVec 32 := Scalar.muli v7 c1_i32_753
  let v804 : BitVec 32 := Scalar.addi v802 v803
  v804.toNat
def k0_dev34 (d0 : Dev nD) : Nat :=
  let c0_i32_787 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_786 : BitVec 32 := 2#32
  let v834 : BitVec 32 := Scalar.muli v2 c2_i32_786
  let v835 : BitVec 32 := Scalar.addi c0_i32_787 v834
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_788 : BitVec 32 := 1#32
  let v836 : BitVec 32 := Scalar.muli v7 c1_i32_788
  let v837 : BitVec 32 := Scalar.addi v835 v836
  v837.toNat
def k0_off3 (d0 : Dev nD) (c0_i32_796 : BitVec 32) : Fin 2 → Nat :=
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c4096_i32_5 : BitVec 32 := 4096#32
  let v10 : BitVec 32 := Scalar.muli v9 c4096_i32_5
  let v848 : BitVec 32 := Scalar.addi v10 c0_i32_796
  let c0_i32_802 : BitVec 32 := 0#32
  ![v848.toNat, 0]

class Facts₀ : Prop where
  inb_S4_S1_0 : ∀ a, (![0] : Fin 1 → Nat) a + S1.size a ≤ S4.size a
  squeezes_S1_S_ : S1.Squeezes S_
  inb_S3x1024x1024_S1x1024x1024_0_0_0 : ∀ a, (![0, 0, 0] : Fin 3 → Nat) a + S1x1024x1024.size a ≤ S3x1024x1024.size a
  squeezes_S1x1024x1024_S1024x1024 : S1x1024x1024.Squeezes S1024x1024
  inb_S4_S1_1 : ∀ a, (![1] : Fin 1 → Nat) a + S1.size a ≤ S4.size a
  inb_S3x1024x1024_S1x1024x1024_1_0_0 : ∀ a, (![1, 0, 0] : Fin 3 → Nat) a + S1x1024x1024.size a ≤ S3x1024x1024.size a
  hamt_1 : (1#32 : BitVec 32).msb = false
  hamt_2 : (2#32 : BitVec 32).msb = false
  inb_S4_S1_2 : ∀ a, (![2] : Fin 1 → Nat) a + S1.size a ≤ S4.size a
  inb_S3x1024x1024_S1x1024x1024_2_0_0 : ∀ a, (![2, 0, 0] : Fin 3 → Nat) a + S1x1024x1024.size a ≤ S3x1024x1024.size a
  inb_S3x1024x1024_S1x256x1024_0_0_0 : ∀ a, (![0, 0, 0] : Fin 3 → Nat) a + S1x256x1024.size a ≤ S3x1024x1024.size a
  h_S1x256x1024 : 0 < S1x256x1024.numel
  shapeCasts_S1x256x1024_S256x1024 : S1x256x1024.ShapeCasts S256x1024
  bitsLt_bf16_f32 : FTy.bits .bf16 < FTy.bits .f32
  inb_S4096x1024_S256x1024_0_0 : ∀ a, (![0, 0] : Fin 2 → Nat) a + S256x1024.size a ≤ S4096x1024.size a
  h_S256x1024 : 0 < S256x1024.numel
  shapeCasts_S256x1024_S256x1024 : S256x1024.ShapeCasts S256x1024
  packedbf16_S4096x1024_S256x1024_0_0 : (Rect.unit (s := S4096x1024) ![0, 0] S256x1024.size inb_S4096x1024_S256x1024_0_0).PackedRows (EltTy.packing .bf16)
  inb_S16_S1_0 : ∀ a, (![0] : Fin 1 → Nat) a + S1.size a ≤ S16.size a
  wordsbf16_S4096x1024_S256x1024_0_0 : (Rect.unit (s := S4096x1024) ![0, 0] S256x1024.size inb_S4096x1024_S256x1024_0_0).WholeWords (EltTy.packing .bf16)
  inb_S3x1024x1024_S1x256x1024_0_256_0 : ∀ a, (![0, 256, 0] : Fin 3 → Nat) a + S1x256x1024.size a ≤ S3x1024x1024.size a
  inb_S4096x1024_S256x1024_256_0 : ∀ a, (![256, 0] : Fin 2 → Nat) a + S256x1024.size a ≤ S4096x1024.size a
  packedbf16_S4096x1024_S256x1024_256_0 : (Rect.unit (s := S4096x1024) ![256, 0] S256x1024.size inb_S4096x1024_S256x1024_256_0).PackedRows (EltTy.packing .bf16)
  inb_S16_S1_1 : ∀ a, (![1] : Fin 1 → Nat) a + S1.size a ≤ S16.size a
  wordsbf16_S4096x1024_S256x1024_256_0 : (Rect.unit (s := S4096x1024) ![256, 0] S256x1024.size inb_S4096x1024_S256x1024_256_0).WholeWords (EltTy.packing .bf16)
  inb_S3x1024x1024_S1x256x1024_0_512_0 : ∀ a, (![0, 512, 0] : Fin 3 → Nat) a + S1x256x1024.size a ≤ S3x1024x1024.size a
  inb_S4096x1024_S256x1024_512_0 : ∀ a, (![512, 0] : Fin 2 → Nat) a + S256x1024.size a ≤ S4096x1024.size a
  packedbf16_S4096x1024_S256x1024_512_0 : (Rect.unit (s := S4096x1024) ![512, 0] S256x1024.size inb_S4096x1024_S256x1024_512_0).PackedRows (EltTy.packing .bf16)
  inb_S16_S1_2 : ∀ a, (![2] : Fin 1 → Nat) a + S1.size a ≤ S16.size a
  wordsbf16_S4096x1024_S256x1024_512_0 : (Rect.unit (s := S4096x1024) ![512, 0] S256x1024.size inb_S4096x1024_S256x1024_512_0).WholeWords (EltTy.packing .bf16)
  inb_S3x1024x1024_S1x256x1024_0_768_0 : ∀ a, (![0, 768, 0] : Fin 3 → Nat) a + S1x256x1024.size a ≤ S3x1024x1024.size a
  inb_S4096x1024_S256x1024_768_0 : ∀ a, (![768, 0] : Fin 2 → Nat) a + S256x1024.size a ≤ S4096x1024.size a
  packedbf16_S4096x1024_S256x1024_768_0 : (Rect.unit (s := S4096x1024) ![768, 0] S256x1024.size inb_S4096x1024_S256x1024_768_0).PackedRows (EltTy.packing .bf16)
  inb_S16_S1_3 : ∀ a, (![3] : Fin 1 → Nat) a + S1.size a ≤ S16.size a
  wordsbf16_S4096x1024_S256x1024_768_0 : (Rect.unit (s := S4096x1024) ![768, 0] S256x1024.size inb_S4096x1024_S256x1024_768_0).WholeWords (EltTy.packing .bf16)
  inb_S4_S1_3 : ∀ a, (![3] : Fin 1 → Nat) a + S1.size a ≤ S4.size a
  inb_S3x1024x1024_S1x256x1024_1_0_0 : ∀ a, (![1, 0, 0] : Fin 3 → Nat) a + S1x256x1024.size a ≤ S3x1024x1024.size a
  inb_S4096x1024_S256x1024_1024_0 : ∀ a, (![1024, 0] : Fin 2 → Nat) a + S256x1024.size a ≤ S4096x1024.size a
  packedbf16_S4096x1024_S256x1024_1024_0 : (Rect.unit (s := S4096x1024) ![1024, 0] S256x1024.size inb_S4096x1024_S256x1024_1024_0).PackedRows (EltTy.packing .bf16)
  inb_S16_S1_4 : ∀ a, (![4] : Fin 1 → Nat) a + S1.size a ≤ S16.size a
  wordsbf16_S4096x1024_S256x1024_1024_0 : (Rect.unit (s := S4096x1024) ![1024, 0] S256x1024.size inb_S4096x1024_S256x1024_1024_0).WholeWords (EltTy.packing .bf16)
  inb_S3x1024x1024_S1x256x1024_1_256_0 : ∀ a, (![1, 256, 0] : Fin 3 → Nat) a + S1x256x1024.size a ≤ S3x1024x1024.size a
  inb_S4096x1024_S256x1024_1280_0 : ∀ a, (![1280, 0] : Fin 2 → Nat) a + S256x1024.size a ≤ S4096x1024.size a
  packedbf16_S4096x1024_S256x1024_1280_0 : (Rect.unit (s := S4096x1024) ![1280, 0] S256x1024.size inb_S4096x1024_S256x1024_1280_0).PackedRows (EltTy.packing .bf16)
  inb_S16_S1_5 : ∀ a, (![5] : Fin 1 → Nat) a + S1.size a ≤ S16.size a
  wordsbf16_S4096x1024_S256x1024_1280_0 : (Rect.unit (s := S4096x1024) ![1280, 0] S256x1024.size inb_S4096x1024_S256x1024_1280_0).WholeWords (EltTy.packing .bf16)
  inb_S3x1024x1024_S1x256x1024_1_512_0 : ∀ a, (![1, 512, 0] : Fin 3 → Nat) a + S1x256x1024.size a ≤ S3x1024x1024.size a
  inb_S4096x1024_S256x1024_1536_0 : ∀ a, (![1536, 0] : Fin 2 → Nat) a + S256x1024.size a ≤ S4096x1024.size a
  packedbf16_S4096x1024_S256x1024_1536_0 : (Rect.unit (s := S4096x1024) ![1536, 0] S256x1024.size inb_S4096x1024_S256x1024_1536_0).PackedRows (EltTy.packing .bf16)
  inb_S16_S1_6 : ∀ a, (![6] : Fin 1 → Nat) a + S1.size a ≤ S16.size a
  wordsbf16_S4096x1024_S256x1024_1536_0 : (Rect.unit (s := S4096x1024) ![1536, 0] S256x1024.size inb_S4096x1024_S256x1024_1536_0).WholeWords (EltTy.packing .bf16)
  inb_S3x1024x1024_S1x256x1024_1_768_0 : ∀ a, (![1, 768, 0] : Fin 3 → Nat) a + S1x256x1024.size a ≤ S3x1024x1024.size a
  inb_S4096x1024_S256x1024_1792_0 : ∀ a, (![1792, 0] : Fin 2 → Nat) a + S256x1024.size a ≤ S4096x1024.size a
  packedbf16_S4096x1024_S256x1024_1792_0 : (Rect.unit (s := S4096x1024) ![1792, 0] S256x1024.size inb_S4096x1024_S256x1024_1792_0).PackedRows (EltTy.packing .bf16)
  inb_S16_S1_7 : ∀ a, (![7] : Fin 1 → Nat) a + S1.size a ≤ S16.size a
  wordsbf16_S4096x1024_S256x1024_1792_0 : (Rect.unit (s := S4096x1024) ![1792, 0] S256x1024.size inb_S4096x1024_S256x1024_1792_0).WholeWords (EltTy.packing .bf16)
  inb_S3x1024x1024_S1x256x1024_2_0_0 : ∀ a, (![2, 0, 0] : Fin 3 → Nat) a + S1x256x1024.size a ≤ S3x1024x1024.size a
  inb_S4096x1024_S256x1024_2048_0 : ∀ a, (![2048, 0] : Fin 2 → Nat) a + S256x1024.size a ≤ S4096x1024.size a
  packedbf16_S4096x1024_S256x1024_2048_0 : (Rect.unit (s := S4096x1024) ![2048, 0] S256x1024.size inb_S4096x1024_S256x1024_2048_0).PackedRows (EltTy.packing .bf16)
  inb_S16_S1_8 : ∀ a, (![8] : Fin 1 → Nat) a + S1.size a ≤ S16.size a
  wordsbf16_S4096x1024_S256x1024_2048_0 : (Rect.unit (s := S4096x1024) ![2048, 0] S256x1024.size inb_S4096x1024_S256x1024_2048_0).WholeWords (EltTy.packing .bf16)
  inb_S3x1024x1024_S1x256x1024_2_256_0 : ∀ a, (![2, 256, 0] : Fin 3 → Nat) a + S1x256x1024.size a ≤ S3x1024x1024.size a
  inb_S4096x1024_S256x1024_2304_0 : ∀ a, (![2304, 0] : Fin 2 → Nat) a + S256x1024.size a ≤ S4096x1024.size a
  packedbf16_S4096x1024_S256x1024_2304_0 : (Rect.unit (s := S4096x1024) ![2304, 0] S256x1024.size inb_S4096x1024_S256x1024_2304_0).PackedRows (EltTy.packing .bf16)
  inb_S16_S1_9 : ∀ a, (![9] : Fin 1 → Nat) a + S1.size a ≤ S16.size a
  wordsbf16_S4096x1024_S256x1024_2304_0 : (Rect.unit (s := S4096x1024) ![2304, 0] S256x1024.size inb_S4096x1024_S256x1024_2304_0).WholeWords (EltTy.packing .bf16)
  inb_S3x1024x1024_S1x256x1024_2_512_0 : ∀ a, (![2, 512, 0] : Fin 3 → Nat) a + S1x256x1024.size a ≤ S3x1024x1024.size a
  inb_S4096x1024_S256x1024_2560_0 : ∀ a, (![2560, 0] : Fin 2 → Nat) a + S256x1024.size a ≤ S4096x1024.size a
  packedbf16_S4096x1024_S256x1024_2560_0 : (Rect.unit (s := S4096x1024) ![2560, 0] S256x1024.size inb_S4096x1024_S256x1024_2560_0).PackedRows (EltTy.packing .bf16)
  inb_S16_S1_10 : ∀ a, (![10] : Fin 1 → Nat) a + S1.size a ≤ S16.size a
  wordsbf16_S4096x1024_S256x1024_2560_0 : (Rect.unit (s := S4096x1024) ![2560, 0] S256x1024.size inb_S4096x1024_S256x1024_2560_0).WholeWords (EltTy.packing .bf16)
  inb_S3x1024x1024_S1x256x1024_2_768_0 : ∀ a, (![2, 768, 0] : Fin 3 → Nat) a + S1x256x1024.size a ≤ S3x1024x1024.size a
  inb_S4096x1024_S256x1024_2816_0 : ∀ a, (![2816, 0] : Fin 2 → Nat) a + S256x1024.size a ≤ S4096x1024.size a
  packedbf16_S4096x1024_S256x1024_2816_0 : (Rect.unit (s := S4096x1024) ![2816, 0] S256x1024.size inb_S4096x1024_S256x1024_2816_0).PackedRows (EltTy.packing .bf16)
  inb_S16_S1_11 : ∀ a, (![11] : Fin 1 → Nat) a + S1.size a ≤ S16.size a
  wordsbf16_S4096x1024_S256x1024_2816_0 : (Rect.unit (s := S4096x1024) ![2816, 0] S256x1024.size inb_S4096x1024_S256x1024_2816_0).WholeWords (EltTy.packing .bf16)
  inb_S4096x1024_S256x1024_3072_0 : ∀ a, (![3072, 0] : Fin 2 → Nat) a + S256x1024.size a ≤ S4096x1024.size a
  packedbf16_S4096x1024_S256x1024_3072_0 : (Rect.unit (s := S4096x1024) ![3072, 0] S256x1024.size inb_S4096x1024_S256x1024_3072_0).PackedRows (EltTy.packing .bf16)
  inb_S16_S1_12 : ∀ a, (![12] : Fin 1 → Nat) a + S1.size a ≤ S16.size a
  wordsbf16_S4096x1024_S256x1024_3072_0 : (Rect.unit (s := S4096x1024) ![3072, 0] S256x1024.size inb_S4096x1024_S256x1024_3072_0).WholeWords (EltTy.packing .bf16)
  inb_S4096x1024_S256x1024_3328_0 : ∀ a, (![3328, 0] : Fin 2 → Nat) a + S256x1024.size a ≤ S4096x1024.size a
  packedbf16_S4096x1024_S256x1024_3328_0 : (Rect.unit (s := S4096x1024) ![3328, 0] S256x1024.size inb_S4096x1024_S256x1024_3328_0).PackedRows (EltTy.packing .bf16)
  inb_S16_S1_13 : ∀ a, (![13] : Fin 1 → Nat) a + S1.size a ≤ S16.size a
  wordsbf16_S4096x1024_S256x1024_3328_0 : (Rect.unit (s := S4096x1024) ![3328, 0] S256x1024.size inb_S4096x1024_S256x1024_3328_0).WholeWords (EltTy.packing .bf16)
  inb_S4096x1024_S256x1024_3584_0 : ∀ a, (![3584, 0] : Fin 2 → Nat) a + S256x1024.size a ≤ S4096x1024.size a
  packedbf16_S4096x1024_S256x1024_3584_0 : (Rect.unit (s := S4096x1024) ![3584, 0] S256x1024.size inb_S4096x1024_S256x1024_3584_0).PackedRows (EltTy.packing .bf16)
  inb_S16_S1_14 : ∀ a, (![14] : Fin 1 → Nat) a + S1.size a ≤ S16.size a
  wordsbf16_S4096x1024_S256x1024_3584_0 : (Rect.unit (s := S4096x1024) ![3584, 0] S256x1024.size inb_S4096x1024_S256x1024_3584_0).WholeWords (EltTy.packing .bf16)
  inb_S4096x1024_S256x1024_3840_0 : ∀ a, (![3840, 0] : Fin 2 → Nat) a + S256x1024.size a ≤ S4096x1024.size a
  packedbf16_S4096x1024_S256x1024_3840_0 : (Rect.unit (s := S4096x1024) ![3840, 0] S256x1024.size inb_S4096x1024_S256x1024_3840_0).PackedRows (EltTy.packing .bf16)
  inb_S16_S1_15 : ∀ a, (![15] : Fin 1 → Nat) a + S1.size a ≤ S16.size a
  wordsbf16_S4096x1024_S256x1024_3840_0 : (Rect.unit (s := S4096x1024) ![3840, 0] S256x1024.size inb_S4096x1024_S256x1024_3840_0).WholeWords (EltTy.packing .bf16)
  hcc0_scratch3 : 0 + S4.numel ≤ 84
  hcc0_scratch4 : 4 + S16.numel ≤ 84
  hcc0_scratch5 : 20 + S16.numel ≤ 84
  hcc0_scratch6 : 36 + S16.numel ≤ 84
  hcc0_scratch7 : 52 + S16.numel ≤ 84
  hcc0_scratch8 : 68 + S16.numel ≤ 84
  k0_off1_inb : ∀ d0 : Dev nD, ∀ (r : Fin 4), ∀ a, (k0_off1 d0 (BitVec.ofNat 32 (1024 * r.val))) a + S1024x1024.size a ≤ S8192x1024.size a
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_off2_inb : ∀ d0 : Dev nD, ∀ (r : Fin 16), ∀ a, (k0_off2 d0 (BitVec.ofNat 32 (256 * r.val))) a + S256x1024.size a ≤ S8192x1024.size a
  k0_off2_wordsbf16 : ∀ d0 : Dev nD, ∀ (r : Fin 16), (Rect.unit (s := S8192x1024) (k0_off2 d0 (BitVec.ofNat 32 (256 * r.val))) S256x1024.size (k0_off2_inb d0 r)).WholeWords (EltTy.packing .bf16)
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_off3_inb : ∀ d0 : Dev nD, ∀ (r : Fin 16), ∀ a, (k0_off3 d0 (BitVec.ofNat 32 (256 * r.val))) a + S256x1024.size a ≤ S8192x1024.size a
  k0_off3_wordsbf16 : ∀ d0 : Dev nD, ∀ (r : Fin 16), (Rect.unit (s := S8192x1024) (k0_off3 d0 (BitVec.ofNat 32 (256 * r.val))) S256x1024.size (k0_off3_inb d0 r)).WholeWords (EltTy.packing .bf16)

variable [Facts₀]

abbrev cc0_scratch3 : DmaSems sig S4 := SemArray.consecutive 0 S4 hcc0_scratch3
abbrev cc0_scratch4 : DmaSems sig S16 := SemArray.consecutive 4 S16 hcc0_scratch4
abbrev cc0_scratch5 : DmaSems sig S16 := SemArray.consecutive 20 S16 hcc0_scratch5
abbrev cc0_scratch6 : DmaSems sig S16 := SemArray.consecutive 36 S16 hcc0_scratch6
abbrev cc0_scratch7 : DmaSems sig S16 := SemArray.consecutive 52 S16 hcc0_scratch7
abbrev cc0_scratch8 : DmaSems sig S16 := SemArray.consecutive 68 S16 hcc0_scratch8

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S16384x1024 : Shape := ⟨2, ![16384, 1024]⟩
abbrev S2x8192x1024 : Shape := ⟨3, ![2, 8192, 1024]⟩
abbrev S_ : Shape := ⟨0, ![]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x8192x1024, .f32⟩
  | .hbm, ⟨2, _⟩ => ⟨S_, .f32⟩
  | .hbm, ⟨3, _⟩ => ⟨S8192x1024, .f32⟩
  | .hbm, ⟨4, _⟩ => ⟨S8192x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S16384x1024_S2x8192x1024 : S16384x1024.ShapeCasts S2x8192x1024
  reducesTo_S2x8192x1024_S8192x1024_d0 : S2x8192x1024.ReducesTo [0] S8192x1024
  h_S_ : 0 < S_.numel
  bitsLt_bf16_f32 : FTy.bits .bf16 < FTy.bits .f32

variable [Facts₀]

class Facts : Prop extends Facts₀ where

variable [Facts]
-- ==== Proof.MeshKernel.lean ====
import proofs.«900136_g7700000000000137_dist_ar_v7x_xy2x2_x_m8192_n1024_bf16_1_alg».proof.Proof.Gen.Kernel
import proofs.«900136_g7700000000000137_dist_ar_v7x_xy2x2_x_m8192_n1024_bf16_1_alg».proof.Proof.Gen.Kernel.Skeleton
import proofs.«900136_g7700000000000137_dist_ar_v7x_xy2x2_x_m8192_n1024_bf16_1_alg».proof.Proof.Gen.Kernel.Launch
import proofs.«900136_g7700000000000137_dist_ar_v7x_xy2x2_x_m8192_n1024_bf16_1_alg».proof.Proof.Gen.Kernel.Points
import proofs.«900136_g7700000000000137_dist_ar_v7x_xy2x2_x_m8192_n1024_bf16_1_alg».proof.Proof.Gen.Kernel.Frame

import Idealize.ShloMosaic.Lib.Pipeline.Launch
import Idealize.ShloMosaic.Lib.Pipeline.Kit
import Idealize.ShloMosaic.Lib.Pipeline.Value
import Idealize.ShloMosaic.Lib.Tactic

noncomputable section

namespace Cert.KernelProof

open Cert.Kernel Cert.Kernel.Gen

open Idealize.ShloMosaic
open Idealize.ShloMosaic.TcCoe

/-- Device `c = 2·cx + cy`: its partner along x flips `cx`, its partner along y flips `cy`. -/
def xn (c : Dev nD) : Dev nD := ⟨(c.val % 2 + 2) - 2 * (c.val / 2), by have := c.isLt; revert this; generalize c.val = v; decide +revert⟩
def yn (c : Dev nD) : Dev nD := ⟨(2 * (c.val / 2) + 1) - c.val % 2, by have := c.isLt; revert this; generalize c.val = v; decide +revert⟩

theorem xn_xn (c : Dev nD) : xn (xn c) = c := by revert c; decide
theorem yn_yn (c : Dev nD) : yn (yn c) = c := by revert c; decide
theorem xn_mod (c : Dev nD) : (xn c).val % 2 = c.val % 2 := by revert c; decide
theorem yn_mod (c : Dev nD) : (yn c).val % 2 = 1 - c.val % 2 := by revert c; decide
theorem xn_div (c : Dev nD) : (xn c).val / 2 = 1 - c.val / 2 := by revert c; decide

def xswap : Dev nD ≃ Dev nD := ⟨xn, xn, xn_xn, xn_xn⟩
def yswap : Dev nD ≃ Dev nD := ⟨yn, yn, yn_yn, yn_yn⟩

end Cert.KernelProof

end
-- ==== Proof.ProtoKernel.lean ====
import proofs.«900136_g7700000000000137_dist_ar_v7x_xy2x2_x_m8192_n1024_bf16_1_alg».proof.Proof.MeshKernel
import Idealize.ShloMosaic.Lib.ValueIdx

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

abbrev inB : Memref sig .tc .hbm S8192x1024 .f32 := Memref.whole main_arg0
abbrev outB : Memref sig .tc .hbm S8192x1024 .bf16 := Memref.whole main_v1
abbrev stB : Memref sig .tc .vmem S3x1024x1024 .f32 := Memref.whole cc0_scratch0
abbrev sxB : Memref sig .tc .vmem S4096x1024 .bf16 := Memref.whole cc0_scratch1
abbrev rxB : Memref sig .tc .vmem S4096x1024 .bf16 := Memref.whole cc0_scratch2

theorem chunk_inb (j : Fin 16) : ∀ a, (![256 * j.val, 0] : Fin 2 → Nat) a + S256x1024.size a ≤ S4096x1024.size a :=
  Rect.inb₂ (by show 256 * j.val + 256 ≤ 4096; omega) (by show 0 + 1024 ≤ 1024; omega)
theorem slot_inb (s : Fin 3) : ∀ a, (![s.val, 0, 0] : Fin 3 → Nat) a + S1x1024x1024.size a ≤ S3x1024x1024.size a := by
  intro a
  match a with
  | ⟨0, _⟩ => show s.val + 1 ≤ 3; omega
  | ⟨1, _⟩ => show 0 + 1024 ≤ 1024; omega
  | ⟨2, _⟩ => show 0 + 1024 ≤ 1024; omega

abbrev chunkR (j : Fin 16) : Rect S4096x1024 := Rect.unit (s := S4096x1024) ![256 * j.val, 0] S256x1024.size (chunk_inb j)
abbrev sxC (j : Fin 16) : Memref sig .tc .vmem S256x1024 .bf16 := sxB.slice (chunkR j) (fun _ => rfl)
abbrev rxC (j : Fin 16) : Memref sig .tc .vmem S256x1024 .bf16 := rxB.slice (chunkR j) (fun _ => rfl)
abbrev outMe (c : Dev nD) (j : Fin 16) : Memref sig .tc .hbm S256x1024 .bf16 :=
  outB.slice (Rect.unit (s := S8192x1024) (k0_off2 c (BitVec.ofNat 32 (256 * j.val))) S256x1024.size (k0_off2_inb c j)) (fun _ => rfl)
abbrev outOt (c : Dev nD) (j : Fin 16) : Memref sig .tc .hbm S256x1024 .bf16 :=
  outB.slice (Rect.unit (s := S8192x1024) (k0_off3 c (BitVec.ofNat 32 (256 * j.val))) S256x1024.size (k0_off3_inb c j)) (fun _ => rfl)
abbrev inBlk (c : Dev nD) (b : Fin 4) : Memref sig .tc .hbm S1024x1024 .f32 :=
  inB.slice (Rect.unit (s := S8192x1024) (k0_off1 c (BitVec.ofNat 32 (1024 * b.val))) S1024x1024.size (k0_off1_inb c b)) (fun _ => rfl)
abbrev slot (s : Fin 3) : Memref sig .tc .vmem S1024x1024 .f32 :=
  (stB.slice (Rect.unit (s := S3x1024x1024) ![s.val, 0, 0] S1x1024x1024.size (slot_inb s)) (fun _ => rfl)).squeeze S1024x1024 squeezes_S1x1024x1024_S1024x1024

abbrev barS : Sem sig := (SemArray.scalar (sig.barrier 0 rfl) : Sems sig S_).sem
def csS (b : Fin 4) : DmaSem sig := ⟨b.val, by show b.val < 84; omega⟩
def rsS (j : Fin 16) : DmaSem sig := ⟨4 + j.val, by show 4 + j.val < 84; omega⟩
def sxS (j : Fin 16) : DmaSem sig := ⟨20 + j.val, by show 20 + j.val < 84; omega⟩
def rxS (j : Fin 16) : DmaSem sig := ⟨36 + j.val, by show 36 + j.val < 84; omega⟩
def syS (j : Fin 16) : DmaSem sig := ⟨52 + j.val, by show 52 + j.val < 84; omega⟩
def ryS (j : Fin 16) : DmaSem sig := ⟨68 + j.val, by show 68 + j.val < 84; omega⟩

abbrev barCell (c : Dev nD) : GSem nD τ sig := ((c : Thread nD τ), .reg barS)
abbrev csCell (c : Dev nD) (b : Fin 4) : GSem nD τ sig := ((c : Thread nD τ), .dma (csS b))
abbrev rsCell (c : Dev nD) (j : Fin 16) : GSem nD τ sig := ((c : Thread nD τ), .dma (rsS j))
abbrev sxCell (c : Dev nD) (j : Fin 16) : GSem nD τ sig := ((c : Thread nD τ), .dma (sxS j))
abbrev rxCell (c : Dev nD) (j : Fin 16) : GSem nD τ sig := ((c : Thread nD τ), .dma (rxS j))
abbrev syCell (c : Dev nD) (j : Fin 16) : GSem nD τ sig := ((c : Thread nD τ), .dma (syS j))
abbrev ryCell (c : Dev nD) (j : Fin 16) : GSem nD τ sig := ((c : Thread nD τ), .dma (ryS j))

def NB : ℕ := (slot 0).view.dmaCredit
def NV : ℕ := (rxC 0).view.dmaCredit
def NH (c : Dev nD) : ℕ := (outMe c 0).view.dmaCredit

def A (c : Dev nD) : S8192x1024.Idx → F .f32 := m ((c : Thread nD τ).loc main_arg0)

def up (c : Dev nD) (i : S4096x1024.Idx) : S8192x1024.Idx :=
  ix2 (n0 := 8192) (n1 := 1024) ⟨4096 * (c.val % 2) + (i 0).val, by have := idx2_lt0 i; omega⟩ (i 1)
def low (i : S8192x1024.Idx) : S4096x1024.Idx :=
  ix2 (n0 := 4096) (n1 := 1024) ⟨(i 0).val % 4096, Nat.mod_lt _ (by decide)⟩ (i 1)

/-- The device's half of `x` narrowed; what lands is the x-partner's; their sum; the result holds the sum on the own half, the y-partner's on the other. -/
def SX1 (c : Dev nD) : S4096x1024.Idx → F .bf16 := fun i => FloatOps.truncf .bf16 (by decide) (A m c (up c i))
def RX (c : Dev nD) : S4096x1024.Idx → F .bf16 := SX1 m (xn c)
def SX2 (c : Dev nD) : S4096x1024.Idx → F .bf16 := fun i => FloatOps.addf (SX1 m c i) (RX m c i)
def OUT (c : Dev nD) : S8192x1024.Idx → F .bf16 := fun i =>
  if (i 0).val / 4096 = c.val % 2 then SX2 m c (low i) else SX2 m (yn c) (low i)

end Cert.KernelProof

end
-- ==== Proof.SchedKernel.lean ====
import proofs.«900136_g7700000000000137_dist_ar_v7x_xy2x2_x_m8192_n1024_bf16_1_alg».proof.Proof.ProtoKernel

noncomputable section

namespace Cert.KernelProof

open Cert.Kernel Cert.Kernel.Gen

open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

variable (m : (ℓ : Loc nD τ sig) → Buf (Elt F) ℓ)

def slotOf (b : Fin 4) : Fin 3 := ⟨b.val % 3, Nat.mod_lt _ (by decide)⟩

def XST (o : Dev nD) (b : Fin 4) : S3x1024x1024.Idx → F .f32 := fun i =>
  A m o (ix2 (n0 := 8192) (n1 := 1024)
    ⟨4096 * (o.val % 2) + 1024 * b.val + (i 1).val, by
      have h1 : (i 1).val < 1024 := (i 1).isLt; omega⟩ (i 2))

abbrev piece {κsp : Space} {sh : Shape} {e : EltTy} (t : Dev nD) (M : Memref sig .tc κsp sh e) (q : PosShare TreeShare)
    (f : Buf (Elt F) (M.view.loc (t : Thread nD τ))) : sProp 𝕄 :=
  M.view.loc (t : Thread nD τ) ↦[M.view.set]{q} f

def csPay (o : Dev nD) (b : Fin 4) : sProp 𝕄 :=
  iprop(piece o (slot (slotOf b)) fullShare (XST m o b) ∗ piece o (inBlk o b) fullShare (A m o))
def sxPay (o : Dev nD) (j : Fin 16) : sProp 𝕄 := piece o (sxC j) fullShare (SX1 m o)
def rxPay (o : Dev nD) (j : Fin 16) : sProp 𝕄 := piece o (rxC j) fullShare (RX m o)
def syPay (o : Dev nD) (j : Fin 16) : sProp 𝕄 := piece o (sxC j) fullShare.left (SX2 m o)
def ryPay (o : Dev nD) (j : Fin 16) : sProp 𝕄 := piece o (outOt o j) fullShare (OUT m o)
def rsPay (o : Dev nD) (j : Fin 16) : sProp 𝕄 :=
  iprop(piece o (outMe o j) fullShare (OUT m o) ∗ piece o (sxC j) fullShare.right (SX2 m o))
def barPayX (o : Dev nD) : sProp 𝕄 := bigSep Finset.univ fun j : Fin 16 => iprop(∃ f, piece (xn o) (rxC j) fullShare f)
def barPayY (o : Dev nD) : sProp 𝕄 := bigSep Finset.univ fun j : Fin 16 => iprop(∃ f, piece (yn o) (outMe o j) fullShare f)

inductive Kind where
  | cs (b : Fin 4) | rs (j : Fin 16) | sx (j : Fin 16) | rx (j : Fin 16) | sy (j : Fin 16) | ry (j : Fin 16)

def kindOf (n : DmaSem sig) : Kind :=
  if h0 : n.val < 4 then .cs ⟨n.val, h0⟩
  else if h1 : n.val < 20 then .rs ⟨n.val - 4, by omega⟩
  else if h2 : n.val < 36 then .sx ⟨n.val - 20, by omega⟩
  else if h3 : n.val < 52 then .rx ⟨n.val - 36, by omega⟩
  else if h4 : n.val < 68 then .sy ⟨n.val - 52, by omega⟩
  else .ry ⟨n.val - 68, by have : n.val < 84 := n.isLt; omega⟩

/-- `kindOf` inverts each of the six numberings: the range tests decide, and the offset cancels. -/
theorem kindOf_cs (b : Fin 4) : kindOf (csS b) = .cs b := dif_pos (show (csS b).val < 4 from b.isLt)
theorem kindOf_rs (j : Fin 16) : kindOf (rsS j) = .rs j := by
  simp (disch := omega) only [kindOf, rsS, dif_pos, dif_neg, Nat.add_sub_cancel_left]
theorem kindOf_sx (j : Fin 16) : kindOf (sxS j) = .sx j := by
  simp (disch := omega) only [kindOf, sxS, dif_pos, dif_neg, Nat.add_sub_cancel_left]
theorem kindOf_rx (j : Fin 16) : kindOf (rxS j) = .rx j := by
  simp (disch := omega) only [kindOf, rxS, dif_pos, dif_neg, Nat.add_sub_cancel_left]
theorem kindOf_sy (j : Fin 16) : kindOf (syS j) = .sy j := by
  simp (disch := omega) only [kindOf, syS, dif_pos, dif_neg, Nat.add_sub_cancel_left]
theorem kindOf_ry (j : Fin 16) : kindOf (ryS j) = .ry j := by
  simp (disch := omega) only [kindOf, ryS, dif_pos, dif_neg, Nat.add_sub_cancel_left]

def dmaPay (o : Dev nD) : Kind → sProp 𝕄
  | .cs b => csPay m o b | .rs j => rsPay m o j | .sx j => sxPay m o j | .rx j => rxPay m o j | .sy j => syPay m o j | .ry j => ryPay m o j

def dmaAmt (o : Dev nD) : Kind → ℕ
  | .cs _ => NB | .rs _ => NH o | .sx _ => NV | .rx _ => NV | .sy _ => NH o | .ry _ => NH o

theorem h_S1024x1024 : 0 < S1024x1024.numel := by decide +kernel
theorem NB_pos : 0 < NB := View.dmaCredit_pos (slot 0).view h_S1024x1024
theorem NV_pos : 0 < NV := View.dmaCredit_pos (rxC 0).view h_S256x1024
theorem NH_pos (c : Dev nD) : 0 < NH c := View.dmaCredit_pos (outMe c 0).view h_S256x1024

theorem dmaAmt_pos (o : Dev nD) (k : Kind) : 0 < dmaAmt o k := by
  cases k <;> first | exact NB_pos | exact NV_pos | exact NH_pos o

def cellAmt (g : GSem nD τ sig) : ℕ := match g.2 with | .reg _ => 1 | .dma n => dmaAmt g.1.1 (kindOf n)
theorem cellAmt_pos (g : GSem nD τ sig) : 0 < cellAmt g := by
  rcases g with ⟨t, s⟩
  cases s with
  | reg s => exact Nat.one_pos
  | dma n => exact dmaAmt_pos t.1 (kindOf n)
def cellDuties (g : GSem nD τ sig) (r : ℕ) : Finset Bool :=
  if r = 0 ∧ g.1.2 = .tc then (match g.2 with | .reg s => if s = barS then Finset.univ else ∅ | .dma _ => {false}) else ∅
def cellPay (g : GSem nD τ sig) (d : Bool) : sProp 𝕄 :=
  match g.2 with
  | .reg _ => if d then barPayY g.1.1 else barPayX g.1.1
  | .dma n => dmaPay m g.1.1 (kindOf n)

/-- One round: a barrier cell has a duty from each partner, a DMA cell one; each duty hands the cell's owner its payload. -/
def Rd : Rounds.Schedule (GSem nD τ sig) Bool 𝕄 where
  duties := cellDuties
  unitless _ := False
  amount g _ _ := cellAmt g
  payload g _ d := cellPay m g d
  amount_pos g _ _ _ := cellAmt_pos g

end Cert.KernelProof

end
-- ==== Proof.TablesKernel.lean ====
import proofs.«900136_g7700000000000137_dist_ar_v7x_xy2x2_x_m8192_n1024_bf16_1_alg».proof.Proof.Gen.Kernel
import proofs.«900136_g7700000000000137_dist_ar_v7x_xy2x2_x_m8192_n1024_bf16_1_alg».proof.Proof.Gen.Kernel.Skeleton
import proofs.«900136_g7700000000000137_dist_ar_v7x_xy2x2_x_m8192_n1024_bf16_1_alg».proof.Proof.Gen.Kernel.Launch
import proofs.«900136_g7700000000000137_dist_ar_v7x_xy2x2_x_m8192_n1024_bf16_1_alg».proof.Proof.Gen.Kernel.Points
import proofs.«900136_g7700000000000137_dist_ar_v7x_xy2x2_x_m8192_n1024_bf16_1_alg».proof.Proof.Gen.Kernel.Frame
import proofs.«900136_g7700000000000137_dist_ar_v7x_xy2x2_x_m8192_n1024_bf16_1_alg».proof.Proof.SchedKernel

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Tables
variable (c : Dev nD)

theorem duties_bar : (Rd (F := F) m).duties (barCell c) 0 = Finset.univ := by
  show cellDuties (barCell c) 0 = _; unfold cellDuties; rw [if_pos ⟨rfl, rfl⟩]; exact if_pos rfl
theorem duties_dma (n : DmaSem sig) : (Rd (F := F) m).duties ((c : Thread nD τ), .dma n) 0 = {false} := by
  show cellDuties ((c : Thread nD τ), .dma n) 0 = _; unfold cellDuties; rw [if_pos ⟨rfl, rfl⟩]
theorem duties_later (g : GSem nD τ sig) : ∀ r, 1 ≤ r → (Rd (F := F) m).duties g r = ∅ :=
  fun r hr => by show cellDuties g r = _; unfold cellDuties; rw [if_neg fun h => by omega]

theorem amount_bar (d : Bool) : (Rd (F := F) m).amount (barCell c) 0 d = 1 := rfl
theorem payload_bar_false : (Rd (F := F) m).payload (barCell c) 0 false = barPayX c := rfl
theorem payload_bar_true : (Rd (F := F) m).payload (barCell c) 0 true = barPayY c := rfl
theorem expect_bar : (Rd (F := F) m).expect (barCell c) 0 = 2 := by
  unfold Schedule.expect Schedule.amountOf
  rw [duties_bar, Finset.sum_congr rfl fun d _ => amount_bar m c d, Finset.sum_const, Finset.card_univ, Fintype.card_bool, smul_eq_mul]

theorem rest_bar : bigSep ((Rd (F := F) m).duties (barCell c) 0 \ ∅) (fun d => (Rd (F := F) m).payload (barCell c) 0 d) = iprop(barPayX c ∗ barPayY c) := by
  rw [Finset.sdiff_empty, duties_bar, bigSep_univ_eq_bigSepL [false, true] (by decide) (by decide), bigSepL_cons_cons, bigSepL_singleton,
    payload_bar_false, payload_bar_true]
  rfl

theorem amount_cs (j : Fin 4) (d : Bool) : (Rd (F := F) m).amount (csCell c j) 0 d = NB := by
  show dmaAmt c (kindOf _) = _; rw [kindOf_cs]; rfl
theorem payload_cs (j : Fin 4) (d : Bool) : (Rd (F := F) m).payload (csCell c j) 0 d = csPay m c j := by
  show dmaPay m c (kindOf _) = _; rw [kindOf_cs]; rfl

theorem amount_rs (j : Fin 16) (d : Bool) : (Rd (F := F) m).amount (rsCell c j) 0 d = NH c := by
  show dmaAmt c (kindOf _) = _; rw [kindOf_rs]; rfl
theorem payload_rs (j : Fin 16) (d : Bool) : (Rd (F := F) m).payload (rsCell c j) 0 d = rsPay m c j := by
  show dmaPay m c (kindOf _) = _; rw [kindOf_rs]; rfl

theorem amount_sx (j : Fin 16) (d : Bool) : (Rd (F := F) m).amount (sxCell c j) 0 d = NV := by
  show dmaAmt c (kindOf _) = _; rw [kindOf_sx]; rfl
theorem payload_sx (j : Fin 16) (d : Bool) : (Rd (F := F) m).payload (sxCell c j) 0 d = sxPay m c j := by
  show dmaPay m c (kindOf _) = _; rw [kindOf_sx]; rfl

theorem amount_rx (j : Fin 16) (d : Bool) : (Rd (F := F) m).amount (rxCell c j) 0 d = NV := by
  show dmaAmt c (kindOf _) = _; rw [kindOf_rx]; rfl
theorem payload_rx (j : Fin 16) (d : Bool) : (Rd (F := F) m).payload (rxCell c j) 0 d = rxPay m c j := by
  show dmaPay m c (kindOf _) = _; rw [kindOf_rx]; rfl

theorem amount_sy (j : Fin 16) (d : Bool) : (Rd (F := F) m).amount (syCell c j) 0 d = NH c := by
  show dmaAmt c (kindOf _) = _; rw [kindOf_sy]; rfl
theorem payload_sy (j : Fin 16) (d : Bool) : (Rd (F := F) m).payload (syCell c j) 0 d = syPay m c j := by
  show dmaPay m c (kindOf _) = _; rw [kindOf_sy]; rfl

theorem amount_ry (j : Fin 16) (d : Bool) : (Rd (F := F) m).amount (ryCell c j) 0 d = NH c := by
  show dmaAmt c (kindOf _) = _; rw [kindOf_ry]; rfl
theorem payload_ry (j : Fin 16) (d : Bool) : (Rd (F := F) m).payload (ryCell c j) 0 d = ryPay m c j := by
  show dmaPay m c (kindOf _) = _; rw [kindOf_ry]; rfl

end Tables

instance Rd_payload_storable (g : GSem nD τ sig) (r : ℕ) (d : Bool) :
    BI.Storable (upEmb : UEmb _ 𝕄) ((Rd (F := F) m).payload g r d) := by
  rcases g with ⟨t, s⟩
  cases s with
  | reg s =>
    show BI.Storable upEmb (if d then barPayY t.1 else barPayX t.1)
    unfold barPayY barPayX
    split <;> infer_instance
  | dma n =>
    show BI.Storable upEmb (dmaPay m t.1 (kindOf n))
    cases kindOf n <;> (unfold dmaPay csPay rsPay sxPay rxPay syPay ryPay; infer_instance)

end Cert.KernelProof

end
-- ==== Proof.LevelsKernel.lean ====
import proofs.«900136_g7700000000000137_dist_ar_v7x_xy2x2_x_m8192_n1024_bf16_1_alg».proof.Proof.ProtoKernel

noncomputable section

namespace Cert.KernelProof

open Cert.Kernel Cert.Kernel.Gen

open Idealize.ShloMosaic
open Idealize.ShloMosaic.TcCoe
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The dues from the last paid (`k = 0`) to the first (`k = 33`): the y-landings, the x-landings, the two barrier units. -/
def due (c : Dev nD) (k : ℕ) : CellTallies nD τ sig Unit :=
  if h : k < 16 then tallyAt (ryCell (yn c) ⟨15 - k, by omega⟩) () (NH c)
  else if h : k < 32 then tallyAt (rxCell (xn c) ⟨31 - k, by omega⟩) () NV
  else if k = 32 then tallyAt (barCell (yn c)) () 1
  else tallyAt (barCell (xn c)) () 1

def owedUpTo (c : Dev nD) : ℕ → CellTallies nD τ sig Unit
  | 0 => 0
  | k + 1 => owedUpTo c k + due c k

def O₀ (c : Dev nD) : CellTallies nD τ sig Unit := owedUpTo c 34

def L (g : GSem nD τ sig) : Finset Unit := if g.1.2 = .tc then {()} else ∅
/-- Barrier cells at level 1, the landing cells of the first exchange at 2, of the second at 3, every other cell at 0. -/
def lv (g : GSem nD τ sig) (_ : Unit) : ℕ :=
  match g.2 with
  | .reg _ => 1
  | .dma n => if 36 ≤ n.val ∧ n.val < 52 then 2 else if 68 ≤ n.val then 3 else 0

theorem L_of_ne (g : GSem nD τ sig) (h : g.1.2 ≠ .tc) : L g = ∅ := if_neg h
theorem L_tc (c : Dev nD) (sm : SemLoc sig) : L ((c : Thread nD τ), sm) = {()} := if_pos rfl

theorem lv_rx (d : Dev nD) (j : Fin 16) : lv (rxCell d j) () = 2 :=
  if_pos (show 36 ≤ 36 + j.val ∧ 36 + j.val < 52 by omega)

theorem lv_ry (d : Dev nD) (j : Fin 16) : lv (ryCell d j) () = 3 :=
  (if_neg (show ¬ (36 ≤ 68 + j.val ∧ 68 + j.val < 52) by omega)).trans (if_pos (show 68 ≤ 68 + j.val by omega))

theorem owedUpTo_pos {c : Dev nD} {k : ℕ} {g : GSem nD τ sig} {u : Unit} (h : 0 < owedUpTo c k g u) :
    ∃ i, i < k ∧ 0 < due c i g u := by
  induction k with
  | zero => exact absurd h (Nat.lt_irrefl 0)
  | succ k ih =>
    rcases Pipeline.add_pos_cases (show 0 < (owedUpTo c k + due c k) g u from h) with h' | h'
    · obtain ⟨i, hi, hd⟩ := ih h'
      exact ⟨i, Nat.lt_succ_of_lt hi, hd⟩
    · exact ⟨k, Nat.lt_succ_self k, h'⟩

/-- Every due sits on a barrier cell (level 1) or on a landing cell of the first (2) or second (3) exchange. -/
theorem due_pos {c : Dev nD} {i : ℕ} {g : GSem nD τ sig} {u : Unit} (h : 0 < due c i g u) :
    u ∈ L g ∧ 1 ≤ lv g u ∧ (i < 32 → 2 ≤ lv g u) ∧ (i < 16 → 3 ≤ lv g u) := by
  unfold due at h
  by_cases h1 : i < 16
  · rw [dif_pos h1] at h
    obtain ⟨rfl, rfl⟩ := Pipeline.tallyAt_pos h
    rw [L_tc, lv_ry]
    exact ⟨Finset.mem_singleton_self _, by omega, by omega, by omega⟩
  rw [dif_neg h1] at h
  by_cases h2 : i < 32
  · rw [dif_pos h2] at h
    obtain ⟨rfl, rfl⟩ := Pipeline.tallyAt_pos h
    rw [L_tc, lv_rx]
    exact ⟨Finset.mem_singleton_self _, by omega, by omega, by omega⟩
  rw [dif_neg h2] at h
  by_cases h3 : i = 32 <;> simp only [h3, if_true, if_false] at h <;> obtain ⟨rfl, rfl⟩ := Pipeline.tallyAt_pos h <;>
    exact ⟨by rw [L_tc]; exact Finset.mem_singleton_self _, Nat.le_refl 1, by omega, by omega⟩

omit [FloatOps F] in
/-- A wait is allowed when every due still owed sits at a higher level than the cell waited on. -/
theorem mayWait_lv (c : Dev nD) (sm : SemLoc sig) (k : ℕ)
    (h : ∀ {i g u}, i < k → 0 < due c i g u → lv ((c : Thread nD τ), sm) () < lv g u) :
    (levAts L lv : sProp 𝕄) ⊢ MayWait (c : Thread nD τ) sm () (owedUpTo c k) :=
  Pipeline.mayWait_of_levAts (by rw [L_tc]; exact Finset.mem_singleton_self _) fun g u hg => by
    obtain ⟨i, hi, hd⟩ := owedUpTo_pos hg
    exact ⟨(due_pos hd).1, h hi hd⟩

omit [FloatOps F] in
theorem mayWait_low (c : Dev nD) (n : DmaSem sig) (hn : lv ((c : Thread nD τ), .dma n) () = 0) (k : ℕ) :
    (levAts L lv : sProp 𝕄) ⊢ MayWait (c : Thread nD τ) (.dma n) () (owedUpTo c k) :=
  mayWait_lv c _ k fun _ hd => by rw [hn]; exact (due_pos hd).2.1

omit [FloatOps F] in
theorem mayWait_bar (c : Dev nD) (k : ℕ) (hk : k ≤ 32) :
    (levAts L lv : sProp 𝕄) ⊢ MayWait (c : Thread nD τ) (.reg barS) () (owedUpTo c k) :=
  mayWait_lv c _ k fun hi hd => (due_pos hd).2.2.1 (Nat.lt_of_lt_of_le hi hk)

omit [FloatOps F] in
theorem mayWait_rx (c : Dev nD) (j : Fin 16) (k : ℕ) (hk : k ≤ 16) :
    (levAts L lv : sProp 𝕄) ⊢ MayWait (c : Thread nD τ) (.dma (rxS j)) () (owedUpTo c k) :=
  mayWait_lv c _ k fun hi hd => by rw [lv_rx]; exact (due_pos hd).2.2.2 (Nat.lt_of_lt_of_le hi hk)

omit [FloatOps F] in
theorem mayWait_ry (c : Dev nD) (j : Fin 16) :
    (levAts L lv : sProp 𝕄) ⊢ MayWait (c : Thread nD τ) (.dma (ryS j)) () (owedUpTo c 0) := by
  show (levAts L lv : sProp 𝕄) ⊢ MayWait (c : Thread nD τ) (.dma (ryS j)) () 0
  rw [MayWait_zero]; iintro -; iempintro

omit [FloatOps F] in
theorem launchCred_owedUpTo (c : Dev nD) (k : ℕ) :
    (Pipeline.launchCred (fun d => owedUpTo d k) c : sProp 𝕄)
      ⊢ bigSep (Finset.range k) fun i => Pipeline.launchCred (fun d => due d i) c := by
  induction k with
  | zero =>
    rw [Finset.range_zero, bigSep_empty]
    exact Entails.of_eq (Pipeline.launchCred_zero c)
  | succ k ih =>
    rw [Finset.range_add_one, bigSep_insert Finset.notMem_range_self,
      show (fun d => owedUpTo d (k + 1)) = fun d => owedUpTo d k + due d k from rfl, Pipeline.launchCred_add]
    show _ ⊢ iprop(Pipeline.launchCred (fun d => due d k) c ∗ bigSep (Finset.range k) fun i => Pipeline.launchCred (fun d => due d i) c)
    exact (sep_mono_left ih).trans sep_symm

omit [FloatOps F] in
/-- Where every device's due `i` is an amount on its partner's cell `sm`, the partner's due is the credit on one's own. -/
theorem launch_due (c : Dev nD) (i : ℕ) (sm : SemLoc sig) (p : Dev nD → Dev nD) (hp : ∀ d, p (p d) = d) (n : ℕ)
    (h : ∀ d, due d i = tallyAt (((p d : Dev nD) : Thread nD τ), sm) () n) :
    (Pipeline.launchCred (fun d => due d i) c : sProp 𝕄) ⊢ cred (tallyAt ((c : Thread nD τ), sm) () n) := by
  rw [funext h]
  exact Pipeline.launchCred_tallyAt sm p p hp hp () n c

omit [FloatOps F] in
theorem launch_due_ry (c : Dev nD) (j : Fin 16) :
    (Pipeline.launchCred (fun d => due d (15 - j.val)) c : sProp 𝕄) ⊢ cred (tallyAt (ryCell c j) () (NH c)) :=
  launch_due c _ (.dma (ryS j)) yn yn_yn (NH c) fun d => by
    unfold due
    rw [dif_pos (show 15 - j.val < 16 by omega)]
    exact congrArg (fun k => tallyAt (ryCell (yn d) k) () (NH c)) (Fin.ext (show 15 - (15 - j.val) = j.val by omega))

omit [FloatOps F] in
theorem launch_due_rx (c : Dev nD) (j : Fin 16) :
    (Pipeline.launchCred (fun d => due d (31 - j.val)) c : sProp 𝕄) ⊢ cred (tallyAt (rxCell c j) () NV) :=
  launch_due c _ (.dma (rxS j)) xn xn_xn NV fun d => by
    unfold due
    rw [dif_neg (show ¬ 31 - j.val < 16 by omega), dif_pos (show 31 - j.val < 32 by omega)]
    exact congrArg (fun k => tallyAt (rxCell (xn d) k) () NV) (Fin.ext (show 31 - (31 - j.val) = j.val by omega))

omit [FloatOps F] in
theorem launch_due_bar (c : Dev nD) :
    iprop((Pipeline.launchCred (fun d => due d 32) c : sProp 𝕄) ∗ Pipeline.launchCred (fun d => due d 33) c)
      ⊢ cred (tallyAt (barCell c) () 2) := by
  rw [← tallyAt_add (barCell c) () 1 1]
  exact (BIClass.sep_mono (launch_due c 32 (.reg barS) yn yn_yn 1 fun d => by unfold due; rw [dif_neg (by decide), dif_neg (by decide), if_pos rfl])
    (launch_due c 33 (.reg barS) xn xn_xn 1 fun d => by unfold due; rw [dif_neg (by decide), dif_neg (by decide), if_neg (by decide)])).trans (cred_add _ _).2

omit [FloatOps F] in
theorem creds (c : Dev nD) :
    (Pipeline.launchCred O₀ c : sProp 𝕄) ⊢ iprop(cred (tallyAt (barCell c) () 2)
      ∗ (bigSep Finset.univ fun j : Fin 16 => cred (tallyAt (rxCell c j) () NV))
      ∗ (bigSep Finset.univ fun j : Fin 16 => cred (tallyAt (ryCell c j) () (NH c)))) := by
  have hsub : ({32, 33} : Finset ℕ) ∪ ((Finset.univ.image fun j : Fin 16 => 31 - j.val) ∪ (Finset.univ.image fun j : Fin 16 => 15 - j.val))
      ⊆ Finset.range 34 := by decide
  have hd1 : Disjoint ({32, 33} : Finset ℕ) ((Finset.univ.image fun j : Fin 16 => 31 - j.val) ∪ (Finset.univ.image fun j : Fin 16 => 15 - j.val)) := by
    decide
  have hd2 : Disjoint (Finset.univ.image fun j : Fin 16 => 31 - j.val) (Finset.univ.image fun j : Fin 16 => 15 - j.val) := by decide
  refine (show (Pipeline.launchCred O₀ c : sProp 𝕄) ⊢ _ from launchCred_owedUpTo c 34).trans ((bigSep_subset hsub).trans ?_)
  rw [bigSep_union hd1, bigSep_union hd2, bigSep_insert (by decide), bigSep_singleton,
    bigSep_image_of_injOn (fun a _ b _ h => Fin.ext (by omega)),
    bigSep_image_of_injOn (fun a _ b _ h => Fin.ext (by omega))]
  refine sep_mono (launch_due_bar c) (sep_mono (bigSep_mono fun j _ => launch_due_rx c j) (bigSep_mono fun j _ => launch_due_ry c j))

/-- The body on device `c`: the weakest precondition at the launch's one point. -/
abbrev WPc (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

end Cert.KernelProof

end
-- ==== Proof.GhostKernel.lean ====
import proofs.«900136_g7700000000000137_dist_ar_v7x_xy2x2_x_m8192_n1024_bf16_1_alg».proof.Proof.TablesKernel
import proofs.«900136_g7700000000000137_dist_ar_v7x_xy2x2_x_m8192_n1024_bf16_1_alg».proof.Proof.LevelsKernel

noncomputable section

namespace Cert.KernelProof

open Cert.Kernel Cert.Kernel.Gen

open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev CIx : Type := Option (DmaSem sig)
abbrev csem : CIx → SemLoc sig
  | none => .reg barS
  | some n => .dma n
abbrev kcell (ck : Dev nD × CIx) : GSem nD τ sig := ((ck.1 : Thread nD τ), csem ck.2)
abbrev osem : DmaSem sig → SemLoc sig := fun n => .dma n

def records (K : Dev nD × CIx → ℕ) : sProp 𝕄 :=
  iprop((bigSep Finset.univ fun ck : Dev nD × CIx => cellInv ER (Rd m) (K ck) (kcell ck))
    ∗ bigSep Finset.univ fun ck : Dev nD × CIx => reached ER (kcell ck) 0)

instance records_persistent (K : Dev nD × CIx → ℕ) : BI.Persistent (records m K) := by unfold records; infer_instance

def positions (c : Dev nD) : sProp 𝕄 := bigSep Finset.univ fun k : CIx => atPos ER (kcell (c, k)) 0 ∅ 0

/-- The tokens of the duties device `c` pays: on its partners' barrier and landing cells, and on its own staging, write-back and read-out cells. -/
def payToks (c : Dev nD) : sProp 𝕄 :=
  iprop(dutyTok ER (barCell (xn c)) 0 false ∗ dutyTok ER (barCell (yn c)) 0 true
    ∗ (bigSep Finset.univ fun b : Fin 4 => dutyTok ER (csCell c b) 0 false)
    ∗ (bigSep Finset.univ fun j : Fin 16 => dutyTok ER (rsCell c j) 0 false)
    ∗ (bigSep Finset.univ fun j : Fin 16 => dutyTok ER (sxCell c j) 0 false)
    ∗ (bigSep Finset.univ fun j : Fin 16 => dutyTok ER (rxCell (xn c) j) 0 false)
    ∗ (bigSep Finset.univ fun j : Fin 16 => dutyTok ER (syCell c j) 0 false)
    ∗ (bigSep Finset.univ fun j : Fin 16 => dutyTok ER (ryCell (yn c) j) 0 false))

def ghost (K : Dev nD × CIx → ℕ) (c : Dev nD) : sProp 𝕄 := iprop(records m K ∗ positions c ∗ payToks c)

def startCreds (c : Dev nD) : sProp 𝕄 :=
  iprop(cred (tallyAt (barCell c) () 2)
    ∗ (bigSep Finset.univ fun j : Fin 16 => cred (tallyAt (rxCell c j) () NV))
    ∗ (bigSep Finset.univ fun j : Fin 16 => cred (tallyAt (ryCell c j) () (NH c))))

def start (c : Dev nD) : sProp 𝕄 := iprop((∃ K, ghost m K c) ∗ startCreds c ∗ levAts L lv)

abbrev wholeAt (c : Dev nD) (b : Ref sig .tc) (f : Buf (Elt F) ((c : Thread nD τ).loc b)) : sProp 𝕄 :=
  ((c : Thread nD τ).loc b) ↦{fullShare} f

def Φ₀ (c : Dev nD) : sProp 𝕄 :=
  iprop(start m c ∗ (∃ f, wholeAt c cc0_scratch0 f) ∗ (∃ f, wholeAt c cc0_scratch1 f) ∗ (∃ f, wholeAt c cc0_scratch2 f)
    ∗ wholeAt c main_arg0 (m _) ∗ wholeAt c main_v1 (m _))
def Φ₁ (c : Dev nD) : sProp 𝕄 :=
  iprop((∃ f, wholeAt c cc0_scratch0 f) ∗ (∃ f, wholeAt c cc0_scratch1 f) ∗ (∃ f, wholeAt c cc0_scratch2 f)
    ∗ (bigSep Finset.univ fun n : DmaSem sig => semVal ((c : Thread nD τ), osem n) 0)
    ∗ wholeAt c main_arg0 (m _) ∗ wholeAt c main_v1 (OUT m c))

/-- No window; one point, with `Φ₀` before and `Φ₁` after; everything owed before, nothing after. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelProof

end
-- ==== Proof.RegroupKernel.lean ====
import proofs.«900136_g7700000000000137_dist_ar_v7x_xy2x2_x_m8192_n1024_bf16_1_alg».proof.Proof.GhostKernel

noncomputable section

namespace Cert.KernelProof

open Cert.Kernel Cert.Kernel.Gen

open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

omit [FloatOps F] in
theorem bigSep_cix (Φ : CIx → sProp 𝕄) :
    bigSep Finset.univ Φ = iprop(Φ none ∗ bigSep Finset.univ fun n : DmaSem sig => Φ (some n)) := by
  have h : (Finset.univ : Finset CIx) = insert none (Finset.univ.map Function.Embedding.some) := by
    ext x; cases x <;> simp
  rw [h, bigSep_insert (by simp), bigSep_map]
  rfl

omit [FloatOps F] in
theorem bigSep_fin_add (a b : ℕ) (Φ : Fin (a + b) → sProp 𝕄) :
    bigSep Finset.univ Φ
      = iprop((bigSep Finset.univ fun i : Fin a => Φ (Fin.castAdd b i)) ∗ bigSep Finset.univ fun j : Fin b => Φ (Fin.natAdd a j)) := by
  rw [bigSep_univ_equiv finSumFinEquiv Φ, bigSep_univ_sum]
  rfl

omit [FloatOps F] in
/-- The 84 DMA semaphores are the six families in order: split `Fin 84` as `4 + (16 + (16 + (16 + (16 + 16))))`. -/
theorem bigSep_dma (Φ : DmaSem sig → sProp 𝕄) :
    bigSep Finset.univ Φ
      = iprop((bigSep Finset.univ fun b : Fin 4 => Φ (csS b)) ∗ (bigSep Finset.univ fun j : Fin 16 => Φ (rsS j))
          ∗ (bigSep Finset.univ fun j : Fin 16 => Φ (sxS j)) ∗ (bigSep Finset.univ fun j : Fin 16 => Φ (rxS j))
          ∗ (bigSep Finset.univ fun j : Fin 16 => Φ (syS j)) ∗ (bigSep Finset.univ fun j : Fin 16 => Φ (ryS j))) := by
  have e2 (j : Fin 16) : Fin.natAdd 4 (Fin.natAdd 16 (Fin.castAdd (16 + (16 + 16)) j)) = sxS j :=
    Fin.ext (by show 4 + (16 + j.val) = 20 + j.val; omega)
  have e3 (j : Fin 16) : Fin.natAdd 4 (Fin.natAdd 16 (Fin.natAdd 16 (Fin.castAdd (16 + 16) j))) = rxS j :=
    Fin.ext (by show 4 + (16 + (16 + j.val)) = 36 + j.val; omega)
  have e4 (j : Fin 16) : Fin.natAdd 4 (Fin.natAdd 16 (Fin.natAdd 16 (Fin.natAdd 16 (Fin.castAdd 16 j)))) = syS j :=
    Fin.ext (by show 4 + (16 + (16 + (16 + j.val))) = 52 + j.val; omega)
  have e5 (j : Fin 16) : Fin.natAdd 4 (Fin.natAdd 16 (Fin.natAdd 16 (Fin.natAdd 16 (Fin.natAdd 16 j)))) = ryS j :=
    Fin.ext (by show 4 + (16 + (16 + (16 + (16 + j.val)))) = 68 + j.val; omega)
  refine (bigSep_fin_add 4 (16 + (16 + (16 + (16 + 16)))) Φ).trans ?_
  rw [bigSep_fin_add 16 (16 + (16 + (16 + 16))), bigSep_fin_add 16 (16 + (16 + 16)), bigSep_fin_add 16 (16 + 16), bigSep_fin_add 16 16]
  simp only [e2, e3, e4, e5]
  rfl

omit [FloatOps F] in
theorem positions_eq (c : Dev nD) :
    positions (F := F) c
      = iprop(atPos ER (barCell c) 0 ∅ 0
          ∗ (bigSep Finset.univ fun b : Fin 4 => atPos ER (csCell c b) 0 ∅ 0)
          ∗ (bigSep Finset.univ fun j : Fin 16 => atPos ER (rsCell c j) 0 ∅ 0)
          ∗ (bigSep Finset.univ fun j : Fin 16 => atPos ER (sxCell c j) 0 ∅ 0)
          ∗ (bigSep Finset.univ fun j : Fin 16 => atPos ER (rxCell c j) 0 ∅ 0)
          ∗ (bigSep Finset.univ fun j : Fin 16 => atPos ER (syCell c j) 0 ∅ 0)
          ∗ (bigSep Finset.univ fun j : Fin 16 => atPos ER (ryCell c j) 0 ∅ 0)) := by
  unfold positions
  rw [bigSep_cix, bigSep_dma]

theorem inv_at (K : Dev nD × CIx → ℕ) (ck : Dev nD × CIx) : records m K ⊢ cellInv ER (Rd m) (K ck) (kcell ck) := by
  unfold records
  exact sep_elim_left.trans (bigSep_elim (Finset.mem_univ ck))

theorem reached_at (K : Dev nD × CIx → ℕ) (ck : Dev nD × CIx) : records m K ⊢ reached ER (kcell ck) 0 := by
  unfold records
  exact sep_elim_right.trans (bigSep_elim (Finset.mem_univ ck))

end Cert.KernelProof

end
-- ==== Proof.LaunchKernel.lean ====
import proofs.«900136_g7700000000000137_dist_ar_v7x_xy2x2_x_m8192_n1024_bf16_1_alg».proof.Proof.RegroupKernel

noncomputable section

namespace Cert.KernelProof

open Cert.Kernel Cert.Kernel.Gen

open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem :=
  ⟨by decide, fun a b h => SemLoc.dma.inj h, fun k w s => w.elim0⟩

theorem share_eq (c : Dev nD) (w : Fin cfg0.W) : (dats m 0 c).share w = fullShare := w.elim0

theorem csem_injective : Function.Injective csem := by
  rintro (_ | a) (_ | b) h <;> cases h <;> rfl

theorem kcell_injective : Function.Injective (kcell : Dev nD × CIx → GSem nD τ sig) := by
  rintro ⟨c, k⟩ ⟨c', k'⟩ h
  obtain rfl : c = c' := congrArg (fun g : GSem nD τ sig => g.1.1) h
  exact congrArg (Prod.mk c) (csem_injective (congrArg Prod.snd h))

def ringCells : Finset (GSem nD τ sig) := Finset.univ.map ⟨kcell, kcell_injective⟩

/-- The duties minted for a device: its barrier cell's two, and one for each of its DMA cells. -/
abbrev TIx : Type := Bool ⊕ DmaSem sig
abbrev tokOf (ct : Dev nD × TIx) : GSem nD τ sig × ℕ × Bool := match ct.2 with
  | .inl d => (barCell ct.1, 0, d)
  | .inr n => (((ct.1 : Thread nD τ), .dma n), 0, false)

theorem tokOf_injective : Function.Injective (tokOf : Dev nD × TIx → GSem nD τ sig × ℕ × Bool) := by
  rintro ⟨c, d | k⟩ ⟨c', d' | k'⟩ h <;> cases h <;> rfl

def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

def toks (c : Dev nD) : sProp 𝕄 :=
  iprop((dutyTok ER (barCell c) 0 false ∗ dutyTok ER (barCell c) 0 true)
    ∗ bigSep Finset.univ fun n : DmaSem sig => dutyTok ER ((c : Thread nD τ), .dma n) 0 false)

def G (c : Dev nD) : sProp 𝕄 :=
  iprop((bigSep Finset.univ fun k : CIx => roundState ER (Rd m) (kcell (c, k)) 0)
    ∗ (bigSep Finset.univ fun k : CIx => iprop(atPos ER (kcell (c, k)) 0 ∅ 0 ∗ reached ER (kcell (c, k)) 0)) ∗ toks c)

/-- `G` with every cell's invariant allocated in place of its round state. -/
def G₁ (c : Dev nD) : sProp 𝕄 :=
  iprop((bigSep Finset.univ fun k : CIx => iprop(∃ κ : ℕ, cellInv ER (Rd m) κ (kcell (c, k))))
    ∗ (bigSep Finset.univ fun k : CIx => iprop(atPos ER (kcell (c, k)) 0 ∅ 0 ∗ reached ER (kcell (c, k)) 0)) ∗ toks c)

def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CIx => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks
      rw [bigSep_univ_sum, bigSep_univ_eq_bigSepL [false, true] (by decide) (by decide), bigSepL_cons_cons, bigSepL_singleton]
      rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 osem c ∗ unscopedSems0 c)
      ⊢ (bigSep Finset.univ fun k : CIx => semVal (kcell (c, k)) 0 : sProp 𝕄) := by
  rw [unscopedSems0_eq, bigSep_cix]
  unfold Pipeline.ownSems0
  iintro ⟨HS, HB⟩
  iframe

theorem core_alloc (c : Dev nD) :
    iprop(Pipeline.ownSems0 osem c ∗ unscopedSems0 c ∗ G m c)
      ⊢ |={Set.univ}=> G₁ m c := by
  unfold G G₁
  iintro ⟨Hos, Hus, Hst, Hat, Htok⟩
  ihave Hv := (sems0_eq (F := F) c) $$ [Hos Hus]
  · iframe
  imod (show iprop((bigSep Finset.univ fun k : CIx => semVal (kcell (c, k)) 0) ∗ bigSep Finset.univ fun k : CIx => roundState ER (Rd m) (kcell (c, k)) 0)
      ⊢ (|={Set.univ}=> bigSep Finset.univ fun k : CIx => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · iframe
  imodintro
  iframe

theorem ghost_intro (K : Dev nD × CIx → ℕ) (c : Dev nD) : iprop(records m K ∗ positions c ∗ payToks c) ⊢ G' m c := by
  unfold G' ghost
  iintro H
  iexists K
  iexact H

/-- Summed over the devices, a token held for the partner's cell is the partner's token for its own: re-index by the swaps. -/
theorem toks_around : (bigSep Finset.univ fun c : Dev nD => (toks c : sProp 𝕄)) ⊢ bigSep Finset.univ fun c : Dev nD => payToks c := by
  unfold toks payToks
  simp only [bigSep_dma, bigSep_sep']
  rw [bigSep_univ_equiv xswap (fun c : Dev nD => (dutyTok ER (barCell c) 0 false : sProp 𝕄)),
    bigSep_univ_equiv yswap (fun c : Dev nD => (dutyTok ER (barCell c) 0 true : sProp 𝕄)),
    bigSep_univ_equiv xswap (fun c : Dev nD => (bigSep Finset.univ fun j : Fin 16 => dutyTok ER (rxCell c j) 0 false : sProp 𝕄)),
    bigSep_univ_equiv yswap (fun c : Dev nD => (bigSep Finset.univ fun j : Fin 16 => dutyTok ER (ryCell c j) 0 false : sProp 𝕄))]
  simp only [xswap, yswap, Equiv.coe_fn_mk]
  iintro ⟨⟨H1, H2⟩, H3, H4, H5, H6, H7, H8⟩
  iframe

theorem regroup : (bigSep Finset.univ (G₁ m) : sProp 𝕄) ⊢ bigSep Finset.univ (G' m) := by
  unfold G₁
  rw [bigSep_sep', bigSep_sep', ← bigSep_univ_prod (fun ck : Dev nD × CIx => iprop(∃ κ : ℕ, cellInv ER (Rd m) κ (kcell ck))),
    bigSep_congr (s := Finset.univ) (fun (c : Dev nD) _ => bigSep_sep' Finset.univ (fun k : CIx => (atPos ER (kcell (c, k)) 0 ∅ 0 : sProp 𝕄)) (fun k => reached ER (kcell (c, k)) 0)),
    bigSep_sep', ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER (Rd m) κ (kcell ck) : sProp 𝕄))) $$ HI
  icases HK with ⟨%K, #HI⟩
  ihave Htk := (toks_around (F := F)) $$ Htok
  iapply (BI.bigSep_with_persistent (R := records m K) fun c _ => ghost_intro m K c)
  isplitr
  · unfold records; iframe # ∗
  · iapply (Entails.of_eq (bigSep_sep' Finset.univ (fun c : Dev nD => (positions c : sProp 𝕄)) payToks).symm)
    unfold positions; iframe

theorem glob : (bigSep Finset.univ fun c => iprop(Pipeline.ownSems0 osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

def X (c : Dev nD) : sProp 𝕄 :=
  iprop(start m c ∗ wholeAt c main_arg0 (m _) ∗ wholeAt c main_v1 (m _))
def Y (c : Dev nD) : sProp 𝕄 :=
  iprop(wholeAt c main_arg0 (m _) ∗ wholeAt c main_v1 (OUT m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  iintro ⟨⟨Hx, Hv⟩, Hlev, Hcr, -, HG⟩
  ihave Hc := (creds (F := F) c) $$ Hcr
  imodintro
  unfold X start G' startCreds
  iframe

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ X
  iintro ⟨⟨Hs, Hx, Hv⟩, -, ⟨H0, H1, H2⟩⟩
  iframe

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq]
  unfold Φ₁ Y Pipeline.ownSems0
  iintro ⟨H0, H1, H2, Hs, Hx, Hv⟩
  iframe

theorem waits (c : Dev nD) : (levAts L lv : sProp 𝕄) ⊢ Pipeline.cellsWaits cfgs (dats m) () 0 c :=
  Pipeline.cellsWaits_intro cfgs (dats m) () 0 c fun w s t => w.elim0

/-- The launch theorem for devices that owe at launch, at the proof data `dats`, its post read off the final memory. -/
theorem run_main (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = OUT m c
      ∧ r.2.mem ((c.tc : Thread nD τ).loc main_arg0) = m _) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      iframe)
    (hglob := glob m)
    (hA := fun _ w => w.elim0) (hpf := fun _ k => k.elim0)
    (X := X m) (Y := Y m) (Z := fun _ => iprop(emp))
    (hX := start_intro m ρ) (hin := phi0_intro m) (hout := phi1_exit m)
    (QY := fun c s => s.mem ((c : Thread nD τ).loc main_v1) = OUT m c
      ∧ s.mem ((c : Thread nD τ).loc main_arg0) = m _)
    (hY := fun c s' => by
      unfold Y
      iintro ⟨⟨Hx, Hv⟩, -, HSI⟩
      icombine HSI Hx gives %hx
      icombine HSI Hv gives %hv
      imodintro
      isplitr; · ipureintro; exact ⟨Buf.eq_of_forall_mem_univ hv, Buf.eq_of_forall_mem_univ hx⟩
      iexact HSI)
    (hQ := fun s h c => (h c).2.2)

end Cert.KernelProof

end
-- ==== Proof.BodyDefsKernel.lean ====
import proofs.«900136_g7700000000000137_dist_ar_v7x_xy2x2_x_m8192_n1024_bf16_1_alg».proof.Proof.GhostKernel

noncomputable section

namespace Cert.KernelProof

open Cert.Kernel Cert.Kernel.Gen

open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

def posAt (c : Dev nD) (r : ℕ) : sProp 𝕄 :=
  iprop(atPos ER (barCell c) r ∅ 0 ∗ (bigSep Finset.univ fun b : Fin 4 => atPos ER (csCell c b) r ∅ 0)
    ∗ (bigSep Finset.univ fun j : Fin 16 => atPos ER (rsCell c j) r ∅ 0) ∗ (bigSep Finset.univ fun j : Fin 16 => atPos ER (sxCell c j) r ∅ 0)
    ∗ (bigSep Finset.univ fun j : Fin 16 => atPos ER (rxCell c j) r ∅ 0) ∗ (bigSep Finset.univ fun j : Fin 16 => atPos ER (syCell c j) r ∅ 0)
    ∗ (bigSep Finset.univ fun j : Fin 16 => atPos ER (ryCell c j) r ∅ 0))

def rxGive (c : Dev nD) : sProp 𝕄 := bigSep Finset.univ fun j : Fin 16 => iprop(∃ f, piece c (rxC j) fullShare f)
def otGive (c : Dev nD) : sProp 𝕄 := bigSep Finset.univ fun j : Fin 16 => iprop(∃ f, piece c (outOt c j) fullShare f)

def inRestSet (c : Dev nD) : Finset (Idx ((c : Thread nD τ).loc main_arg0)) :=
  Finset.univ \ (Finset.univ : Finset (Fin 4)).biUnion fun b => (inBlk c b).view.set

/-- Before the first step, the buffers cut into the pieces the steps hold; the landing half and the partner's half of the result at whatever they hold. -/
def bodyPre (c : Dev nD) (W : Waits sig Unit)
    (f0 : Buf (Elt F) ((c : Thread nD τ).loc cc0_scratch0)) (f1 : Buf (Elt F) ((c : Thread nD τ).loc cc0_scratch1))
    (fv : Buf (Elt F) ((c : Thread nD τ).loc main_v1)) : sProp 𝕄 :=
  iprop(owes (c : Thread nD τ) (owedUpTo c 34) W ∗ posAt c 0 ∗ payToks c ∗ startCreds c
    ∗ (bigSep Finset.univ fun s : Fin 3 => piece c (slot s) fullShare f0)
    ∗ (bigSep Finset.univ fun j : Fin 16 => piece c (sxC j) fullShare f1)
    ∗ rxGive c
    ∗ (bigSep Finset.univ fun b : Fin 4 => piece c (inBlk c b) fullShare (A m c))
    ∗ (((c : Thread nD τ).loc main_arg0) ↦[inRestSet c]{fullShare} A m c)
    ∗ (bigSep Finset.univ fun j : Fin 16 => piece c (outMe c j) fullShare fv)
    ∗ otGive c)

/-- After the last step: nothing owed, every cell one round on, the result at the all-reduced contents. -/
def bodyPost (c : Dev nD) : sProp 𝕄 :=
  iprop((∃ W, owes (c : Thread nD τ) (owedUpTo c 0) W) ∗ posAt c 1
    ∗ (bigSep Finset.univ fun s : Fin 3 => iprop(∃ f, piece c (slot s) fullShare f))
    ∗ (bigSep Finset.univ fun j : Fin 16 => piece c (sxC j) fullShare (SX2 m c))
    ∗ (bigSep Finset.univ fun j : Fin 16 => piece c (rxC j) fullShare (RX m c))
    ∗ (bigSep Finset.univ fun b : Fin 4 => piece c (inBlk c b) fullShare (A m c))
    ∗ (((c : Thread nD τ).loc main_arg0) ↦[inRestSet c]{fullShare} A m c)
    ∗ (bigSep Finset.univ fun j : Fin 16 => piece c (outMe c j) fullShare (OUT m c))
    ∗ (bigSep Finset.univ fun j : Fin 16 => piece c (outOt c j) fullShare (OUT m c)))

end Cert.KernelProof

end
-- ==== Proof.StepsAKernel.lean ====
import proofs.«900136_g7700000000000137_dist_ar_v7x_xy2x2_x_m8192_n1024_bf16_1_alg».proof.Proof.TablesKernel
import proofs.«900136_g7700000000000137_dist_ar_v7x_xy2x2_x_m8192_n1024_bf16_1_alg».proof.Proof.LevelsKernel

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "𝒱₀" => Variants.none

theorem a_rx_set (j : Fin 16) : (rxC j).view.set = (chunkR j).set := View.set_slice_whole _ _
theorem a_sx_set (j : Fin 16) : (sxC j).view.set = (chunkR j).set := View.set_slice_whole _ _

theorem a_chunk_disjoint (j j' : Fin 16) (h : j ≠ j') : Disjoint (chunkR j).set (chunkR j').set := by
  have hv : j.val ≠ j'.val := fun e => h (Fin.ext e)
  refine Rect.unit_disjoint (0 : Fin 2) ?_
  show 256 * j.val + 256 ≤ 256 * j'.val ∨ 256 * j'.val + 256 ≤ 256 * j.val
  omega

theorem a_chunk_cover : (Finset.univ : Finset S4096x1024.Idx) = Finset.univ.biUnion fun j : Fin 16 => (chunkR j).set := by
  ext i
  simp only [Finset.mem_univ, true_iff, Finset.mem_biUnion, true_and]
  have h0 : (i 0).val < 4096 := (i 0).isLt
  have h1 : (i 1).val < 1024 := (i 1).isLt
  refine ⟨⟨(i 0).val / 256, by omega⟩, ?_⟩
  rw [Rect.mem_set_unit]
  intro a
  match a with
  | ⟨0, _⟩ => show 256 * ((i 0).val / 256) ≤ (i 0).val ∧ (i 0).val < 256 * ((i 0).val / 256) + 256; omega
  | ⟨1, _⟩ => show 0 ≤ (i 1).val ∧ (i 1).val < 0 + 1024; omega

theorem cut_cover {ℓ : Loc nD τ sig} {I : Type} [Fintype I] [DecidableEq I] (S : I → Finset (Idx ℓ))
    (hd : ∀ i i', i ≠ i' → Disjoint (S i) (S i')) (hc : (Finset.univ : Finset (Idx ℓ)) = Finset.univ.biUnion S)
    {q : PosShare TreeShare} (f : Buf (Elt F) ℓ) :
    ((ℓ ↦{q} f : sProp 𝕄)) = bigSep Finset.univ fun i : I => (ℓ ↦[S i]{q} f : sProp 𝕄) := by
  have hb := pointsTo_biUnion (Ix := Unit) (Name := ℕ) (U := UU) (Lvl := ℕ) (ℓ := ℓ) (q := q) (f := f) Finset.univ S (fun i _ i' _ h => hd i i' h)
  rwa [← hc] at hb

theorem join_cover {ℓ : Loc nD τ sig} {I : Type} [Fintype I] [DecidableEq I] [Inhabited I] (S : I → Finset (Idx ℓ))
    (hd : ∀ i i', i ≠ i' → Disjoint (S i) (S i')) (hc : (Finset.univ : Finset (Idx ℓ)) = Finset.univ.biUnion S)
    {q : PosShare TreeShare} :
    (bigSep Finset.univ fun i : I => iprop(∃ f, ℓ ↦[S i]{q} f) : sProp 𝕄) ⊢ iprop(∃ f, ℓ ↦{q} f) := by
  iintro H
  ihave H' := (bigSep_exists_pi (Finset.univ : Finset I) (fun i f => (ℓ ↦[S i]{q} f : sProp 𝕄))) $$ H
  icases H' with ⟨%fs, H⟩
  ihave Hj := (pointsTo_biUnion_join (Ix := Unit) (Name := ℕ) (U := UU) (Lvl := ℕ) (ℓ := ℓ) (q := q)
    Finset.univ S fs (fs default) (fun i _ i' _ h => hd i i' h)) $$ H
  icases Hj with ⟨%g, -, Hg⟩
  rw [← hc]
  iexists g
  iexact Hg

theorem rx_cut (c : Dev nD) {q : PosShare TreeShare} (f : Buf (Elt F) ((c : Thread nD τ).loc cc0_scratch2)) :
    ((((c : Thread nD τ).loc cc0_scratch2) ↦{q} f : sProp 𝕄)) = bigSep Finset.univ fun j : Fin 16 => piece c (rxC j) q f :=
  (cut_cover (ℓ := (c : Thread nD τ).loc cc0_scratch2) (fun j => (chunkR j).set) a_chunk_disjoint a_chunk_cover f).trans
    (bigSep_congr fun j _ => by unfold piece; rw [a_rx_set])

theorem sx_cut (c : Dev nD) {q : PosShare TreeShare} (f : Buf (Elt F) ((c : Thread nD τ).loc cc0_scratch1)) :
    ((((c : Thread nD τ).loc cc0_scratch1) ↦{q} f : sProp 𝕄)) = bigSep Finset.univ fun j : Fin 16 => piece c (sxC j) q f :=
  (cut_cover (ℓ := (c : Thread nD τ).loc cc0_scratch1) (fun j => (chunkR j).set) a_chunk_disjoint a_chunk_cover f).trans
    (bigSep_congr fun j _ => by unfold piece; rw [a_sx_set])

theorem rx_join (c : Dev nD) {q : PosShare TreeShare} :
    (bigSep Finset.univ fun j : Fin 16 => iprop(∃ f, piece c (rxC j) q f) : sProp 𝕄)
      ⊢ iprop(∃ f, ((c : Thread nD τ).loc cc0_scratch2) ↦{q} f) :=
  (Entails.of_eq (bigSep_congr fun j _ => by unfold piece; rw [a_rx_set])).trans
    (join_cover (ℓ := (c : Thread nD τ).loc cc0_scratch2) (fun j => (chunkR j).set) a_chunk_disjoint a_chunk_cover)

theorem sx_join (c : Dev nD) {q : PosShare TreeShare} :
    (bigSep Finset.univ fun j : Fin 16 => iprop(∃ f, piece c (sxC j) q f) : sProp 𝕄)
      ⊢ iprop(∃ f, ((c : Thread nD τ).loc cc0_scratch1) ↦{q} f) :=
  (Entails.of_eq (bigSep_congr fun j _ => by unfold piece; rw [a_sx_set])).trans
    (join_cover (ℓ := (c : Thread nD τ).loc cc0_scratch1) (fun j => (chunkR j).set) a_chunk_disjoint a_chunk_cover)

omit [FloatOps F] in
theorem a_due_bar_x (c : Dev nD) : due c 33 = tallyAt (barCell (xn c)) () 1 := by
  unfold due
  rw [dif_neg (by decide), dif_neg (by decide), if_neg (by decide)]
omit [FloatOps F] in
theorem a_due_bar_y (c : Dev nD) : due c 32 = tallyAt (barCell (yn c)) () 1 := by
  unfold due
  rw [dif_neg (by decide), dif_neg (by decide), if_pos rfl]

theorem barPayX_xn (c : Dev nD) :
    (barPayX (xn c) : sProp 𝕄) = bigSep Finset.univ fun j : Fin 16 => iprop(∃ f, piece c (rxC j) fullShare f) := by
  unfold barPayX
  have h := xn_xn c
  revert h
  generalize xn (xn c) = d
  intro h
  subst h
  rfl

theorem a_outMe_yn (c : Dev nD) (j : Fin 16) : outMe (yn c) j = outOt c j :=
  Memref.slice_unit_congr _
    ((k0_off2_eq (yn c) j).trans ((congrArg (fun x : ℕ => (![x, 0] : Fin 2 → ℕ))
      (by rw [yn_mod]; have := Nat.mod_lt c.val (show 0 < 2 by decide); omega)).trans (k0_off3_eq c j).symm)) _ _ _ _

theorem barPayY_yn (c : Dev nD) :
    (barPayY (yn c) : sProp 𝕄) = bigSep Finset.univ fun j : Fin 16 => iprop(∃ f, piece c (outOt c j) fullShare f) := by
  unfold barPayY
  have h := yn_yn c
  revert h
  generalize yn (yn c) = d
  intro h
  subst h
  exact bigSep_congr fun j _ => by rw [a_outMe_yn]

omit [FloatOps F] in

theorem a_mem_rows {off size : Fin 2 → ℕ} (r0 n : ℕ) (hoff : off = ![r0, 0]) (hsz : size = ![n, 1024])
    (inb : ∀ a, off a + size a ≤ S8192x1024.size a) (i : S8192x1024.Idx) :
    i ∈ (Rect.unit (s := S8192x1024) off size inb).set ↔ r0 ≤ (i 0).val ∧ (i 0).val < r0 + n := by
  subst hoff
  subst hsz
  rw [Rect.mem_set_unit]
  have h1 : (i 1).val < 1024 := (i 1).isLt
  constructor
  · intro h; exact h 0
  · intro h a
    match a with
    | ⟨0, _⟩ => exact h
    | ⟨1, _⟩ => show 0 ≤ (i 1).val ∧ (i 1).val < 0 + 1024; omega

abbrev a_meSet (c : Dev nD) (j : Fin 16) : Finset S8192x1024.Idx := (outMe c j).view.set
abbrev a_otSet (c : Dev nD) (j : Fin 16) : Finset S8192x1024.Idx := (outOt c j).view.set

theorem a_mem_outMe (c : Dev nD) (j : Fin 16) (i : S8192x1024.Idx) :
    i ∈ (outMe c j).view.set ↔ 4096 * (c.val % 2) + 256 * j.val ≤ (i 0).val ∧ (i 0).val < 4096 * (c.val % 2) + 256 * j.val + 256 := by
  rw [show (outMe c j).view.set = _ from View.set_slice_whole _ _]
  exact a_mem_rows _ 256 (k0_off2_eq c j) rfl _ i
theorem a_mem_outOt (c : Dev nD) (j : Fin 16) (i : S8192x1024.Idx) :
    i ∈ (outOt c j).view.set ↔ (256 * j.val + 4096) - 4096 * (c.val % 2) ≤ (i 0).val ∧ (i 0).val < (256 * j.val + 4096) - 4096 * (c.val % 2) + 256 := by
  rw [show (outOt c j).view.set = _ from View.set_slice_whole _ _]
  exact a_mem_rows _ 256 (k0_off3_eq c j) rfl _ i

theorem a_outMe_disjoint (c : Dev nD) (j j' : Fin 16) (h : j ≠ j') : Disjoint (outMe c j).view.set (outMe c j').view.set :=
  Finset.disjoint_left.mpr fun i hi hi' => by
    rw [a_mem_outMe] at hi hi'
    have hv : j.val ≠ j'.val := fun e => h (Fin.ext e)
    omega
theorem a_outOt_disjoint (c : Dev nD) (j j' : Fin 16) (h : j ≠ j') : Disjoint (outOt c j).view.set (outOt c j').view.set :=
  Finset.disjoint_left.mpr fun i hi hi' => by
    rw [a_mem_outOt] at hi hi'
    have hv : j.val ≠ j'.val := fun e => h (Fin.ext e)
    omega
theorem a_outMe_outOt_disjoint (c : Dev nD) :
    Disjoint (Finset.univ.biUnion fun j : Fin 16 => a_meSet c j) (Finset.univ.biUnion fun j : Fin 16 => a_otSet c j) :=
  Finset.disjoint_left.mpr fun i hi hi' => by
    obtain ⟨j, -, hj⟩ := Finset.mem_biUnion.mp hi
    obtain ⟨j', -, hj'⟩ := Finset.mem_biUnion.mp hi'
    rw [a_mem_outMe] at hj
    rw [a_mem_outOt] at hj'
    have := j.isLt; have := j'.isLt
    omega
theorem a_out_cover (c : Dev nD) : (Finset.univ : Finset S8192x1024.Idx)
    = (Finset.univ.biUnion fun j : Fin 16 => a_meSet c j) ∪ (Finset.univ.biUnion fun j : Fin 16 => a_otSet c j) := by
  ext i
  simp only [Finset.mem_univ, true_iff, Finset.mem_union, Finset.mem_biUnion, true_and]
  have h0 : (i 0).val < 8192 := (i 0).isLt
  by_cases h : (i 0).val / 4096 = c.val % 2
  · refine Or.inl ⟨⟨(i 0).val % 4096 / 256, by omega⟩, ?_⟩
    rw [a_mem_outMe]
    show 4096 * (c.val % 2) + 256 * ((i 0).val % 4096 / 256) ≤ (i 0).val
      ∧ (i 0).val < 4096 * (c.val % 2) + 256 * ((i 0).val % 4096 / 256) + 256
    omega
  · refine Or.inr ⟨⟨(i 0).val % 4096 / 256, by omega⟩, ?_⟩
    rw [a_mem_outOt]
    show (256 * ((i 0).val % 4096 / 256) + 4096) - 4096 * (c.val % 2) ≤ (i 0).val
      ∧ (i 0).val < (256 * ((i 0).val % 4096 / 256) + 4096) - 4096 * (c.val % 2) + 256
    have := Nat.mod_lt c.val (show 0 < 2 by decide)
    omega

theorem out_cut (c : Dev nD) {q : PosShare TreeShare} (f : Buf (Elt F) ((c : Thread nD τ).loc main_v1)) :
    ((((c : Thread nD τ).loc main_v1) ↦{q} f : sProp 𝕄))
      = iprop((bigSep Finset.univ fun j : Fin 16 => piece c (outMe c j) q f) ∗ (bigSep Finset.univ fun j : Fin 16 => piece c (outOt c j) q f)) := by
  have hme := pointsTo_biUnion (Ix := Unit) (Name := ℕ) (U := UU) (Lvl := ℕ) (ℓ := (c : Thread nD τ).loc main_v1) (q := q) (f := f)
    (Finset.univ : Finset (Fin 16)) (fun j => a_meSet c j) (fun j _ j' _ h => a_outMe_disjoint c j j' h)
  have hot := pointsTo_biUnion (Ix := Unit) (Name := ℕ) (U := UU) (Lvl := ℕ) (ℓ := (c : Thread nD τ).loc main_v1) (q := q) (f := f)
    (Finset.univ : Finset (Fin 16)) (fun j => a_otSet c j) (fun j _ j' _ h => a_outOt_disjoint c j j' h)
  have hu := pointsTo_union (Ix := Unit) (Name := ℕ) (U := UU) (Lvl := ℕ) (ℓ := (c : Thread nD τ).loc main_v1) (q := q) (f := f) (a_outMe_outOt_disjoint c)
  rw [a_out_cover c, BI.equiv_iff.mp ⟨hu.1, hu.2⟩, hme, hot]

abbrev a_slotR (s : Fin 3) : Rect S3x1024x1024 := Rect.unit (s := S3x1024x1024) ![s.val, 0, 0] S1x1024x1024.size (slot_inb s)

theorem a_slot_set (s : Fin 3) : (slot s).view.set = (a_slotR s).set :=
  (View.set_reshape _ _).trans (View.set_slice_whole _ _)

theorem a_mem_slotR (s : Fin 3) (i : S3x1024x1024.Idx) : i ∈ (a_slotR s).set ↔ (i 0).val = s.val := by
  rw [Rect.mem_set_unit]
  have h1 : (i 1).val < 1024 := (i 1).isLt
  have h2 : (i 2).val < 1024 := (i 2).isLt
  constructor
  · intro h
    have h0 : s.val ≤ (i 0).val ∧ (i 0).val < s.val + 1 := h 0
    omega
  · intro h a
    match a with
    | ⟨0, _⟩ => show s.val ≤ (i 0).val ∧ (i 0).val < s.val + 1; omega
    | ⟨1, _⟩ => show 0 ≤ (i 1).val ∧ (i 1).val < 0 + 1024; omega
    | ⟨2, _⟩ => show 0 ≤ (i 2).val ∧ (i 2).val < 0 + 1024; omega

theorem a_slot_disjoint (s s' : Fin 3) (h : s ≠ s') : Disjoint (a_slotR s).set (a_slotR s').set :=
  Finset.disjoint_left.mpr fun i hi hi' => by
    rw [a_mem_slotR] at hi hi'
    exact h (Fin.ext (hi.symm.trans hi'))

theorem a_slot_cover : (Finset.univ : Finset S3x1024x1024.Idx) = Finset.univ.biUnion fun s : Fin 3 => (a_slotR s).set := by
  ext i
  simp only [Finset.mem_univ, true_iff, Finset.mem_biUnion, true_and]
  exact ⟨⟨(i 0).val, (i 0).isLt⟩, (a_mem_slotR _ i).mpr rfl⟩

theorem st_cut (c : Dev nD) {q : PosShare TreeShare} (f : Buf (Elt F) ((c : Thread nD τ).loc cc0_scratch0)) :
    ((((c : Thread nD τ).loc cc0_scratch0) ↦{q} f : sProp 𝕄)) = bigSep Finset.univ fun s : Fin 3 => piece c (slot s) q f :=
  (cut_cover (ℓ := (c : Thread nD τ).loc cc0_scratch0) (fun s => (a_slotR s).set) a_slot_disjoint a_slot_cover f).trans
    (bigSep_congr fun s _ => by unfold piece; rw [a_slot_set])

theorem st_join (c : Dev nD) {q : PosShare TreeShare} :
    (bigSep Finset.univ fun s : Fin 3 => iprop(∃ f, piece c (slot s) q f) : sProp 𝕄)
      ⊢ iprop(∃ f, ((c : Thread nD τ).loc cc0_scratch0) ↦{q} f) :=
  (Entails.of_eq (bigSep_congr fun s _ => by unfold piece; rw [a_slot_set])).trans
    (join_cover (ℓ := (c : Thread nD τ).loc cc0_scratch0) (fun s => (a_slotR s).set) a_slot_disjoint a_slot_cover)

theorem a_mem_inBlk (c : Dev nD) (b : Fin 4) (i : S8192x1024.Idx) :
    i ∈ (inBlk c b).view.set ↔ 4096 * (c.val % 2) + 1024 * b.val ≤ (i 0).val ∧ (i 0).val < 4096 * (c.val % 2) + 1024 * b.val + 1024 := by
  rw [show (inBlk c b).view.set = _ from View.set_slice_whole _ _]
  exact a_mem_rows _ 1024 (k0_off1_eq c b) rfl _ i

theorem a_inBlk_disjoint (c : Dev nD) (b b' : Fin 4) (h : b ≠ b') : Disjoint (inBlk c b).view.set (inBlk c b').view.set :=
  Finset.disjoint_left.mpr fun i hi hi' => by
    rw [a_mem_inBlk] at hi hi'
    have hv : b.val ≠ b'.val := fun e => h (Fin.ext e)
    omega

abbrev inRest (c : Dev nD) : Finset S8192x1024.Idx := Finset.univ \ Finset.univ.biUnion fun b : Fin 4 => (inBlk c b).view.set

theorem in_cut (c : Dev nD) {q : PosShare TreeShare} (f : Buf (Elt F) ((c : Thread nD τ).loc main_arg0)) :
    ((((c : Thread nD τ).loc main_arg0) ↦{q} f : sProp 𝕄))
      = iprop((bigSep Finset.univ fun b : Fin 4 => piece c (inBlk c b) q f) ∗ (((c : Thread nD τ).loc main_arg0) ↦[inRest c]{q} f)) := by
  have hb := pointsTo_biUnion (Ix := Unit) (Name := ℕ) (U := UU) (Lvl := ℕ) (ℓ := (c : Thread nD τ).loc main_arg0) (q := q) (f := f)
    (Finset.univ : Finset (Fin 4)) (fun b => (inBlk c b).view.set) (fun b _ b' _ h => a_inBlk_disjoint c b b' h)
  have hs := pointsTo_split_subset (Ix := Unit) (Name := ℕ) (U := UU) (Lvl := ℕ) (ℓ := (c : Thread nD τ).loc main_arg0) (q := q) (f := f)
    (Finset.subset_univ (Finset.univ.biUnion fun b : Fin 4 => (inBlk c b).view.set))
  rw [BI.equiv_iff.mp ⟨hs.1, hs.2⟩, hb]

end Cert.KernelProof

end
-- ==== Proof.StepsBKernel.lean ====
import proofs.«900136_g7700000000000137_dist_ar_v7x_xy2x2_x_m8192_n1024_bf16_1_alg».proof.Proof.TablesKernel
import proofs.«900136_g7700000000000137_dist_ar_v7x_xy2x2_x_m8192_n1024_bf16_1_alg».proof.Proof.LevelsKernel

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ
local notation "𝒱₀" => Variants.none

variable (m : (ℓ : Loc nD τ sig) → Buf (Elt F) ℓ)

omit [FloatOps F] in

theorem due_rx (c : Dev nD) (j : Fin 16) : due c (31 - j.val) = tallyAt (rxCell (xn c) j) () NV := by
  have hj := j.isLt
  unfold due
  rw [dif_neg (by omega), dif_pos (by omega)]
  exact congrArg (fun x => tallyAt (rxCell (xn c) x) () NV) (Fin.ext (by show 31 - (31 - j.val) = j.val; omega))

theorem landed_chunk (j : Fin 16) (t : Dev nD)
    (fd : Buf (Elt F) ((rxC j).view.loc (t : Thread nD τ)))
    (fs : S4096x1024.Idx → F .bf16) :
    (piece t (rxC j) fullShare
        ((rxC j).view.write (Elt F) fd
          ((sxC j).view.read (Elt F) fs) Finset.univ) : sProp 𝕄)
      = piece t (rxC j) fullShare fs := by
  refine pointsTo_congr fun i hi => ?_
  obtain ⟨y, rfl⟩ := View.exists_emb_of_mem_set _ hi
  rw [View.write_emb_of_mem _ _ (Finset.mem_univ y), View.read_apply]
  rfl

omit [FloatOps F] in

theorem slot_emb (s : Fin 3) (y : S1024x1024.Idx) :
    (slot s).view.emb y = ix3 (n0 := 3) (n1 := 1024) (n2 := 1024) s (y 0) (y 1) := by
  have hk : Shape.reshapeEquiv (squeezes_S1x1024x1024_S1024x1024).numel_eq y
      = ix3 (n0 := 1) (n1 := 1024) (n2 := 1024) ⟨0, Nat.one_pos⟩ (y 0) (y 1) :=
    Shape.reshapeEquiv_eq_of_rowMajor _ (by
      rw [Shape.rowMajor_val_three, Shape.rowMajor_val_two]
      show (0 * 1024 + (y 0).val) * 1024 + (y 1).val = (y 0).val * 1024 + (y 1).val
      omega)
  show (Rect.unit (s := S3x1024x1024) ![s.val, 0, 0] S1x1024x1024.size (slot_inb s)).emb (Shape.reshapeEquiv _ y) = _
  rw [hk]
  funext a
  apply Fin.ext
  match a with
  | ⟨0, _⟩ => show s.val + 1 * 0 = s.val; omega
  | ⟨1, _⟩ => show 0 + 1 * (y 0).val = (y 0).val; omega
  | ⟨2, _⟩ => show 0 + 1 * (y 1).val = (y 1).val; omega

omit [FloatOps F] in

theorem inBlk_emb (c : Dev nD) (b : Fin 4) (y : S1024x1024.Idx) :
    (inBlk c b).view.emb y
      = ix2 (n0 := 8192) (n1 := 1024) ⟨4096 * (c.val % 2) + 1024 * b.val + (y 0).val, by
          have h1 : (y 0).val < 1024 := (y 0).isLt
          have := b.isLt; have := Nat.mod_lt c.val (show 0 < 2 by decide); omega⟩ (y 1) := by
  show (Rect.unit (s := S8192x1024) (k0_off1 c (BitVec.ofNat 32 (1024 * b.val))) S1024x1024.size (k0_off1_inb c b)).emb y = _
  funext a
  apply Fin.ext
  match a with
  | ⟨0, _⟩ =>
    show (k0_off1 c (BitVec.ofNat 32 (1024 * b.val))) 0 + 1 * (y 0).val = 4096 * (c.val % 2) + 1024 * b.val + (y 0).val
    rw [k0_off1_eq]
    show 4096 * (c.val % 2) + 1024 * b.val + 1 * (y 0).val = _
    omega
  | ⟨1, _⟩ =>
    show (k0_off1 c (BitVec.ofNat 32 (1024 * b.val))) 1 + 1 * (y 1).val = (y 1).val
    rw [k0_off1_eq]
    show 0 + 1 * (y 1).val = _
    omega

theorem staged (c : Dev nD) (b : Fin 4)
    (fd : Buf (Elt F) ((slot (slotOf b)).view.loc (c : Thread nD τ))) :
    (piece c (slot (slotOf b)) fullShare
        ((slot (slotOf b)).view.write (Elt F) fd
          ((inBlk c b).view.read (Elt F) (A m c)) Finset.univ) : sProp 𝕄)
      = piece c (slot (slotOf b)) fullShare (XST m c b) := by
  refine pointsTo_congr fun i hi => ?_
  obtain ⟨y, rfl⟩ := View.exists_emb_of_mem_set _ hi
  rw [View.write_emb_of_mem _ _ (Finset.mem_univ y), View.read_apply]
  refine Eq.trans (b := A m c ((inBlk c b).view.emb y)) rfl ?_
  rw [inBlk_emb, slot_emb]
  rfl

omit [FloatOps F] in

theorem lv_cs (c : Dev nD) (b : Fin 4) : lv ((c : Thread nD τ), .dma (csS b)) () = 0 := by
  have := b.isLt
  show (if 36 ≤ b.val ∧ b.val < 52 then 2 else if 68 ≤ b.val then 3 else 0) = 0
  rw [if_neg (by omega), if_neg (by omega)]

def nrBlk (j : Fin 16) : Fin 4 := ⟨j.val / 4, by have := j.isLt; omega⟩

theorem nr_inb (j : Fin 16) :
    ∀ a, (![(slotOf (nrBlk j)).val, 256 * (j.val % 4), 0] : Fin 3 → Nat) a + S1x256x1024.size a ≤ S3x1024x1024.size a := by
  have h3 := (slotOf (nrBlk j)).isLt
  have h4 := Nat.mod_lt j.val (show 0 < 4 by decide)
  intro a
  match a with
  | ⟨0, _⟩ => show (slotOf (nrBlk j)).val + 1 ≤ 3; omega
  | ⟨1, _⟩ => show 256 * (j.val % 4) + 256 ≤ 1024; omega
  | ⟨2, _⟩ => show 0 + 1024 ≤ 1024; omega

abbrev nrR (j : Fin 16) : Rect S3x1024x1024 :=
  Rect.unit (s := S3x1024x1024) ![(slotOf (nrBlk j)).val, 256 * (j.val % 4), 0] S1x256x1024.size (nr_inb j)

def nrPay (v : Vec F S1x256x1024 .f32) : FVec F S256x1024 .bf16 :=
  shapeCast S256x1024 (truncf .bf16 (shapeCast S256x1024 v shapeCasts_S1x256x1024_S256x1024) bitsLt_bf16_f32)
    shapeCasts_S256x1024_S256x1024

omit [FloatOps F] in

theorem nr_sub_slot (j : Fin 16) :
    (stB).view.setOn (nrR j).toLoadRect.set
      ⊆ (slot (slotOf (nrBlk j)) : Memref sig .tc .vmem S1024x1024 .f32).view.set := by
  intro i hi
  obtain ⟨x, hx, rfl⟩ := Finset.mem_map.mp hi
  have hset : (slot (slotOf (nrBlk j)) : Memref sig .tc .vmem S1024x1024 .f32).view.set
      = (Rect.unit (s := S3x1024x1024) ![(slotOf (nrBlk j)).val, 0, 0] S1x1024x1024.size (slot_inb (slotOf (nrBlk j)))).set := by
    exact (View.set_reshape _ _).trans (View.set_slice_whole _ _)
  rw [hset]
  show x ∈ _
  rw [Rect.mem_set_unit] at hx ⊢
  have h4 := Nat.mod_lt j.val (show 0 < 4 by decide)
  intro a
  match a with
  | ⟨0, _⟩ =>
    have h := hx ⟨0, by decide⟩
    change (slotOf (nrBlk j)).val ≤ (x 0).val ∧ (x 0).val < (slotOf (nrBlk j)).val + 1 at h
    show (slotOf (nrBlk j)).val ≤ (x 0).val ∧ (x 0).val < (slotOf (nrBlk j)).val + 1
    exact h
  | ⟨1, _⟩ =>
    have h := hx ⟨1, by decide⟩
    change 256 * (j.val % 4) ≤ (x 1).val ∧ (x 1).val < 256 * (j.val % 4) + 256 at h
    show 0 ≤ (x 1).val ∧ (x 1).val < 0 + 1024
    omega
  | ⟨2, _⟩ =>
    have h := hx ⟨2, by decide⟩
    change 0 ≤ (x 2).val ∧ (x 2).val < 0 + 1024 at h
    show 0 ≤ (x 2).val ∧ (x 2).val < 0 + 1024
    exact h

omit [FloatOps F] in

theorem chunk_sub (j : Fin 16) :
    (sxB).view.setOn (chunkR j).toLoadRect.set
      ⊆ (sxC j).view.set := by
  intro i hi
  obtain ⟨x, hx, rfl⟩ := Finset.mem_map.mp hi
  have hset : (sxC j).view.set = (chunkR j).set := View.set_slice_whole _ _
  rw [hset]
  exact hx

theorem wp_narrow_load1 (c : Dev nD) (j : Fin 16)
    {h1 : (stB).view.LoadsAt (nrR j).toLoadRect}
    {α : Type} {Q : α → sProp 𝕄} {k : ((nrR j).toLoadRect.shape.Idx → Elt F .f32) → Prog (TpuEff nD τ sig (Elt F) Λ₀ .tc) α}
    (f : Buf (Elt F) ((slot (slotOf (nrBlk j)) : Memref sig .tc .vmem S1024x1024 .f32).view.loc (c : Thread nD τ))) :
    (piece c (slot (slotOf (nrBlk j))) fullShare f : sProp 𝕄)
      ⊢ iprop((piece c (slot (slotOf (nrBlk j))) fullShare f
            -∗ WPc c
                (k ((stB).view.readAt (Elt F) (nrR j).toLoadRect f)) Q)
          -∗ WPc c (.op (.load stB (nrR j).toLoadRect h1) k) Q) :=
  wp_load 𝒱₀ (c : Thread nD τ) none Set.univ (m := stB) (nr_sub_slot j)

theorem wp_narrow_load2 (c : Dev nD) (j : Fin 16)
    {h2 : (sxB).view.LoadsAt (chunkR j).toLoadRect}
    {α : Type} {Q : α → sProp 𝕄} {k : ((chunkR j).toLoadRect.shape.Idx → Elt F .bf16) → Prog (TpuEff nD τ sig (Elt F) Λ₀ .tc) α}
    (f : Buf (Elt F) ((sxC j).view.loc (c : Thread nD τ))) :
    (piece c (sxC j) fullShare f : sProp 𝕄)
      ⊢ iprop((piece c (sxC j) fullShare f
            -∗ WPc c
                (k ((sxB).view.readAt (Elt F) (chunkR j).toLoadRect f)) Q)
          -∗ WPc c (.op (.load sxB (chunkR j).toLoadRect h2) k) Q) :=
  wp_load 𝒱₀ (c : Thread nD τ) none Set.univ (m := sxB) (chunk_sub j)

theorem wp_narrow_store (c : Dev nD) (j : Fin 16) (w : (chunkR j).shape.Idx → Elt F .bf16)
    {hst : ((sxB).access (chunkR j)).Stores Finset.univ}
    {hm : (Finset.univ : Finset (chunkR j).shape.Idx) = Finset.univ ∨ ∀ a, (chunkR j).stride a = 1}
    {α : Type} {Q : α → sProp 𝕄} {k : PUnit → Prog (TpuEff nD τ sig (Elt F) Λ₀ .tc) α}
    (f : Buf (Elt F) ((sxC j).view.loc (c : Thread nD τ))) :
    (piece c (sxC j) fullShare f : sProp 𝕄)
      ⊢ iprop((piece c (sxC j) fullShare ((sxC j).view.write (Elt F) f w Finset.univ)
            -∗ WPc c (k ⟨⟩) Q)
          -∗ WPc c
              (.op (.store sxB (chunkR j) w Finset.univ hst hm) k) Q) :=
  wp_store 𝒱₀ (c : Thread nD τ) none Set.univ (m := sxB) (r := chunkR j) (Mk := Finset.univ) (Finset.subset_of_eq (View.setOn_univ _))

theorem narrow_val (c : Dev nD) (j : Fin 16)
    (f : Buf (Elt F) ((sxC j).view.loc (c : Thread nD τ))) :
    (piece c (sxC j) fullShare
        ((sxC j).view.write (Elt F) f
          (nrPay ((stB).view.readAt (Elt F) (nrR j).toLoadRect (XST m c (nrBlk j))))
          Finset.univ) : sProp 𝕄)
      = piece c (sxC j) fullShare (SX1 m c) := by
  refine pointsTo_congr fun i hi => ?_
  obtain ⟨y, rfl⟩ := View.exists_emb_of_mem_set _ hi
  rw [View.write_emb_of_mem _ _ (Finset.mem_univ y)]
  refine Eq.trans (b := nrPay ((stB).view.readAt (Elt F) (nrR j).toLoadRect (XST m c (nrBlk j))) y) rfl ?_
  unfold nrPay
  rw [shapeCast_self]
  show FloatOps.truncf .bf16 bitsLt_bf16_f32 (shapeCast S256x1024 _ shapeCasts_S1x256x1024_S256x1024 y) = _
  rw [shapeCast_apply _ _ y (ix3 (n0 := 1) (n1 := 256) (n2 := 1024) ⟨0, Nat.one_pos⟩ (y 0) (y 1)) (by
    rw [Shape.rowMajor_val_three, Shape.rowMajor_val_two]
    show (0 * 256 + (y 0).val) * 1024 + (y 1).val = (y 0).val * 1024 + (y 1).val
    omega)]
  show FloatOps.truncf .bf16 _ (A m c _) = FloatOps.truncf .bf16 _ (A m c _)
  refine congrArg _ (congrArg (A m c) (Shape.idx_ext₂ ?_ ?_))
  · show 4096 * (c.val % 2) + 1024 * (j.val / 4) + (256 * (j.val % 4) + 1 * (y 0).val) = 4096 * (c.val % 2) + (256 * j.val + 1 * (y 0).val)
    omega
  · show 0 + 1 * (y 1).val = 0 + 1 * (y 1).val
    rfl

end Cert.KernelProof

end
-- ==== Proof.StepsCKernel.lean ====
import proofs.«900136_g7700000000000137_dist_ar_v7x_xy2x2_x_m8192_n1024_bf16_1_alg».proof.Proof.TablesKernel
import proofs.«900136_g7700000000000137_dist_ar_v7x_xy2x2_x_m8192_n1024_bf16_1_alg».proof.Proof.LevelsKernel

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

theorem NH_eq_NV (c : Dev nD) : NH c = NV := rfl

theorem due_ry (c : Dev nD) (j : Fin 16) (k : ℕ) (hk : k = 15 - j.val) : due c k = tallyAt (ryCell (yn c) j) () (NH c) := by
  have hj := j.isLt
  unfold due
  rw [dif_pos (show k < 16 by omega)]
  exact congrArg (fun x => tallyAt (ryCell (yn c) x) () (NH c)) (Fin.ext (by show 15 - k = j.val; omega))

namespace StepsC

theorem amt_outMe (c : Dev nD) (j : Fin 16) (sm : DmaSem sig) : (outMe c j).view.amount (.dma sm) = NH c := rfl
theorem amt_outOt (c : Dev nD) (j : Fin 16) (sm : DmaSem sig) : (outOt c j).view.amount (.dma sm) = NH c := rfl
theorem amt_rxC (j : Fin 16) (sm : DmaSem sig) : (rxC j).view.amount (.dma sm) = NV := rfl
theorem amt_sxC (j : Fin 16) (sm : DmaSem sig) : (sxC j).view.amount (.dma sm) = NV := rfl

theorem write_univ_congr {sg : RefSig} {κ : Idealize.ShloMosaic.Kind} {sp : Space} {s : Shape} {e : EltTy} {Val : EltTy → Type}
    (v : View sg κ sp s e) (fd : v.ty.Contents Val) (w : s.Idx → Val e) (g : v.ty.Contents Val)
    (h : ∀ y : s.Idx, _root_.cast (congrArg Val v.elt_eq.symm) (w y) = g (v.emb y)) :
    ∀ i ∈ v.set, v.write Val fd w Finset.univ i = g i := by
  intro i hi
  obtain ⟨y, rfl⟩ := View.exists_emb_of_mem_set v hi
  rw [View.write_emb_of_mem _ _ (Finset.mem_univ y)]
  exact h y

section Coords
variable (c : Dev nD) (j : Fin 16) (y : S256x1024.Idx)

theorem sxC_emb_0 : (((sxC j).view.emb y : S4096x1024.Idx) 0).val = 256 * j.val + (y 0).val := by
  show 256 * j.val + 1 * (y 0).val = _; omega
theorem sxC_emb_1 : (((sxC j).view.emb y : S4096x1024.Idx) 1).val = (y 1).val := by
  show 0 + 1 * (y 1).val = _; omega
theorem rxC_emb_eq : ((rxC j).view.emb y : S4096x1024.Idx) = ((sxC j).view.emb y : S4096x1024.Idx) := rfl

theorem outMe_emb_0 : (((outMe c j).view.emb y : S8192x1024.Idx) 0).val = 4096 * (c.val % 2) + 256 * j.val + (y 0).val := by
  show (k0_off2 c (BitVec.ofNat 32 (256 * j.val))) 0 + 1 * (y 0).val = _
  rw [k0_off2_eq c j]
  show 4096 * (c.val % 2) + 256 * j.val + 1 * (y 0).val = _
  omega
theorem outMe_emb_1 : (((outMe c j).view.emb y : S8192x1024.Idx) 1).val = (y 1).val := by
  show (k0_off2 c (BitVec.ofNat 32 (256 * j.val))) 1 + 1 * (y 1).val = _
  rw [k0_off2_eq c j]
  show 0 + 1 * (y 1).val = _
  omega

theorem low_outMe : low ((outMe c j).view.emb y : S8192x1024.Idx) = ((sxC j).view.emb y : S4096x1024.Idx) := by
  have hj := j.isLt
  have hy := idx2_lt0 y
  have hc := Nat.mod_lt c.val (show 0 < 2 by decide)
  funext a
  match a with
  | ⟨0, _⟩ =>
    refine Fin.ext ?_
    show (((outMe c j).view.emb y : S8192x1024.Idx) 0).val % 4096 = (((sxC j).view.emb y : S4096x1024.Idx) 0).val
    rw [outMe_emb_0, sxC_emb_0]; omega
  | ⟨1, _⟩ =>
    refine Fin.ext ?_
    show (((outMe c j).view.emb y : S8192x1024.Idx) 1).val = (((sxC j).view.emb y : S4096x1024.Idx) 1).val
    rw [outMe_emb_1, sxC_emb_1]

theorem outMe_half : (((outMe c j).view.emb y : S8192x1024.Idx) 0).val / 4096 = c.val % 2 := by
  have hj := j.isLt
  have hy := idx2_lt0 y
  have hc := Nat.mod_lt c.val (show 0 < 2 by decide)
  rw [outMe_emb_0]; omega

theorem OUT_yn_outMe : OUT m (yn c) ((outMe c j).view.emb y : S8192x1024.Idx) = SX2 m c ((sxC j).view.emb y : S4096x1024.Idx) := by
  have hc := Nat.mod_lt c.val (show 0 < 2 by decide)
  have hne : ¬ (((outMe c j).view.emb y : S8192x1024.Idx) 0).val / 4096 = (yn c).val % 2 := by
    rw [outMe_half, yn_mod]; omega
  show (if (((outMe c j).view.emb y : S8192x1024.Idx) 0).val / 4096 = (yn c).val % 2 then _ else _) = _
  rw [if_neg hne, yn_yn, low_outMe]

theorem OUT_outMe : OUT m c ((outMe c j).view.emb y : S8192x1024.Idx) = SX2 m c ((sxC j).view.emb y : S4096x1024.Idx) := by
  show (if (((outMe c j).view.emb y : S8192x1024.Idx) 0).val / 4096 = c.val % 2 then _ else _) = _
  rw [if_pos (outMe_half c j y), low_outMe]

end Coords

theorem off2_eq_off3 (c : Dev nD) (j : Fin 16) :
    k0_off2 c (BitVec.ofNat 32 (256 * j.val)) = k0_off3 (yn c) (BitVec.ofNat 32 (256 * j.val)) := by
  have hc := Nat.mod_lt c.val (show 0 < 2 by decide)
  rw [k0_off2_eq c j, k0_off3_eq (yn c) j, yn_mod]
  exact congrArg (fun a : ℕ => (![a, 0] : Fin 2 → ℕ)) (by omega)

theorem outMe_set_eq (c : Dev nD) (j : Fin 16) :
    (outMe c j).view.set = (outOt (yn c) j).view.set :=
  (View.set_slice_whole main_v1 _).trans
    ((congrArg (fun r : Rect S8192x1024 => r.set) (Rect.unit_congr (off2_eq_off3 c j) (k0_off2_inb c j) (k0_off3_inb (yn c) j))).trans (View.set_slice_whole main_v1 _).symm)

theorem send_y_pay (c : Dev nD) (j : Fin 16) (fd : Buf (Elt F) ((outMe c j).view.loc (yn c : Thread nD τ))) :
    ((outMe c j).view.loc (yn c : Thread nD τ) ↦[(outMe c j).view.set]{fullShare}
        ((outMe c j).view.write (Elt F) fd ((sxC j).view.read (Elt F) (SX2 m c)) Finset.univ) : sProp 𝕄)
      ⊢ ryPay m (yn c) j := by
  have key := write_univ_congr (Val := Elt F) (outMe c j).view
    fd ((sxC j).view.read (Elt F) (SX2 m c)) (OUT m (yn c)) (fun y => by
      rw [View.read_apply, cast_cast, cast_eq]
      exact (OUT_yn_outMe m c j y).symm)
  unfold ryPay
  rw [pointsTo_congr key, outMe_set_eq]

theorem copy_out_pay (c : Dev nD) (j : Fin 16) (fd : Buf (Elt F) ((outMe c j).view.loc (c : Thread nD τ))) :
    iprop(((outMe c j).view.loc (c : Thread nD τ) ↦[(outMe c j).view.set]{fullShare}
        ((outMe c j).view.write (Elt F) fd ((sxC j).view.read (Elt F) (SX2 m c)) Finset.univ))
        ∗ ((sxC j).view.loc (c : Thread nD τ) ↦[(sxC j).view.set]{fullShare.right} SX2 m c) : sProp 𝕄)
      ⊢ rsPay m c j := by
  have key := write_univ_congr (Val := Elt F) (outMe c j).view
    fd ((sxC j).view.read (Elt F) (SX2 m c)) (OUT m c) (fun y => by
      rw [View.read_apply, cast_cast, cast_eq]
      exact (OUT_outMe m c j y).symm)
  unfold rsPay
  rw [pointsTo_congr key]

end StepsC
open StepsC

namespace StepsC

theorem lvC_rs (c : Dev nD) (j : Fin 16) : lv ((c : Thread nD τ), .dma (rsS j)) () = 0 := by
  have hj := j.isLt
  show (if 36 ≤ 4 + j.val ∧ 4 + j.val < 52 then 2 else if 68 ≤ 4 + j.val then 3 else 0) = 0
  rw [if_neg (by omega), if_neg (by omega)]
theorem lvC_sx (c : Dev nD) (j : Fin 16) : lv ((c : Thread nD τ), .dma (sxS j)) () = 0 := by
  have hj := j.isLt
  show (if 36 ≤ 20 + j.val ∧ 20 + j.val < 52 then 2 else if 68 ≤ 20 + j.val then 3 else 0) = 0
  rw [if_neg (by omega), if_neg (by omega)]
theorem lvC_sy (c : Dev nD) (j : Fin 16) : lv ((c : Thread nD τ), .dma (syS j)) () = 0 := by
  have hj := j.isLt
  show (if 36 ≤ 52 + j.val ∧ 52 + j.val < 52 then 2 else if 68 ≤ 52 + j.val then 3 else 0) = 0
  rw [if_neg (by omega), if_neg (by omega)]

end StepsC

theorem split_half (c : Dev nD) (j : Fin 16) (f : Buf (Elt F) ((sxC j).view.loc (c : Thread nD τ))) :
    (piece c (sxC j) fullShare f : sProp 𝕄) ⊢ iprop(piece c (sxC j) fullShare.left f ∗ piece c (sxC j) fullShare.right f) :=
  (pointsTo_share (PosShare.mem_left_op_right fullShare)).1
theorem join_half (c : Dev nD) (j : Fin 16) (f : Buf (Elt F) ((sxC j).view.loc (c : Thread nD τ))) :
    iprop(piece c (sxC j) fullShare.left f ∗ piece c (sxC j) fullShare.right f) ⊢ (piece c (sxC j) fullShare f : sProp 𝕄) :=
  (pointsTo_share (PosShare.mem_left_op_right fullShare)).2

theorem wp_sum_load_sx (c : Dev nD) (j : Fin 16) {hl : (sxB).view.LoadsAt (chunkR j).toLoadRect}
    {α : Type} {Q : α → sProp 𝕄} {k : ((chunkR j).toLoadRect.shape.Idx → Elt F .bf16) → Prog (TpuEff nD τ sig (Elt F) Λ₀ .tc) α}
    (q : PosShare TreeShare) (f : Buf (Elt F) ((sxC j).view.loc (c : Thread nD τ))) :
    (piece c (sxC j) q f : sProp 𝕄)
      ⊢ iprop((piece c (sxC j) q f -∗ WPc c
              (k ((sxC j).view.read (Elt F) f)) Q)
          -∗ WPc c (.op (.load sxB (chunkR j).toLoadRect hl) k) Q) :=
  wp_load Variants.none (c : Thread nD τ) none Set.univ (m := (sxB)) (r := (chunkR j).toLoadRect)
    (S := (sxC j).view.set) (q := q) (f := f)
    (View.set_slice (sxB).view (chunkR j)).symm.subset

theorem wp_sum_load_rx (c : Dev nD) (j : Fin 16) {hl : (rxB).view.LoadsAt (chunkR j).toLoadRect}
    {α : Type} {Q : α → sProp 𝕄} {k : ((chunkR j).toLoadRect.shape.Idx → Elt F .bf16) → Prog (TpuEff nD τ sig (Elt F) Λ₀ .tc) α}
    (q : PosShare TreeShare) (f : Buf (Elt F) ((rxC j).view.loc (c : Thread nD τ))) :
    (piece c (rxC j) q f : sProp 𝕄)
      ⊢ iprop((piece c (rxC j) q f -∗ WPc c
              (k ((rxC j).view.read (Elt F) f)) Q)
          -∗ WPc c (.op (.load rxB (chunkR j).toLoadRect hl) k) Q) :=
  wp_load Variants.none (c : Thread nD τ) none Set.univ (m := (rxB)) (r := (chunkR j).toLoadRect)
    (S := (rxC j).view.set) (q := q) (f := f)
    (View.set_slice (rxB).view (chunkR j)).symm.subset

theorem wp_sum_store (c : Dev nD) (j : Fin 16) {w : (chunkR j).shape.Idx → Elt F .bf16}
    {hx : ((sxB).access (chunkR j)).Stores Finset.univ}
    {hm : (Finset.univ : Finset (chunkR j).shape.Idx) = Finset.univ ∨ ∀ a, (chunkR j).stride a = 1}
    {α : Type} {Q : α → sProp 𝕄} {k : PUnit → Prog (TpuEff nD τ sig (Elt F) Λ₀ .tc) α}
    (f : Buf (Elt F) ((sxC j).view.loc (c : Thread nD τ))) :
    (piece c (sxC j) fullShare f : sProp 𝕄)
      ⊢ iprop((piece c (sxC j) fullShare ((sxC j).view.write (Elt F) f w Finset.univ)
              -∗ WPc c (k ⟨⟩) Q)
          -∗ WPc c (.op (.store sxB (chunkR j) w Finset.univ hx hm) k) Q) :=
  wp_store Variants.none (c : Thread nD τ) none Set.univ (m := (sxB)) (r := chunkR j) (Mk := Finset.univ)
    (S := (sxC j).view.set) (f := f) (Finset.Subset.refl _)

theorem sum_val (c : Dev nD) (j : Fin 16) :
    (piece c (sxC j) fullShare ((sxC j).view.write (Elt F) (SX1 m c)
        (shapeCast S256x1024 (addf ((sxC j).view.read (Elt F) (SX1 m c))
          ((rxC j).view.read (Elt F) (RX m c))) shapeCasts_S256x1024_S256x1024) Finset.univ) : sProp 𝕄)
      = piece c (sxC j) fullShare (SX2 m c) :=
  pointsTo_congr (write_univ_congr (Val := Elt F) (sxC j).view (SX1 m c) _ (SX2 m c) fun y => by
    rw [shapeCast_self, cast_eq]
    show FloatOps.addf ((sxC j).view.read (Elt F) (SX1 m c) y)
        ((rxC j).view.read (Elt F) (RX m c) y)
      = FloatOps.addf (SX1 m c ((sxC j).view.emb y)) (RX m c ((sxC j).view.emb y))
    rw [View.read_apply, View.read_apply, cast_eq, cast_eq]
    rfl)

end Cert.KernelProof
end
-- ==== Proof.StepsRKernel.lean ====
import proofs.«900136_g7700000000000137_dist_ar_v7x_xy2x2_x_m8192_n1024_bf16_1_alg».proof.Proof.StepsAKernel
import proofs.«900136_g7700000000000137_dist_ar_v7x_xy2x2_x_m8192_n1024_bf16_1_alg».proof.Proof.StepsBKernel
import proofs.«900136_g7700000000000137_dist_ar_v7x_xy2x2_x_m8192_n1024_bf16_1_alg».proof.Proof.StepsCKernel
import proofs.«900136_g7700000000000137_dist_ar_v7x_xy2x2_x_m8192_n1024_bf16_1_alg».proof.Proof.RegroupKernel

noncomputable section

namespace Cert.KernelProof

open Cert.Kernel Cert.Kernel.Gen StepsC

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The persistent records hold every cell's invariant and that its round 0 is reached. -/
theorem r_inv_bar (K : Dev nD × CIx → ℕ) (c : Dev nD) : records m K ⊢ cellInv ER (Rd m) (K (c, none)) (barCell c) :=
  inv_at m K (c, none)
theorem r_inv_dma (K : Dev nD × CIx → ℕ) (c : Dev nD) (n : DmaSem sig) :
    records m K ⊢ cellInv ER (Rd m) (K (c, some n)) ((c : Thread nD τ), .dma n) :=
  inv_at m K (c, some n)
theorem r_reached_bar (K : Dev nD × CIx → ℕ) (c : Dev nD) : records m K ⊢ reached ER (barCell c) 0 :=
  reached_at m K (c, none)
theorem r_reached_dma (K : Dev nD × CIx → ℕ) (c : Dev nD) (n : DmaSem sig) :
    records m K ⊢ reached ER ((c : Thread nD τ), SemLoc.dma n) 0 :=
  reached_at m K (c, some n)

/-- The entry signal to the x-partner pays the one duty of its barrier cell owed at 33: it hands over this device's landing half. -/
theorem r_wp_sig_x (K : Dev nD × CIx → ℕ) (c : Dev nD) (v : ℕ) (hv : v < nD) (hn : v = (xn c).val) {α : Type} {Q : α → sProp 𝕄} {k : PUnit → Prog (TpuEff nD τ sig (Elt F) Λ₀ .tc) α} (W : Waits sig Unit) :
    iprop(records m K ∗ owes c (owedUpTo c 34) W ∗ dutyTok ER (barCell (xn c)) 0 false
        ∗ (bigSep Finset.univ fun j : Fin 16 => iprop(∃ f, piece c (rxC j) fullShare f)))
      ⊢ iprop((owes c (owedUpTo c 33) W -∗ WPc c (k ⟨⟩) Q)
          -∗ WPc c (.op (.semSignal (Dev.tc ⟨v, hv⟩ : Thread nD τ) barS 1) k) Q) := by
  subst hn
  rw [← barPayX_xn c, ← payload_bar_false m (xn c)]
  refine BIBase.Entails.trans ?_ (Rounds.wp_signal Variants.none ER (Rd m) (c : Thread nD τ) none (dst := (xn c : Thread nD τ)) (κ := K (xn c, none)) (d := false)
    (by rw [duties_bar]; exact Finset.mem_univ _) (amount_bar m (xn c) false) () (O₀ := owedUpTo c 34) (owedUpTo c 33)
    (by show owedUpTo c 33 + due c 33 = _; rw [a_due_bar_x]))
  iintro ⟨#Hrec, H⟩
  ihave #Hi := (r_inv_bar m K (xn c)) $$ Hrec
  ihave #Hr := (r_reached_bar m K (xn c)) $$ Hrec
  iframe # ∗

/-- The entry signal to the y-partner hands over the half of this device's result that the partner writes. -/
theorem r_wp_sig_y (K : Dev nD × CIx → ℕ) (c : Dev nD) (v : ℕ) (hv : v < nD) (hn : v = (yn c).val) {α : Type} {Q : α → sProp 𝕄} {k : PUnit → Prog (TpuEff nD τ sig (Elt F) Λ₀ .tc) α} (W : Waits sig Unit) :
    iprop(records m K ∗ owes c (owedUpTo c 33) W ∗ dutyTok ER (barCell (yn c)) 0 true
        ∗ (bigSep Finset.univ fun j : Fin 16 => iprop(∃ f, piece c (outOt c j) fullShare f)))
      ⊢ iprop((owes c (owedUpTo c 32) W -∗ WPc c (k ⟨⟩) Q)
          -∗ WPc c (.op (.semSignal (Dev.tc ⟨v, hv⟩ : Thread nD τ) barS 1) k) Q) := by
  subst hn
  rw [← barPayY_yn c, ← payload_bar_true m (yn c)]
  refine BIBase.Entails.trans ?_ (Rounds.wp_signal Variants.none ER (Rd m) (c : Thread nD τ) none (dst := (yn c : Thread nD τ)) (κ := K (yn c, none)) (d := true)
    (by rw [duties_bar]; exact Finset.mem_univ _) (amount_bar m (yn c) true) () (O₀ := owedUpTo c 33) (owedUpTo c 32)
    (by show owedUpTo c 32 + due c 32 = _; rw [a_due_bar_y]))
  iintro ⟨#Hrec, H⟩
  ihave #Hi := (r_inv_bar m K (yn c)) $$ Hrec
  ihave #Hr := (r_reached_bar m K (yn c)) $$ Hrec
  iframe # ∗

/-- Both partners have signalled: their two hand-overs arrive together, and nothing this device still owes sits below the barrier's level. -/
theorem r_wp_wait_bar (K : Dev nD × CIx → ℕ) (c : Dev nD) {α : Type} {Q : α → sProp 𝕄} {k : PUnit → Prog (TpuEff nD τ sig (Elt F) Λ₀ .tc) α} (W : Waits sig Unit) :
    iprop(records m K ∗ cred (tallyAt (barCell c) () 2) ∗ owes c (owedUpTo c 32) W
        ∗ levAts L lv ∗ atPos ER (barCell c) 0 ∅ 0)
      ⊢ iprop(((owes c (owedUpTo c 32) (insert (SemLoc.reg barS, ()) W) ∗ atPos ER (barCell c) 1 ∅ 0 ∗ reached ER (barCell c) 1
              ∗ barPayX c ∗ barPayY c)
            -∗ WPc c (k ⟨⟩) Q)
          -∗ WPc c (.op (.semWait barS 2) k) Q) := by
  iintro ⟨#Hrec, Hc, HO, #Hlev, Hat⟩ Hk
  ihave #Hi := (r_inv_bar m K c) $$ Hrec
  ihave #Hm := (mayWait_bar c 32 (le_refl _)) $$ Hlev
  iapply (Rounds.wp_wait_rest_token Variants.none ER (Rd m) (c : Thread nD τ) none (κ := K (c, none))
      (wpE_semWait_eq Variants.none (c : Thread nD τ) none Set.univ) (Set.mem_univ _) () (O := owedUpTo c 32) (W := W) (R := 0) (m := 0) (T := ∅)
      (by show 0 + 2 = (Rd (F := F) m).expect (barCell c) 0; rw [expect_bar])) $$ [Hc HO Hat]
  · iframe # ∗
  iintro ⟨HO, Hat, Hr, Hpay⟩
  ihave Hp := (Entails.of_eq (rest_bar m c)) $$ Hpay
  icases Hp with ⟨Hx, Hy⟩
  iapply Hk
  iframe

/-- A staging copy pays its own cell; the slot comes back holding the block because a whole-view write of a whole-view read is the block. -/
theorem r_wp_stage (K : Dev nD × CIx → ℕ) (c : Dev nD) (b : Fin 4)
    {hsrc : (inBlk c b).view.WordExact}
    {hdst : (slot (slotOf b)).view.WordExact}
    {hsem : DmaTarget.Typed (nD := nD) (τ := τ) (p := Proc.tc) .hbm (.dma (csS b)) (.here (slot (slotOf b)))}
    {α : Type} {Q : α → sProp 𝕄} {k : PUnit → Prog (TpuEff nD τ sig (Elt F) Λ₀ .tc) α}
    (fd : Buf (Elt F) ((slot (slotOf b)).view.loc (c : Thread nD τ))) :
    iprop(records m K ∗ piece c (inBlk c b) fullShare (A m c) ∗ piece c (slot (slotOf b)) fullShare fd
        ∗ dutyTok ER (csCell c b) 0 false)
      ⊢ iprop((cred (tallyAt (csCell c b) () NB) -∗ WPc c (k ⟨⟩) Q)
          -∗ WPc c
              (.op (.enqueueDma (inBlk c b) (.here (slot (slotOf b))) (.dma (csS b)) hsrc hdst hsem) k) Q) := by
  refine BIBase.Entails.trans ?_ (Rounds.wp_copy_pointsTo Variants.none ER (Rd m) (c : Thread nD τ) none (κ := K (c, some (csS b))) (r := 0) (d := false) (q := fullShare) (fs := A m c) (fd := fd)
    (by rw [duties_dma]; exact Finset.mem_singleton_self _) () NB (by unfold NB; rfl) (amount_cs m c b false)
    (by rw [payload_cs]; unfold csPay; exact sep_mono_left (Entails.of_eq (staged m c b fd))))
  iintro ⟨#Hrec, H⟩
  ihave #Hi := (r_inv_dma m K c (csS b)) $$ Hrec
  ihave #Hr := (r_reached_dma m K c (csS b)) $$ Hrec
  iframe # ∗

/-- A wait for the whole of round 0 of one of the device's DMA cells: the cell's payload `P` comes back and the position moves on. -/
theorem r_wp_wait_cell (K : Dev nD × CIx → ℕ) (c : Dev nD) (n : DmaSem sig) (N N' : ℕ) (P : sProp 𝕄) (hN : N' = N)
    (hamt : (Rd (F := F) m).amount ((c : Thread nD τ), .dma n) 0 false = N)
    (hpay : (Rd (F := F) m).payload ((c : Thread nD τ), .dma n) 0 false = P)
    {O : CellTallies nD τ sig Unit} (hmay : (levAts L lv : sProp 𝕄) ⊢ MayWait (c : Thread nD τ) (.dma n) () O)
    (w : TpuEff nD τ sig (Elt F) Λ₀ .tc PUnit)
    (hw : ∀ Kw : PUnit → sProp 𝕄, wpE (defs₀ (F := F)) Variants.none (c : Thread nD τ) none Set.univ w Kw = waitSpec (c : Thread nD τ) Set.univ (.dma n) N' Kw)
    {α : Type} {Q : α → sProp 𝕄} {k : PUnit → Prog (TpuEff nD τ sig (Elt F) Λ₀ .tc) α} (W : Waits sig Unit) :
    iprop(records m K ∗ cred (tallyAt ((c : Thread nD τ), .dma n) () N) ∗ owes c O W
        ∗ levAts L lv ∗ atPos ER ((c : Thread nD τ), .dma n) 0 ∅ 0)
      ⊢ iprop(((owes c O (insert (SemLoc.dma n, ()) W) ∗ atPos ER ((c : Thread nD τ), .dma n) 1 ∅ 0 ∗ reached ER ((c : Thread nD τ), .dma n) 1 ∗ P)
            -∗ WPc c (k ⟨⟩) Q)
          -∗ WPc c (.op w k) Q) := by
  subst hN
  have hrest : bigSep ((Rd (F := F) m).duties ((c : Thread nD τ), .dma n) 0 \ ∅) (fun d => (Rd (F := F) m).payload ((c : Thread nD τ), .dma n) 0 d) = P := by
    rw [Finset.sdiff_empty, duties_dma, bigSep_singleton, hpay]
  iintro ⟨#Hrec, Hc, HO, #Hlev, Hat⟩ Hk
  ihave #Hi := (r_inv_dma m K c n) $$ Hrec
  ihave #Hm := hmay $$ Hlev
  iapply (Rounds.wp_wait_rest_token Variants.none ER (Rd m) (c : Thread nD τ) none (κ := K (c, some n)) hw (Set.mem_univ _) () (O := O) (W := W) (R := 0) (m := 0) (T := ∅)
      (by unfold Schedule.expect Schedule.amountOf; rw [Nat.zero_add, duties_dma, Finset.sum_singleton, hamt])) $$ [Hc HO Hat]
  · iframe # ∗
  iintro ⟨HO, Hat, Hr, Hpay⟩
  ihave Hpay := (Entails.of_eq hrest) $$ Hpay
  iapply Hk
  iframe

/-- Each DMA wait below is the general wait at its cell's amount, payload and level. -/
theorem r_wp_wait_cs (K : Dev nD × CIx → ℕ) (c : Dev nD) (b : Fin 4)
    {hsrc : (inBlk c b).view.WordExact}
    {hdst : (slot (slotOf b)).view.WordExact}
    {α : Type} {Q : α → sProp 𝕄} {k : PUnit → Prog (TpuEff nD τ sig (Elt F) Λ₀ .tc) α}
    (W : Waits sig Unit) (kk : ℕ) :
    iprop(records m K ∗ cred (tallyAt (csCell c b) () NB) ∗ owes c (owedUpTo c kk) W
        ∗ levAts L lv ∗ atPos ER (csCell c b) 0 ∅ 0)
      ⊢ iprop(((owes c (owedUpTo c kk) (insert (SemLoc.dma (csS b), ()) W)
              ∗ atPos ER (csCell c b) 1 ∅ 0 ∗ reached ER (csCell c b) 1
              ∗ piece c (slot (slotOf b)) fullShare (XST m c b) ∗ piece c (inBlk c b) fullShare (A m c))
            -∗ WPc c (k ⟨⟩) Q)
          -∗ WPc c
              (.op (.waitDma2 (csS b) (inBlk c b) (slot (slotOf b)) hsrc hdst) k) Q) :=
  r_wp_wait_cell m K c (csS b) NB (slot (slotOf b)).view.dmaCredit (csPay m c b) (by unfold NB; rfl)
    (amount_cs m c b false) (payload_cs m c b false) (mayWait_low c (csS b) (lv_cs c b) kk) (.waitDma2 (csS b) (inBlk c b) (slot (slotOf b)) hsrc hdst)
    (fun Kw => wpE_waitDma2_eq Variants.none (c : Thread nD τ) none Set.univ Kw) W

/-- The first exchange's send pays the x-partner's landing cell, the due counted `31 - j` from the end; what lands is this device's narrowed chunk. -/
theorem r_wp_send_x (K : Dev nD × CIx → ℕ) (c : Dev nD) (j : Fin 16) (v : ℕ) (hv : v < nD) (hn : v = (xn c).val)
    {hsc : (rxC j : Memref sig (Dev.tc ⟨v, hv⟩ : Thread nD τ).2.kind .vmem S256x1024 .bf16).view.ref.isScScratch = false}
    {hsrc : (sxC j).view.WordExact}
    {hdst : (rxC j).view.WordExact}
    {hsem : DmaTarget.Typed .vmem (.dma (rxS j)) (.remote (Dev.tc ⟨v, hv⟩ : Thread nD τ) (rxC j) (.dma (sxS j)) hsc)}
    {α : Type} {Q : α → sProp 𝕄} {k : PUnit → Prog (TpuEff nD τ sig (Elt F) Λ₀ .tc) α}
    (fd : Buf (Elt F) ((rxC j).view.loc (xn c : Thread nD τ))) (W : Waits sig Unit)
    (kk' kk : ℕ) (hk' : kk' = kk + 1) (hk : kk = 31 - j.val) :
    iprop(records m K
        ∗ piece c (sxC j) fullShare (SX1 m c) ∗ piece (xn c) (rxC j) fullShare fd
        ∗ owes c (owedUpTo c kk') W
        ∗ dutyTok ER (sxCell c j) 0 false
        ∗ dutyTok ER (rxCell (xn c) j) 0 false)
      ⊢ iprop(((cred (tallyAt (sxCell c j) () NV) ∗ owes c (owedUpTo c kk) W)
            -∗ WPc c (k ⟨⟩) Q)
          -∗ WPc c
              (.op (.enqueueDma (sxC j) (.remote (Dev.tc ⟨v, hv⟩ : Thread nD τ) (rxC j) (.dma (sxS j)) hsc) (.dma (rxS j)) hsrc hdst hsem) k) Q) := by
  subst hn; subst hk'; subst hk
  refine BIBase.Entails.trans ?_ (Rounds.wp_send_pointsTo Variants.none ER (Rd m) (c : Thread nD τ) none (κ₁ := K (c, some (sxS j))) (κ₂ := K (xn c, some (rxS j)))
    (r₁ := 0) (r₂ := 0) (d₁ := false) (d₂ := false) (q := fullShare) (fs := SX1 m c) (fd := fd)
    (by rw [duties_dma]; exact Finset.mem_singleton_self _) (by rw [duties_dma]; exact Finset.mem_singleton_self _)
    () () NV (by unfold NV; rfl) (amount_sx m c j false) (amount_rx m (xn c) j false) (O₀ := owedUpTo c (31 - j.val + 1)) (owedUpTo c (31 - j.val))
    (by show owedUpTo c (31 - j.val) + due c (31 - j.val) = _; rw [due_rx]) (W := W)
    (by rw [payload_sx]; exact BI.Entails.refl _)
    (by rw [payload_rx]; unfold rxPay RX; rw [xn_xn]; exact Entails.of_eq (landed_chunk j (xn c) fd (SX1 m c))))
  iintro ⟨#Hrec, H⟩
  ihave #I1 := (r_inv_dma m K c (sxS j)) $$ Hrec
  ihave #I2 := (r_inv_dma m K (xn c) (rxS j)) $$ Hrec
  ihave #R1 := (r_reached_dma m K c (sxS j)) $$ Hrec
  ihave #R2 := (r_reached_dma m K (xn c) (rxS j)) $$ Hrec
  iframe # ∗

/-- The second exchange's send pays the y-partner's landing cell, the due counted `15 - j` from the end; what lands is the summed chunk, which is the partner's result there. -/
theorem r_wp_send_y (K : Dev nD × CIx → ℕ) (c : Dev nD) (j : Fin 16) (v : ℕ) (hv : v < nD) (hn : v = (yn c).val)
    {hsc : (outMe c j : Memref sig (Dev.tc ⟨v, hv⟩ : Thread nD τ).2.kind .hbm S256x1024 .bf16).view.ref.isScScratch = false}
    {hsrc : (sxC j).view.WordExact} {hdst : (outMe c j).view.WordExact}
    {hsem : DmaTarget.Typed .vmem (.dma (ryS j)) (.remote (Dev.tc ⟨v, hv⟩ : Thread nD τ) (outMe c j) (.dma (syS j)) hsc)}
    {α : Type} {Q : α → sProp 𝕄} {k : PUnit → Prog (TpuEff nD τ sig (Elt F) Λ₀ .tc) α}
    (fd : Buf (Elt F) ((outMe c j).view.loc (yn c : Thread nD τ))) (W : Waits sig Unit) (kk' kk : ℕ) (hk' : kk' = kk + 1) (hk : kk = 15 - j.val) :
    iprop(records m K
        ∗ piece c (sxC j) fullShare.left (SX2 m c) ∗ piece (yn c) (outMe c j) fullShare fd
        ∗ owes c (owedUpTo c kk') W
        ∗ dutyTok ER (syCell c j) 0 false
        ∗ dutyTok ER (ryCell (yn c) j) 0 false)
      ⊢ iprop(((cred (tallyAt (syCell c j) () (NH c)) ∗ owes c (owedUpTo c kk) W) -∗ WPc c (k ⟨⟩) Q)
          -∗ WPc c
              (.op (.enqueueDma (sxC j) (.remote (Dev.tc ⟨v, hv⟩ : Thread nD τ) (outMe c j) (.dma (syS j)) hsc) (.dma (ryS j)) hsrc hdst hsem) k) Q) := by
  subst hn; subst hk'
  refine BIBase.Entails.trans ?_ (Rounds.wp_send_pointsTo Variants.none ER (Rd m) (c : Thread nD τ) none (κ₁ := K (c, some (syS j))) (κ₂ := K (yn c, some (ryS j)))
    (r₁ := 0) (r₂ := 0) (d₁ := false) (d₂ := false) (q := fullShare.left) (fs := SX2 m c) (fd := fd)
    (by rw [duties_dma]; exact Finset.mem_singleton_self _) (by rw [duties_dma]; exact Finset.mem_singleton_self _)
    () () (NH c) (amt_outMe c j (ryS j)) (amount_sy m c j false) ((amount_ry m (yn c) j false).trans ((NH_eq_NV (yn c)).trans (NH_eq_NV c).symm))
    (O₀ := owedUpTo c (kk + 1)) (owedUpTo c kk) (by show owedUpTo c kk + due c kk = _; rw [due_ry c j kk hk]) (W := W)
    (by rw [payload_sy]; exact BI.Entails.refl _)
    (by rw [payload_ry]; exact send_y_pay m c j fd))
  iintro ⟨#Hrec, H⟩
  ihave #I1 := (r_inv_dma m K c (syS j)) $$ Hrec
  ihave #I2 := (r_inv_dma m K (yn c) (ryS j)) $$ Hrec
  ihave #R1 := (r_reached_dma m K c (syS j)) $$ Hrec
  ihave #R2 := (r_reached_dma m K (yn c) (ryS j)) $$ Hrec
  iframe # ∗

/-- The write-back of the summed chunk into the device's own result. -/
theorem r_wp_copy_out (K : Dev nD × CIx → ℕ) (c : Dev nD) (j : Fin 16)
    {hsrc : (sxC j).view.WordExact} {hdst : (outMe c j).view.WordExact}
    {hsem : DmaTarget.Typed (nD := nD) (p := (Proc.tc : Proc τ)) .vmem (.dma (rsS j)) (.here (outMe c j))}
    {α : Type} {Q : α → sProp 𝕄} {k : PUnit → Prog (TpuEff nD τ sig (Elt F) Λ₀ .tc) α}
    (fd : Buf (Elt F) ((outMe c j).view.loc (c : Thread nD τ))) :
    iprop(records m K
        ∗ piece c (sxC j) fullShare.right (SX2 m c) ∗ piece c (outMe c j) fullShare fd
        ∗ dutyTok ER (rsCell c j) 0 false)
      ⊢ iprop((cred (tallyAt (rsCell c j) () (NH c)) -∗ WPc c (k ⟨⟩) Q)
          -∗ WPc c
              (.op (.enqueueDma (sxC j) (.here (outMe c j)) (.dma (rsS j)) hsrc hdst hsem) k) Q) := by
  refine BIBase.Entails.trans ?_ (Rounds.wp_copy_pointsTo Variants.none ER (Rd m) (c : Thread nD τ) none (κ := K (c, some (rsS j))) (r := 0) (d := false) (q := fullShare.right) (fs := SX2 m c) (fd := fd)
    (by rw [duties_dma]; exact Finset.mem_singleton_self _) () (NH c) (amt_outMe c j (rsS j)) (amount_rs m c j false)
    (by rw [payload_rs]; exact copy_out_pay m c j fd))
  iintro ⟨#Hrec, H⟩
  ihave #Hi := (r_inv_dma m K c (rsS j)) $$ Hrec
  ihave #Hr := (r_reached_dma m K c (rsS j)) $$ Hrec
  iframe # ∗

theorem r_wp_wait_rx (K : Dev nD × CIx → ℕ) (c : Dev nD) (j : Fin 16)
    {hsrc : (sxC j).view.WordExact} {hdst : (rxC j).view.WordExact}
    {α : Type} {Q : α → sProp 𝕄} {k : PUnit → Prog (TpuEff nD τ sig (Elt F) Λ₀ .tc) α} (W : Waits sig Unit) (kk : ℕ) (hk : kk ≤ 16) :
    iprop(records m K ∗ cred (tallyAt (rxCell c j) () NV) ∗ owes c (owedUpTo c kk) W
        ∗ levAts L lv ∗ atPos ER (rxCell c j) 0 ∅ 0)
      ⊢ iprop(((owes c (owedUpTo c kk) (insert (SemLoc.dma (rxS j), ()) W) ∗ atPos ER (rxCell c j) 1 ∅ 0 ∗ reached ER (rxCell c j) 1
              ∗ piece c (rxC j) fullShare (RX m c))
            -∗ WPc c (k ⟨⟩) Q)
          -∗ WPc c (.op (.waitDma2 (rxS j) (sxC j) (rxC j) hsrc hdst) k) Q) :=
  r_wp_wait_cell m K c (rxS j) NV (rxC j).view.dmaCredit (rxPay m c j) (amt_rxC j (rxS j))
    (amount_rx m c j false) (payload_rx m c j false) (mayWait_rx c j kk hk) (.waitDma2 (rxS j) (sxC j) (rxC j) hsrc hdst)
    (fun Kw => wpE_waitDma2_eq Variants.none (c : Thread nD τ) none Set.univ Kw) W

theorem r_wp_wait_sx (K : Dev nD × CIx → ℕ) (c : Dev nD) (j : Fin 16)
    {hsrc : (rxC j).view.WordExact} {hdst : (sxC j).view.WordExact}
    {α : Type} {Q : α → sProp 𝕄} {k : PUnit → Prog (TpuEff nD τ sig (Elt F) Λ₀ .tc) α} (W : Waits sig Unit) (kk : ℕ) :
    iprop(records m K ∗ cred (tallyAt (sxCell c j) () NV) ∗ owes c (owedUpTo c kk) W
        ∗ levAts L lv ∗ atPos ER (sxCell c j) 0 ∅ 0)
      ⊢ iprop(((owes c (owedUpTo c kk) (insert (SemLoc.dma (sxS j), ()) W) ∗ atPos ER (sxCell c j) 1 ∅ 0 ∗ reached ER (sxCell c j) 1
              ∗ piece c (sxC j) fullShare (SX1 m c))
            -∗ WPc c (k ⟨⟩) Q)
          -∗ WPc c (.op (.waitDma2 (sxS j) (rxC j) (sxC j) hsrc hdst) k) Q) :=
  r_wp_wait_cell m K c (sxS j) NV (sxC j).view.dmaCredit (sxPay m c j) (amt_sxC j (sxS j))
    (amount_sx m c j false) (payload_sx m c j false) (mayWait_low c (sxS j) (lvC_sx c j) kk) (.waitDma2 (sxS j) (rxC j) (sxC j) hsrc hdst)
    (fun Kw => wpE_waitDma2_eq Variants.none (c : Thread nD τ) none Set.univ Kw) W

theorem r_wp_wait_ry (K : Dev nD × CIx → ℕ) (c : Dev nD) (j : Fin 16)
    {hsrc : (outOt c j).view.WordExact} {hdst : (outOt c j).view.WordExact}
    {α : Type} {Q : α → sProp 𝕄} {k : PUnit → Prog (TpuEff nD τ sig (Elt F) Λ₀ .tc) α} (W : Waits sig Unit) :
    iprop(records m K ∗ cred (tallyAt (ryCell c j) () (NH c)) ∗ owes c (owedUpTo c 0) W
        ∗ levAts L lv ∗ atPos ER (ryCell c j) 0 ∅ 0)
      ⊢ iprop(((owes c (owedUpTo c 0) (insert (SemLoc.dma (ryS j), ()) W) ∗ atPos ER (ryCell c j) 1 ∅ 0 ∗ reached ER (ryCell c j) 1
              ∗ piece c (outOt c j) fullShare (OUT m c))
            -∗ WPc c (k ⟨⟩) Q)
          -∗ WPc c (.op (.waitDma2 (ryS j) (outOt c j) (outOt c j) hsrc hdst) k) Q) :=
  r_wp_wait_cell m K c (ryS j) (NH c) (outOt c j).view.dmaCredit (ryPay m c j) (amt_outOt c j (ryS j))
    (amount_ry m c j false) (payload_ry m c j false) (mayWait_ry c j) (.waitDma2 (ryS j) (outOt c j) (outOt c j) hsrc hdst)
    (fun Kw => wpE_waitDma2_eq Variants.none (c : Thread nD τ) none Set.univ Kw) W

theorem r_wp_wait_rs (K : Dev nD × CIx → ℕ) (c : Dev nD) (j : Fin 16)
    {hsrc : (sxC j).view.WordExact} {hdst : (outMe c j).view.WordExact}
    {α : Type} {Q : α → sProp 𝕄} {k : PUnit → Prog (TpuEff nD τ sig (Elt F) Λ₀ .tc) α} (W : Waits sig Unit) (kk : ℕ) :
    iprop(records m K ∗ cred (tallyAt (rsCell c j) () (NH c)) ∗ owes c (owedUpTo c kk) W
        ∗ levAts L lv ∗ atPos ER (rsCell c j) 0 ∅ 0)
      ⊢ iprop(((owes c (owedUpTo c kk) (insert (SemLoc.dma (rsS j), ()) W) ∗ atPos ER (rsCell c j) 1 ∅ 0 ∗ reached ER (rsCell c j) 1
              ∗ (piece c (outMe c j) fullShare (OUT m c) ∗ piece c (sxC j) fullShare.right (SX2 m c)))
            -∗ WPc c (k ⟨⟩) Q)
          -∗ WPc c (.op (.waitDma2 (rsS j) (sxC j) (outMe c j) hsrc hdst) k) Q) :=
  r_wp_wait_cell m K c (rsS j) (NH c) (outMe c j).view.dmaCredit (rsPay m c j) (amt_outMe c j (rsS j))
    (amount_rs m c j false) (payload_rs m c j false) (mayWait_low c (rsS j) (lvC_rs c j) kk) (.waitDma2 (rsS j) (sxC j) (outMe c j) hsrc hdst)
    (fun Kw => wpE_waitDma2_eq Variants.none (c : Thread nD τ) none Set.univ Kw) W

theorem r_wp_wait_sy (K : Dev nD × CIx → ℕ) (c : Dev nD) (j : Fin 16)
    {hsrc : (outMe c j).view.WordExact} {hdst : (sxC j).view.WordExact}
    {α : Type} {Q : α → sProp 𝕄} {k : PUnit → Prog (TpuEff nD τ sig (Elt F) Λ₀ .tc) α} (W : Waits sig Unit) (kk : ℕ) :
    iprop(records m K ∗ cred (tallyAt (syCell c j) () (NH c)) ∗ owes c (owedUpTo c kk) W
        ∗ levAts L lv ∗ atPos ER (syCell c j) 0 ∅ 0)
      ⊢ iprop(((owes c (owedUpTo c kk) (insert (SemLoc.dma (syS j), ()) W) ∗ atPos ER (syCell c j) 1 ∅ 0 ∗ reached ER (syCell c j) 1
              ∗ piece c (sxC j) fullShare.left (SX2 m c))
            -∗ WPc c (k ⟨⟩) Q)
          -∗ WPc c (.op (.waitDma2 (syS j) (outMe c j) (sxC j) hsrc hdst) k) Q) :=
  r_wp_wait_cell m K c (syS j) (NH c) (sxC j).view.dmaCredit (syPay m c j) ((amt_sxC j (syS j)).trans (NH_eq_NV c).symm)
    (amount_sy m c j false) (payload_sy m c j false) (mayWait_low c (syS j) (lvC_sy c j) kk) (.waitDma2 (syS j) (outMe c j) (sxC j) hsrc hdst)
    (fun Kw => wpE_waitDma2_eq Variants.none (c : Thread nD τ) none Set.univ Kw) W

end Cert.KernelProof

end
-- ==== Proof.SoundKernel.lean ====
import proofs.«900136_g7700000000000137_dist_ar_v7x_xy2x2_x_m8192_n1024_bf16_1_alg».proof.Proof.Gen.Kernel
import proofs.«900136_g7700000000000137_dist_ar_v7x_xy2x2_x_m8192_n1024_bf16_1_alg».proof.Proof.Gen.Kernel.Skeleton
import proofs.«900136_g7700000000000137_dist_ar_v7x_xy2x2_x_m8192_n1024_bf16_1_alg».proof.Proof.Gen.Kernel.Launch
import proofs.«900136_g7700000000000137_dist_ar_v7x_xy2x2_x_m8192_n1024_bf16_1_alg».proof.Proof.Gen.Kernel.Points
import proofs.«900136_g7700000000000137_dist_ar_v7x_xy2x2_x_m8192_n1024_bf16_1_alg».proof.Proof.Gen.Kernel.Frame
import proofs.«900136_g7700000000000137_dist_ar_v7x_xy2x2_x_m8192_n1024_bf16_1_alg».proof.Proof.BodyDefsKernel
import proofs.«900136_g7700000000000137_dist_ar_v7x_xy2x2_x_m8192_n1024_bf16_1_alg».proof.Proof.StepsRKernel

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem wp_dev (c : Dev nD) {α : Type} {Q : α → sProp 𝕄} {k : Dev nD → Prog (TpuEff nD τ sig (Elt F) Λ₀ .tc) α} :
    (WPc c (k c) Q) ⊢ WPc c (.op .deviceId k) Q := by
  unfold WPc; rw [wp_deviceId]

theorem wp_end (c : Dev nD) (Kt : PUnit → sProp 𝕄) :
    Kt ⟨⟩ ⊢ WPc c ((Prog.ret PUnit.unit : Prog (TpuEff nD τ sig (Elt F) Λ₀ .tc) PUnit).bind fun _ => Pure.pure PUnit.unit) Kt := by
  show Kt ⟨⟩ ⊢ WPc c (Prog.ret PUnit.unit) Kt
  unfold WPc
  rw [wp_ret]
  iintro H
  imodintro
  iexact H

/-- Chunk `j` of the first exchange, its four steps chained; by `narrow_val` the chunk sent holds `SX1`. -/
theorem wp_narrow (K : Dev nD × CIx → ℕ) (c : Dev nD) (j : Fin 16) (b : Fin 4) (hb : nrBlk j = b) {v : ℕ} {hv : v < nD} (hn : v = (xn c).val)
    {h1 : stB.view.LoadsAt (nrR j).toLoadRect} {h2 : sxB.view.LoadsAt (chunkR j).toLoadRect}
    {hst : (sxB.access (chunkR j)).Stores Finset.univ}
    {hm : (Finset.univ : Finset (chunkR j).shape.Idx) = Finset.univ ∨ ∀ a, (chunkR j).stride a = 1}
    {hsc : (rxC j : Memref sig (Dev.tc ⟨v, hv⟩ : Thread nD τ).2.kind .vmem S256x1024 .bf16).view.ref.isScScratch = false}
    {hsrc : (sxC j).view.WordExact} {hdst : (rxC j).view.WordExact}
    {hsem : DmaTarget.Typed .vmem (.dma (rxS j)) (.remote (Dev.tc ⟨v, hv⟩ : Thread nD τ) (rxC j) (.dma (sxS j)) hsc)}
    {α : Type} {Q : α → sProp 𝕄} {k : PUnit → Prog (TpuEff nD τ sig (Elt F) Λ₀ .tc) α}
    {f : Buf (Elt F) ((sxC j).view.loc (c : Thread nD τ))} {fd : Buf (Elt F) ((rxC j).view.loc (xn c : Thread nD τ))}
    {W : Waits sig Unit} (kk' kk : ℕ) (hk' : kk' = kk + 1) (hk : kk = 31 - j.val) :
    iprop(records m K ∗ piece c (slot (slotOf b)) fullShare (XST m c b) ∗ piece c (sxC j) fullShare f ∗ piece (xn c) (rxC j) fullShare fd
        ∗ owes c (owedUpTo c kk') W ∗ dutyTok ER (sxCell c j) 0 false ∗ dutyTok ER (rxCell (xn c) j) 0 false)
      ⊢ iprop(((piece c (slot (slotOf b)) fullShare (XST m c b) ∗ cred (tallyAt (sxCell c j) () NV) ∗ owes c (owedUpTo c kk) W)
            -∗ WPc c (k ⟨⟩) Q)
          -∗ WPc c (.op (.load stB (nrR j).toLoadRect h1) fun x => .op (.load sxB (chunkR j).toLoadRect h2) fun _ =>
              .op (.store sxB (chunkR j) (nrPay x) Finset.univ hst hm) fun _ =>
              .op (.enqueueDma (sxC j) (.remote (Dev.tc ⟨v, hv⟩ : Thread nD τ) (rxC j) (.dma (sxS j)) hsc) (.dma (rxS j)) hsrc hdst hsem) k) Q) := by
  subst hb
  iintro ⟨#Hrec, Hsl, Hsx, Hrx, HO, Ht1, Ht2⟩ Hk
  iapply (wp_narrow_load1 c j _) $$ Hsl
  iintro Hsl
  iapply (wp_narrow_load2 c j _) $$ Hsx
  iintro Hsx
  iapply (wp_narrow_store c j _ _) $$ Hsx
  iintro Hsx
  ihave Hsx := (Entails.of_eq (narrow_val m c j _)) $$ Hsx
  iapply (r_wp_send_x m K c j v hv hn fd W kk' kk hk' hk) $$ [Hsx Hrx HO Ht1 Ht2]
  · iframe # ∗
  iintro ⟨Hc, HO⟩
  iapply Hk
  iframe

/-- Chunk `j` of the second exchange, its eight steps chained; by `sum_val` the chunk sent on and written back holds `SX2`. -/
theorem wp_sum (K : Dev nD × CIx → ℕ) (c : Dev nD) (j : Fin 16) {v : ℕ} {hv : v < nD} (hn : v = (yn c).val)
    {a1 b2 s1 o1 : (sxC j).view.WordExact} {a2 b1 : (rxC j).view.WordExact} {s2 o2 : (outMe c j).view.WordExact}
    {l1 l3 : sxB.view.LoadsAt (chunkR j).toLoadRect} {l2 : rxB.view.LoadsAt (chunkR j).toLoadRect}
    {hx : (sxB.access (chunkR j)).Stores Finset.univ}
    {hm : (Finset.univ : Finset (chunkR j).shape.Idx) = Finset.univ ∨ ∀ a, (chunkR j).stride a = 1}
    {hsc : (outMe c j : Memref sig (Dev.tc ⟨v, hv⟩ : Thread nD τ).2.kind .hbm S256x1024 .bf16).view.ref.isScScratch = false}
    {hsem : DmaTarget.Typed .vmem (.dma (ryS j)) (.remote (Dev.tc ⟨v, hv⟩ : Thread nD τ) (outMe c j) (.dma (syS j)) hsc)}
    {osem : DmaTarget.Typed (nD := nD) (p := (Proc.tc : Proc τ)) .vmem (.dma (rsS j)) (.here (outMe c j))}
    {α : Type} {Q : α → sProp 𝕄} {k : PUnit → Prog (TpuEff nD τ sig (Elt F) Λ₀ .tc) α}
    {fy : Buf (Elt F) ((outMe c j).view.loc (yn c : Thread nD τ))} {fo : Buf (Elt F) ((outMe c j).view.loc (c : Thread nD τ))}
    {W : Waits sig Unit} (kk' kk : ℕ) (hk' : kk' = kk + 1) (hk : kk = 15 - j.val) :
    iprop(records m K ∗ levAts L lv ∗ cred (tallyAt (rxCell c j) () NV) ∗ cred (tallyAt (sxCell c j) () NV)
        ∗ owes c (owedUpTo c kk') W ∗ atPos ER (rxCell c j) 0 ∅ 0 ∗ atPos ER (sxCell c j) 0 ∅ 0
        ∗ piece (yn c) (outMe c j) fullShare fy ∗ piece c (outMe c j) fullShare fo
        ∗ dutyTok ER (syCell c j) 0 false ∗ dutyTok ER (ryCell (yn c) j) 0 false ∗ dutyTok ER (rsCell c j) 0 false)
      ⊢ iprop(((owes c (owedUpTo c kk) (insert (SemLoc.dma (sxS j), ()) (insert (SemLoc.dma (rxS j), ()) W))
              ∗ atPos ER (rxCell c j) 1 ∅ 0 ∗ atPos ER (sxCell c j) 1 ∅ 0 ∗ piece c (rxC j) fullShare (RX m c)
              ∗ cred (tallyAt (syCell c j) () (NH c)) ∗ cred (tallyAt (rsCell c j) () (NH c))) -∗ WPc c (k ⟨⟩) Q)
          -∗ WPc c (.op (.waitDma2 (rxS j) (sxC j) (rxC j) a1 a2) fun _ => .op (.waitDma2 (sxS j) (rxC j) (sxC j) b1 b2) fun _ =>
              .op (.load sxB (chunkR j).toLoadRect l1) fun (v1 : Vec F S256x1024 .bf16) =>
              .op (.load rxB (chunkR j).toLoadRect l2) fun (v2 : Vec F S256x1024 .bf16) =>
              .op (.load sxB (chunkR j).toLoadRect l3) fun _ =>
              .op (.store sxB (chunkR j) (shapeCast S256x1024 (addf v1 v2) shapeCasts_S256x1024_S256x1024) Finset.univ hx hm) fun _ =>
              .op (.enqueueDma (sxC j) (.remote (Dev.tc ⟨v, hv⟩ : Thread nD τ) (outMe c j) (.dma (syS j)) hsc) (.dma (ryS j)) s1 s2 hsem) fun _ =>
              .op (.enqueueDma (sxC j) (.here (outMe c j)) (.dma (rsS j)) o1 o2 osem) k) Q) := by
  iintro ⟨#Hrec, #Hlev, HcX, HcS, HO, HaX, HaS, Hy, Ho, HtY, HtZ, HtR⟩ Hk
  iapply (r_wp_wait_rx m K c j _ kk' (by omega)) $$ [HcX HO HaX]
  · iframe # ∗
  iintro ⟨HO, HaX, -, Hrx⟩
  iapply (r_wp_wait_sx m K c j _ _) $$ [HcS HO HaS]
  · iframe # ∗
  iintro ⟨HO, HaS, -, Hsx⟩
  iapply (wp_sum_load_sx c j fullShare _) $$ Hsx
  iintro Hsx
  iapply (wp_sum_load_rx c j fullShare _) $$ Hrx
  iintro Hrx
  iapply (wp_sum_load_sx c j fullShare _) $$ Hsx
  iintro Hsx
  iapply (wp_sum_store c j _) $$ Hsx
  iintro Hsx
  ihave Hsx := (Entails.of_eq (sum_val m c j)) $$ Hsx
  ihave Hsx := (split_half c j _) $$ Hsx
  icases Hsx with ⟨HsxL, HsxR⟩
  iapply (r_wp_send_y m K c j v hv hn fy _ kk' kk hk' hk) $$ [HsxL Hy HO HtY HtZ]
  · iframe # ∗
  iintro ⟨HcY, HO⟩
  iapply (r_wp_copy_out m K c j fo) $$ [HsxR Ho HtR]
  · iframe # ∗
  iintro HcR
  iapply Hk
  iframe

/-- The two closing waits of chunk `j` chained; the halves they give back join to the whole chunk. -/
theorem wp_done (K : Dev nD × CIx → ℕ) (c : Dev nD) (j : Fin 16)
    {h1 h4 : (sxC j).view.WordExact} {h2 h3 : (outMe c j).view.WordExact}
    {α : Type} {Q : α → sProp 𝕄} {k : PUnit → Prog (TpuEff nD τ sig (Elt F) Λ₀ .tc) α} {W : Waits sig Unit} {kk : ℕ} :
    iprop(records m K ∗ levAts L lv ∗ cred (tallyAt (rsCell c j) () (NH c)) ∗ cred (tallyAt (syCell c j) () (NH c))
        ∗ owes c (owedUpTo c kk) W ∗ atPos ER (rsCell c j) 0 ∅ 0 ∗ atPos ER (syCell c j) 0 ∅ 0)
      ⊢ iprop(((owes c (owedUpTo c kk) (insert (SemLoc.dma (syS j), ()) (insert (SemLoc.dma (rsS j), ()) W))
              ∗ atPos ER (rsCell c j) 1 ∅ 0 ∗ atPos ER (syCell c j) 1 ∅ 0
              ∗ piece c (outMe c j) fullShare (OUT m c) ∗ piece c (sxC j) fullShare (SX2 m c)) -∗ WPc c (k ⟨⟩) Q)
          -∗ WPc c (.op (.waitDma2 (rsS j) (sxC j) (outMe c j) h1 h2) fun _ => .op (.waitDma2 (syS j) (outMe c j) (sxC j) h3 h4) k) Q) := by
  iintro ⟨#Hrec, #Hlev, HcR, HcY, HO, HaR, HaY⟩ Hk
  iapply (r_wp_wait_rs m K c j _ _) $$ [HcR HO HaR]
  · iframe # ∗
  iintro ⟨HO, HaR, -, Hou, HsxR⟩
  iapply (r_wp_wait_sy m K c j _ _) $$ [HcY HO HaY]
  · iframe # ∗
  iintro ⟨HO, HaY, -, HsxL⟩
  ihave Hsx := (join_half c j _) $$ [HsxL HsxR]
  · iframe
  iapply Hk
  iframe

set_option maxHeartbeats 16000000 in
theorem sound_body (K : Dev nD × CIx → ℕ) (c : Dev nD) (W : Waits sig Unit)
    (f0 : Buf (Elt F) ((c : Thread nD τ).loc cc0_scratch0)) (f1 : Buf (Elt F) ((c : Thread nD τ).loc cc0_scratch1))
    (fv : Buf (Elt F) ((c : Thread nD τ).loc main_v1)) (Kt : PUnit → sProp 𝕄) :
    iprop(records m K ∗ levAts L lv ∗ bodyPre m c W f0 f1 fv ∗ (bodyPost m c -∗ Kt ⟨⟩))
      ⊢ WPc c (bodyAt0 (F := F) t0_0) Kt := by
  unfold bodyPre posAt payToks startCreds
  simp only [bigSep_fin16, bigSep_fin4, bigSep_fin3]
  iintro ⟨#Hrec, #Hlev, ⟨HO, ⟨HaB, ⟨HaC0, HaC1, HaC2, HaC3⟩, ⟨HaR0, HaR1, HaR2, HaR3, HaR4, HaR5, HaR6, HaR7, HaR8, HaR9, HaR10, HaR11, HaR12, HaR13, HaR14, HaR15⟩, ⟨HaS0, HaS1, HaS2, HaS3, HaS4, HaS5, HaS6, HaS7, HaS8, HaS9, HaS10, HaS11, HaS12, HaS13, HaS14, HaS15⟩, ⟨HaX0, HaX1, HaX2, HaX3, HaX4, HaX5, HaX6, HaX7, HaX8, HaX9, HaX10, HaX11, HaX12, HaX13, HaX14, HaX15⟩, ⟨HaY0, HaY1, HaY2, HaY3, HaY4, HaY5, HaY6, HaY7, HaY8, HaY9, HaY10, HaY11, HaY12, HaY13, HaY14, HaY15⟩, ⟨HaZ0, HaZ1, HaZ2, HaZ3, HaZ4, HaZ5, HaZ6, HaZ7, HaZ8, HaZ9, HaZ10, HaZ11, HaZ12, HaZ13, HaZ14, HaZ15⟩⟩, ⟨HtBx, HtBy, ⟨HtC0, HtC1, HtC2, HtC3⟩, ⟨HtR0, HtR1, HtR2, HtR3, HtR4, HtR5, HtR6, HtR7, HtR8, HtR9, HtR10, HtR11, HtR12, HtR13, HtR14, HtR15⟩, ⟨HtS0, HtS1, HtS2, HtS3, HtS4, HtS5, HtS6, HtS7, HtS8, HtS9, HtS10, HtS11, HtS12, HtS13, HtS14, HtS15⟩, ⟨HtX0, HtX1, HtX2, HtX3, HtX4, HtX5, HtX6, HtX7, HtX8, HtX9, HtX10, HtX11, HtX12, HtX13, HtX14, HtX15⟩, ⟨HtY0, HtY1, HtY2, HtY3, HtY4, HtY5, HtY6, HtY7, HtY8, HtY9, HtY10, HtY11, HtY12, HtY13, HtY14, HtY15⟩, ⟨HtZ0, HtZ1, HtZ2, HtZ3, HtZ4, HtZ5, HtZ6, HtZ7, HtZ8, HtZ9, HtZ10, HtZ11, HtZ12, HtZ13, HtZ14, HtZ15⟩⟩, ⟨HcB, ⟨HcX0, HcX1, HcX2, HcX3, HcX4, HcX5, HcX6, HcX7, HcX8, HcX9, HcX10, HcX11, HcX12, HcX13, HcX14, HcX15⟩, ⟨HcZ0, HcZ1, HcZ2, HcZ3, HcZ4, HcZ5, HcZ6, HcZ7, HcZ8, HcZ9, HcZ10, HcZ11, HcZ12, HcZ13, HcZ14, HcZ15⟩⟩, ⟨Hsl0, Hsl1, Hsl2⟩, ⟨Hsx0, Hsx1, Hsx2, Hsx3, Hsx4, Hsx5, Hsx6, Hsx7, Hsx8, Hsx9, Hsx10, Hsx11, Hsx12, Hsx13, Hsx14, Hsx15⟩, HrxG, ⟨Hin0, Hin1, Hin2, Hin3⟩, HinR, ⟨Hou0, Hou1, Hou2, Hou3, Hou4, Hou5, Hou6, Hou7, Hou8, Hou9, Hou10, Hou11, Hou12, Hou13, Hou14, Hou15⟩, HotG⟩, Hk⟩
  iapply (wp_dev (F := F) c)
  iapply (r_wp_stage m K c 0 _) $$ [Hin0 Hsl0 HtC0]
  · iframe # ∗
    iexact Hsl0
  iintro HcC0
  iapply (r_wp_stage m K c 1 _) $$ [Hin1 Hsl1 HtC1]
  · iframe # ∗
    iexact Hsl1
  iintro HcC1
  unfold rxGive otGive
  iapply (r_wp_sig_x m K c _ _ (k0_dev1_eq c) _) $$ [HO HtBx HrxG]
  · iframe # ∗
  iintro HO
  iapply (r_wp_sig_y m K c _ _ (k0_dev2_eq c) _) $$ [HO HtBy HotG]
  · iframe # ∗
  iintro HO
  iapply (r_wp_wait_bar m K c _) $$ [HcB HO HaB]
  · iframe # ∗
  iintro ⟨HO, HaB, -, HpX, HpY⟩
  unfold barPayX barPayY
  simp only [bigSep_fin16]
  icases HpX with ⟨⟨%gX0, HX0⟩, ⟨%gX1, HX1⟩, ⟨%gX2, HX2⟩, ⟨%gX3, HX3⟩, ⟨%gX4, HX4⟩, ⟨%gX5, HX5⟩, ⟨%gX6, HX6⟩, ⟨%gX7, HX7⟩, ⟨%gX8, HX8⟩, ⟨%gX9, HX9⟩, ⟨%gX10, HX10⟩, ⟨%gX11, HX11⟩, ⟨%gX12, HX12⟩, ⟨%gX13, HX13⟩, ⟨%gX14, HX14⟩, ⟨%gX15, HX15⟩⟩
  icases HpY with ⟨⟨%gY0, HY0⟩, ⟨%gY1, HY1⟩, ⟨%gY2, HY2⟩, ⟨%gY3, HY3⟩, ⟨%gY4, HY4⟩, ⟨%gY5, HY5⟩, ⟨%gY6, HY6⟩, ⟨%gY7, HY7⟩, ⟨%gY8, HY8⟩, ⟨%gY9, HY9⟩, ⟨%gY10, HY10⟩, ⟨%gY11, HY11⟩, ⟨%gY12, HY12⟩, ⟨%gY13, HY13⟩, ⟨%gY14, HY14⟩, ⟨%gY15, HY15⟩⟩
  iapply (r_wp_wait_cs m K c 0 _ _) $$ [HcC0 HO HaC0]
  · iframe # ∗
  iintro ⟨HO, HaC0, -, HslB0, Hin0⟩
  iapply (r_wp_stage m K c 2 _) $$ [Hin2 Hsl2 HtC2]
  · iframe # ∗
    iexact Hsl2
  iintro HcC2
  iapply (wp_narrow m K c 0 0 rfl (k0_dev3_eq c) 32 31 rfl rfl) $$ [HslB0 Hsx0 HX0 HO HtS0 HtX0]
  · iframe # ∗
  iintro ⟨HslB0, HcS0, HO⟩
  iapply (wp_narrow m K c 1 0 rfl (k0_dev4_eq c) 31 30 rfl rfl) $$ [HslB0 Hsx1 HX1 HO HtS1 HtX1]
  · iframe # ∗
  iintro ⟨HslB0, HcS1, HO⟩
  iapply (wp_narrow m K c 2 0 rfl (k0_dev5_eq c) 30 29 rfl rfl) $$ [HslB0 Hsx2 HX2 HO HtS2 HtX2]
  · iframe # ∗
  iintro ⟨HslB0, HcS2, HO⟩
  iapply (wp_narrow m K c 3 0 rfl (k0_dev6_eq c) 29 28 rfl rfl) $$ [HslB0 Hsx3 HX3 HO HtS3 HtX3]
  · iframe # ∗
  iintro ⟨HslB0, HcS3, HO⟩
  iapply (r_wp_wait_cs m K c 1 _ _) $$ [HcC1 HO HaC1]
  · iframe # ∗
  iintro ⟨HO, HaC1, -, HslB1, Hin1⟩
  iapply (r_wp_stage m K c 3 _) $$ [Hin3 HslB0 HtC3]
  · iframe # ∗
    iexact HslB0
  iintro HcC3
  iapply (wp_narrow m K c 4 1 rfl (k0_dev7_eq c) 28 27 rfl rfl) $$ [HslB1 Hsx4 HX4 HO HtS4 HtX4]
  · iframe # ∗
  iintro ⟨HslB1, HcS4, HO⟩
  iapply (wp_narrow m K c 5 1 rfl (k0_dev8_eq c) 27 26 rfl rfl) $$ [HslB1 Hsx5 HX5 HO HtS5 HtX5]
  · iframe # ∗
  iintro ⟨HslB1, HcS5, HO⟩
  iapply (wp_narrow m K c 6 1 rfl (k0_dev9_eq c) 26 25 rfl rfl) $$ [HslB1 Hsx6 HX6 HO HtS6 HtX6]
  · iframe # ∗
  iintro ⟨HslB1, HcS6, HO⟩
  iapply (wp_narrow m K c 7 1 rfl (k0_dev10_eq c) 25 24 rfl rfl) $$ [HslB1 Hsx7 HX7 HO HtS7 HtX7]
  · iframe # ∗
  iintro ⟨HslB1, HcS7, HO⟩
  iapply (r_wp_wait_cs m K c 2 _ _) $$ [HcC2 HO HaC2]
  · iframe # ∗
  iintro ⟨HO, HaC2, -, HslB2, Hin2⟩
  iapply (wp_narrow m K c 8 2 rfl (k0_dev11_eq c) 24 23 rfl rfl) $$ [HslB2 Hsx8 HX8 HO HtS8 HtX8]
  · iframe # ∗
  iintro ⟨HslB2, HcS8, HO⟩
  iapply (wp_narrow m K c 9 2 rfl (k0_dev12_eq c) 23 22 rfl rfl) $$ [HslB2 Hsx9 HX9 HO HtS9 HtX9]
  · iframe # ∗
  iintro ⟨HslB2, HcS9, HO⟩
  iapply (wp_narrow m K c 10 2 rfl (k0_dev13_eq c) 22 21 rfl rfl) $$ [HslB2 Hsx10 HX10 HO HtS10 HtX10]
  · iframe # ∗
  iintro ⟨HslB2, HcS10, HO⟩
  iapply (wp_narrow m K c 11 2 rfl (k0_dev14_eq c) 21 20 rfl rfl) $$ [HslB2 Hsx11 HX11 HO HtS11 HtX11]
  · iframe # ∗
  iintro ⟨HslB2, HcS11, HO⟩
  iapply (r_wp_wait_cs m K c 3 _ _) $$ [HcC3 HO HaC3]
  · iframe # ∗
  iintro ⟨HO, HaC3, -, HslB3, Hin3⟩
  iapply (wp_narrow m K c 12 3 rfl (k0_dev15_eq c) 20 19 rfl rfl) $$ [HslB3 Hsx12 HX12 HO HtS12 HtX12]
  · iframe # ∗
  iintro ⟨HslB3, HcS12, HO⟩
  iapply (wp_narrow m K c 13 3 rfl (k0_dev16_eq c) 19 18 rfl rfl) $$ [HslB3 Hsx13 HX13 HO HtS13 HtX13]
  · iframe # ∗
  iintro ⟨HslB3, HcS13, HO⟩
  iapply (wp_narrow m K c 14 3 rfl (k0_dev17_eq c) 18 17 rfl rfl) $$ [HslB3 Hsx14 HX14 HO HtS14 HtX14]
  · iframe # ∗
  iintro ⟨HslB3, HcS14, HO⟩
  iapply (wp_narrow m K c 15 3 rfl (k0_dev18_eq c) 17 16 rfl rfl) $$ [HslB3 Hsx15 HX15 HO HtS15 HtX15]
  · iframe # ∗
  iintro ⟨HslB3, HcS15, HO⟩
  iapply (wp_sum m K c 0 (k0_dev19_eq c) 16 15 rfl rfl) $$ [HcX0 HcS0 HO HaX0 HaS0 HY0 Hou0 HtY0 HtZ0 HtR0]
  · iframe # ∗
  iintro ⟨HO, HaX0, HaS0, Hrx0, HcY0, HcR0⟩
  iapply (wp_sum m K c 1 (k0_dev20_eq c) 15 14 rfl rfl) $$ [HcX1 HcS1 HO HaX1 HaS1 HY1 Hou1 HtY1 HtZ1 HtR1]
  · iframe # ∗
  iintro ⟨HO, HaX1, HaS1, Hrx1, HcY1, HcR1⟩
  iapply (wp_sum m K c 2 (k0_dev21_eq c) 14 13 rfl rfl) $$ [HcX2 HcS2 HO HaX2 HaS2 HY2 Hou2 HtY2 HtZ2 HtR2]
  · iframe # ∗
  iintro ⟨HO, HaX2, HaS2, Hrx2, HcY2, HcR2⟩
  iapply (wp_sum m K c 3 (k0_dev22_eq c) 13 12 rfl rfl) $$ [HcX3 HcS3 HO HaX3 HaS3 HY3 Hou3 HtY3 HtZ3 HtR3]
  · iframe # ∗
  iintro ⟨HO, HaX3, HaS3, Hrx3, HcY3, HcR3⟩
  iapply (wp_sum m K c 4 (k0_dev23_eq c) 12 11 rfl rfl) $$ [HcX4 HcS4 HO HaX4 HaS4 HY4 Hou4 HtY4 HtZ4 HtR4]
  · iframe # ∗
  iintro ⟨HO, HaX4, HaS4, Hrx4, HcY4, HcR4⟩
  iapply (wp_sum m K c 5 (k0_dev24_eq c) 11 10 rfl rfl) $$ [HcX5 HcS5 HO HaX5 HaS5 HY5 Hou5 HtY5 HtZ5 HtR5]
  · iframe # ∗
  iintro ⟨HO, HaX5, HaS5, Hrx5, HcY5, HcR5⟩
  iapply (wp_sum m K c 6 (k0_dev25_eq c) 10 9 rfl rfl) $$ [HcX6 HcS6 HO HaX6 HaS6 HY6 Hou6 HtY6 HtZ6 HtR6]
  · iframe # ∗
  iintro ⟨HO, HaX6, HaS6, Hrx6, HcY6, HcR6⟩
  iapply (wp_sum m K c 7 (k0_dev26_eq c) 9 8 rfl rfl) $$ [HcX7 HcS7 HO HaX7 HaS7 HY7 Hou7 HtY7 HtZ7 HtR7]
  · iframe # ∗
  iintro ⟨HO, HaX7, HaS7, Hrx7, HcY7, HcR7⟩
  iapply (wp_sum m K c 8 (k0_dev27_eq c) 8 7 rfl rfl) $$ [HcX8 HcS8 HO HaX8 HaS8 HY8 Hou8 HtY8 HtZ8 HtR8]
  · iframe # ∗
  iintro ⟨HO, HaX8, HaS8, Hrx8, HcY8, HcR8⟩
  iapply (wp_sum m K c 9 (k0_dev28_eq c) 7 6 rfl rfl) $$ [HcX9 HcS9 HO HaX9 HaS9 HY9 Hou9 HtY9 HtZ9 HtR9]
  · iframe # ∗
  iintro ⟨HO, HaX9, HaS9, Hrx9, HcY9, HcR9⟩
  iapply (wp_sum m K c 10 (k0_dev29_eq c) 6 5 rfl rfl) $$ [HcX10 HcS10 HO HaX10 HaS10 HY10 Hou10 HtY10 HtZ10 HtR10]
  · iframe # ∗
  iintro ⟨HO, HaX10, HaS10, Hrx10, HcY10, HcR10⟩
  iapply (wp_sum m K c 11 (k0_dev30_eq c) 5 4 rfl rfl) $$ [HcX11 HcS11 HO HaX11 HaS11 HY11 Hou11 HtY11 HtZ11 HtR11]
  · iframe # ∗
  iintro ⟨HO, HaX11, HaS11, Hrx11, HcY11, HcR11⟩
  iapply (wp_sum m K c 12 (k0_dev31_eq c) 4 3 rfl rfl) $$ [HcX12 HcS12 HO HaX12 HaS12 HY12 Hou12 HtY12 HtZ12 HtR12]
  · iframe # ∗
  iintro ⟨HO, HaX12, HaS12, Hrx12, HcY12, HcR12⟩
  iapply (wp_sum m K c 13 (k0_dev32_eq c) 3 2 rfl rfl) $$ [HcX13 HcS13 HO HaX13 HaS13 HY13 Hou13 HtY13 HtZ13 HtR13]
  · iframe # ∗
  iintro ⟨HO, HaX13, HaS13, Hrx13, HcY13, HcR13⟩
  iapply (wp_sum m K c 14 (k0_dev33_eq c) 2 1 rfl rfl) $$ [HcX14 HcS14 HO HaX14 HaS14 HY14 Hou14 HtY14 HtZ14 HtR14]
  · iframe # ∗
  iintro ⟨HO, HaX14, HaS14, Hrx14, HcY14, HcR14⟩
  iapply (wp_sum m K c 15 (k0_dev34_eq c) 1 0 rfl rfl) $$ [HcX15 HcS15 HO HaX15 HaS15 HY15 Hou15 HtY15 HtZ15 HtR15]
  · iframe # ∗
  iintro ⟨HO, HaX15, HaS15, Hrx15, HcY15, HcR15⟩
  iapply (r_wp_wait_ry m K c 0 _) $$ [HcZ0 HO HaZ0]
  · iframe # ∗
  iintro ⟨HO, HaZ0, -, Hot0⟩
  iapply (r_wp_wait_ry m K c 1 _) $$ [HcZ1 HO HaZ1]
  · iframe # ∗
  iintro ⟨HO, HaZ1, -, Hot1⟩
  iapply (r_wp_wait_ry m K c 2 _) $$ [HcZ2 HO HaZ2]
  · iframe # ∗
  iintro ⟨HO, HaZ2, -, Hot2⟩
  iapply (r_wp_wait_ry m K c 3 _) $$ [HcZ3 HO HaZ3]
  · iframe # ∗
  iintro ⟨HO, HaZ3, -, Hot3⟩
  iapply (r_wp_wait_ry m K c 4 _) $$ [HcZ4 HO HaZ4]
  · iframe # ∗
  iintro ⟨HO, HaZ4, -, Hot4⟩
  iapply (r_wp_wait_ry m K c 5 _) $$ [HcZ5 HO HaZ5]
  · iframe # ∗
  iintro ⟨HO, HaZ5, -, Hot5⟩
  iapply (r_wp_wait_ry m K c 6 _) $$ [HcZ6 HO HaZ6]
  · iframe # ∗
  iintro ⟨HO, HaZ6, -, Hot6⟩
  iapply (r_wp_wait_ry m K c 7 _) $$ [HcZ7 HO HaZ7]
  · iframe # ∗
  iintro ⟨HO, HaZ7, -, Hot7⟩
  iapply (r_wp_wait_ry m K c 8 _) $$ [HcZ8 HO HaZ8]
  · iframe # ∗
  iintro ⟨HO, HaZ8, -, Hot8⟩
  iapply (r_wp_wait_ry m K c 9 _) $$ [HcZ9 HO HaZ9]
  · iframe # ∗
  iintro ⟨HO, HaZ9, -, Hot9⟩
  iapply (r_wp_wait_ry m K c 10 _) $$ [HcZ10 HO HaZ10]
  · iframe # ∗
  iintro ⟨HO, HaZ10, -, Hot10⟩
  iapply (r_wp_wait_ry m K c 11 _) $$ [HcZ11 HO HaZ11]
  · iframe # ∗
  iintro ⟨HO, HaZ11, -, Hot11⟩
  iapply (r_wp_wait_ry m K c 12 _) $$ [HcZ12 HO HaZ12]
  · iframe # ∗
  iintro ⟨HO, HaZ12, -, Hot12⟩
  iapply (r_wp_wait_ry m K c 13 _) $$ [HcZ13 HO HaZ13]
  · iframe # ∗
  iintro ⟨HO, HaZ13, -, Hot13⟩
  iapply (r_wp_wait_ry m K c 14 _) $$ [HcZ14 HO HaZ14]
  · iframe # ∗
  iintro ⟨HO, HaZ14, -, Hot14⟩
  iapply (r_wp_wait_ry m K c 15 _) $$ [HcZ15 HO HaZ15]
  · iframe # ∗
  iintro ⟨HO, HaZ15, -, Hot15⟩
  iapply (wp_done m K c 0) $$ [HcR0 HcY0 HO HaR0 HaY0]
  · iframe # ∗
  iintro ⟨HO, HaR0, HaY0, Hou0, Hsx0⟩
  iapply (wp_done m K c 1) $$ [HcR1 HcY1 HO HaR1 HaY1]
  · iframe # ∗
  iintro ⟨HO, HaR1, HaY1, Hou1, Hsx1⟩
  iapply (wp_done m K c 2) $$ [HcR2 HcY2 HO HaR2 HaY2]
  · iframe # ∗
  iintro ⟨HO, HaR2, HaY2, Hou2, Hsx2⟩
  iapply (wp_done m K c 3) $$ [HcR3 HcY3 HO HaR3 HaY3]
  · iframe # ∗
  iintro ⟨HO, HaR3, HaY3, Hou3, Hsx3⟩
  iapply (wp_done m K c 4) $$ [HcR4 HcY4 HO HaR4 HaY4]
  · iframe # ∗
  iintro ⟨HO, HaR4, HaY4, Hou4, Hsx4⟩
  iapply (wp_done m K c 5) $$ [HcR5 HcY5 HO HaR5 HaY5]
  · iframe # ∗
  iintro ⟨HO, HaR5, HaY5, Hou5, Hsx5⟩
  iapply (wp_done m K c 6) $$ [HcR6 HcY6 HO HaR6 HaY6]
  · iframe # ∗
  iintro ⟨HO, HaR6, HaY6, Hou6, Hsx6⟩
  iapply (wp_done m K c 7) $$ [HcR7 HcY7 HO HaR7 HaY7]
  · iframe # ∗
  iintro ⟨HO, HaR7, HaY7, Hou7, Hsx7⟩
  iapply (wp_done m K c 8) $$ [HcR8 HcY8 HO HaR8 HaY8]
  · iframe # ∗
  iintro ⟨HO, HaR8, HaY8, Hou8, Hsx8⟩
  iapply (wp_done m K c 9) $$ [HcR9 HcY9 HO HaR9 HaY9]
  · iframe # ∗
  iintro ⟨HO, HaR9, HaY9, Hou9, Hsx9⟩
  iapply (wp_done m K c 10) $$ [HcR10 HcY10 HO HaR10 HaY10]
  · iframe # ∗
  iintro ⟨HO, HaR10, HaY10, Hou10, Hsx10⟩
  iapply (wp_done m K c 11) $$ [HcR11 HcY11 HO HaR11 HaY11]
  · iframe # ∗
  iintro ⟨HO, HaR11, HaY11, Hou11, Hsx11⟩
  iapply (wp_done m K c 12) $$ [HcR12 HcY12 HO HaR12 HaY12]
  · iframe # ∗
  iintro ⟨HO, HaR12, HaY12, Hou12, Hsx12⟩
  iapply (wp_done m K c 13) $$ [HcR13 HcY13 HO HaR13 HaY13]
  · iframe # ∗
  iintro ⟨HO, HaR13, HaY13, Hou13, Hsx13⟩
  iapply (wp_done m K c 14) $$ [HcR14 HcY14 HO HaR14 HaY14]
  · iframe # ∗
  iintro ⟨HO, HaR14, HaY14, Hou14, Hsx14⟩
  iapply (wp_done m K c 15) $$ [HcR15 HcY15 HO HaR15 HaY15]
  · iframe # ∗
  iintro ⟨HO, HaR15, HaY15, Hou15, Hsx15⟩
  iapply (wp_end (F := F) c Kt)
  iapply Hk
  unfold bodyPost posAt
  simp only [bigSep_fin16, bigSep_fin4, bigSep_fin3]
  isplitl [HO]
  · iexists _; iexact HO
  isplitl [HaB HaC0 HaC1 HaC2 HaC3 HaR0 HaR1 HaR2 HaR3 HaR4 HaR5 HaR6 HaR7 HaR8 HaR9 HaR10 HaR11 HaR12 HaR13 HaR14 HaR15 HaS0 HaS1 HaS2 HaS3 HaS4 HaS5 HaS6 HaS7 HaS8 HaS9 HaS10 HaS11 HaS12 HaS13 HaS14 HaS15 HaX0 HaX1 HaX2 HaX3 HaX4 HaX5 HaX6 HaX7 HaX8 HaX9 HaX10 HaX11 HaX12 HaX13 HaX14 HaX15 HaY0 HaY1 HaY2 HaY3 HaY4 HaY5 HaY6 HaY7 HaY8 HaY9 HaY10 HaY11 HaY12 HaY13 HaY14 HaY15 HaZ0 HaZ1 HaZ2 HaZ3 HaZ4 HaZ5 HaZ6 HaZ7 HaZ8 HaZ9 HaZ10 HaZ11 HaZ12 HaZ13 HaZ14 HaZ15]
  · iframe
  isplitl [HslB3 HslB1 HslB2]
  · isplitl [HslB3]
    · iexists _; iexact HslB3
    isplitl [HslB1]
    · iexists _; iexact HslB1
    iexists _; iexact HslB2
  isplitl [Hsx0 Hsx1 Hsx2 Hsx3 Hsx4 Hsx5 Hsx6 Hsx7 Hsx8 Hsx9 Hsx10 Hsx11 Hsx12 Hsx13 Hsx14 Hsx15]
  · iframe
  isplitl [Hrx0 Hrx1 Hrx2 Hrx3 Hrx4 Hrx5 Hrx6 Hrx7 Hrx8 Hrx9 Hrx10 Hrx11 Hrx12 Hrx13 Hrx14 Hrx15]
  · iframe
  isplitl [Hin0 Hin1 Hin2 Hin3]
  · iframe
  isplitl [HinR]
  · iexact HinR
  isplitl [Hou0 Hou1 Hou2 Hou3 Hou4 Hou5 Hou6 Hou7 Hou8 Hou9 Hou10 Hou11 Hou12 Hou13 Hou14 Hou15]
  · iframe
  iframe

end Cert.KernelProof

end
-- ==== Proof.ObligKernel.lean ====
import proofs.«900136_g7700000000000137_dist_ar_v7x_xy2x2_x_m8192_n1024_bf16_1_alg».proof.Proof.SoundKernel
import proofs.«900136_g7700000000000137_dist_ar_v7x_xy2x2_x_m8192_n1024_bf16_1_alg».proof.Proof.RegroupKernel
import proofs.«900136_g7700000000000137_dist_ar_v7x_xy2x2_x_m8192_n1024_bf16_1_alg».proof.Proof.StepsAKernel

noncomputable section

namespace Cert.KernelProof

open Cert.Kernel Cert.Kernel.Gen

open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Every cell of a family is a round on with nothing taken, so each closes with its counter at zero. -/
theorem close_family {I : Type} [Fintype I] [DecidableEq I] (K : Dev nD × CIx → ℕ) (c : Dev nD) (g : I → CIx) :
    iprop(records m K ∗ bigSep Finset.univ fun i : I => atPos ER (kcell (c, g i)) 1 ∅ 0)
      ⊢ iprop(|={Set.univ}=> bigSep Finset.univ fun i : I => semVal (kcell (c, g i)) 0) := by
  refine (BI.bigSep_with_persistent (R := records m K) (Ψ := fun i : I => iprop(|={Set.univ}=> semVal (kcell (c, g i)) 0)) fun i _ => ?_).trans (bigSep_fupd _ _)
  iintro ⟨#HR, Hat⟩
  iapply (Rounds.cell_close ER (Rd m) (Set.mem_univ (K (c, g i))) (fun h => h) (R := 0 + 1) (duties_later m (kcell (c, g i))))
  isplitr
  · iapply (inv_at m K (c, g i)); iexact HR
  iexact Hat

theorem close_cells (K : Dev nD × CIx → ℕ) (c : Dev nD) :
    iprop(records m K ∗ posAt c 1)
      ⊢ iprop(|={Set.univ}=> bigSep Finset.univ fun n : DmaSem sig => semVal ((c : Thread nD τ), osem n) 0) := by
  unfold posAt
  rw [← bigSep_dma (fun n => atPos ER ((c : Thread nD τ), .dma n) 1 ∅ 0)]
  iintro ⟨#HR, -, H⟩
  iapply (close_family m K c some)
  iframe # ∗

omit [FloatOps F] in
theorem bigSep_noWin (Ψ : Fin cfg0.W → sProp 𝕄) : bigSep Finset.univ Ψ = (BI.emp : sProp 𝕄) := by
  rw [Finset.univ_eq_empty]; rfl

/-- Pieces at one contents are pieces at some contents. -/
theorem give {I A : Type} [Fintype I] (P : I → A → sProp 𝕄) (f : A) :
    (bigSep Finset.univ fun j => P j f) ⊢ bigSep Finset.univ fun j => iprop(∃ f, P j f) :=
  bigSep_mono fun j _ => (show P j f ⊢ iprop(∃ f, P j f) from by iintro H; iexists f; iexact H)

theorem post_join (c : Dev nD) :
    iprop((bigSep Finset.univ fun s : Fin 3 => iprop(∃ f, piece (F := F) c (slot s) fullShare f))
        ∗ (bigSep Finset.univ fun j : Fin 16 => piece c (sxC j) fullShare (SX2 m c))
        ∗ (bigSep Finset.univ fun j : Fin 16 => piece c (rxC j) fullShare (RX m c))
        ∗ (bigSep Finset.univ fun b : Fin 4 => piece c (inBlk c b) fullShare (A m c))
        ∗ (((c : Thread nD τ).loc main_arg0) ↦[inRestSet c]{fullShare} A m c)
        ∗ (bigSep Finset.univ fun j : Fin 16 => piece c (outMe c j) fullShare (OUT m c))
        ∗ (bigSep Finset.univ fun j : Fin 16 => piece c (outOt c j) fullShare (OUT m c)))
      ⊢ iprop((∃ f, wholeAt c cc0_scratch0 f) ∗ (∃ f, wholeAt c cc0_scratch1 f) ∗ (∃ f, wholeAt c cc0_scratch2 f)
          ∗ wholeAt c main_arg0 (m _) ∗ wholeAt c main_v1 (OUT m c)) := by
  iintro ⟨Hs, Hsx, Hrx, Hb, Hrest, Hme, Hot⟩
  ihave H0 := (st_join (F := F) c) $$ Hs
  ihave H1 := (Entails.of_eq (sx_cut c (SX2 m c)).symm) $$ Hsx
  ihave H2 := (Entails.of_eq (rx_cut c (RX m c)).symm) $$ Hrx
  ihave Hin := (Entails.of_eq (in_cut c (A m c)).symm) $$ [Hb Hrest]
  · iframe; iexact Hrest
  ihave Hout := (Entails.of_eq (out_cut c (OUT m c)).symm) $$ [Hme Hot]
  · iframe
  iframe
  isplitl [H1]; · iexists _; iexact H1
  isplitl [H2]; · iexists _; iexact H2
  iexact Hin

/-- Cut the buffers into the pieces the steps hold, step the body, join the pieces back and close the DMA cells. -/
theorem body_obligation (c : Dev nD) : BodyObligation (dats (F := F) m 0 c) (defs₀ (F := F)) 𝒱₀ () Set.univ := fun t => by
  rw [fin_N0 t, bigSep_noWin, bigSep_noWin]
  show iprop(Φ₀ m c ∗ (dats m 0 c).owesAt () t0_0.castSucc ∗ emp) ⊢ wp frame (wpE (defs₀ (F := F)) 𝒱₀ (c : Thread nD τ) none) Set.univ (bodyAt0 (F := F) t0_0)
    (fun _ => iprop(Φ₁ m c ∗ (dats m 0 c).owesAt () t0_0.succ ∗ emp))
  refine BIBase.Entails.trans ?_ (wp_fupd frame _ Set.univ _ _)
  unfold Φ₀ start ghost
  iintro ⟨⟨⟨⟨%K, #HR, Hpos, Htok⟩, Hcred, #Hlev⟩, ⟨%f0, H0⟩, ⟨%f1, H1⟩, ⟨%f2, H2⟩, Hin, Hout⟩, Ho, -⟩
  unfold Dat.owesAt Pipeline.owesWithin
  icases Ho with ⟨%W, %hW, HO⟩
  rw [show (dats m 0 c).owed t0_0.castSucc = owedUpTo c 34 from rfl]
  iapply (sound_body m K c W f0 f1 (m _) _)
  isplitr; · iexact HR
  isplitr; · iexact Hlev
  isplitr []
  · unfold bodyPre posAt rxGive otGive
    ihave Hpos := (Entails.of_eq (positions_eq (F := F) c)) $$ Hpos
    ihave H0 := (Entails.of_eq (st_cut c f0)) $$ H0
    ihave H1 := (Entails.of_eq (sx_cut c f1)) $$ H1
    ihave H2 := (Entails.of_eq (rx_cut c f2)) $$ H2
    ihave Hin := (Entails.of_eq (in_cut c (m _))) $$ Hin
    ihave Hout := (Entails.of_eq (out_cut c (m _))) $$ Hout
    icases Hin with ⟨Hb, Hrest⟩
    icases Hout with ⟨Hme, Hot⟩
    ihave H2 := (give (fun j f => piece (F := F) c (rxC j) fullShare f) f2) $$ H2
    ihave Hot := (give (fun j f => piece (F := F) c (outOt c j) fullShare f) (m ((c : Thread nD τ).loc main_v1))) $$ Hot
    iframe
    isplitl [Hb]; · iexact Hb
    iexact Hrest
  iintro Hpost
  unfold bodyPost
  icases Hpost with ⟨⟨%W', HO⟩, Hpos, Hrest⟩
  imod (close_cells m K c) $$ [Hpos] with Hz
  · iframe # ∗
  imodintro
  ihave Hbuf := (post_join m c) $$ Hrest
  icases Hbuf with ⟨B0, B1, B2, Bin, Bout⟩
  unfold Φ₁
  iframe
  isplitl; swap; · iempintro
  iexists W'
  isplitr; · ipureintro; exact fun _ _ => Or.inl trivial
  iexact HO

end Cert.KernelProof

end
-- ==== Proof.FrameKernel.lean ====
import proofs.«900136_g7700000000000137_dist_ar_v7x_xy2x2_x_m8192_n1024_bf16_1_alg».proof.Defs
import proofs.«900136_g7700000000000137_dist_ar_v7x_xy2x2_x_m8192_n1024_bf16_1_alg».proof.Proof.Gen.Pre_finite_inputs_Kernel
import proofs.«900136_g7700000000000137_dist_ar_v7x_xy2x2_x_m8192_n1024_bf16_1_alg».proof.Proof.LaunchKernel
import proofs.«900136_g7700000000000137_dist_ar_v7x_xy2x2_x_m8192_n1024_bf16_1_alg».proof.Proof.ObligKernel

noncomputable section

namespace Cert.KernelProof

open Cert.Kernel Cert.Kernel.Gen
open Idealize.ShloMosaic Idealize.ShloMosaic.TcCoe Idealize.SL.Sem

/-- The run's post with the result array dropped. -/
theorem frame : Cert.frame_Kernel (hKernel := Cert.Kernel.Gen.facts)
    (hPre_finite_inputs_Kernel := Cert.Pre_finite_inputs_Kernel.Gen.facts) :=
  fun m ρ _ => (θ_run Cert.Kernel.defs _ _).mono (fun _ h c => (h c).2) (run_main m ρ (body_obligation m))

end Cert.KernelProof

end
-- ==== Proof.MeshKernelIdeal.lean ====
import proofs.«900136_g7700000000000137_dist_ar_v7x_xy2x2_x_m8192_n1024_bf16_1_alg».proof.Proof.Gen.KernelIdeal
import proofs.«900136_g7700000000000137_dist_ar_v7x_xy2x2_x_m8192_n1024_bf16_1_alg».proof.Proof.Gen.KernelIdeal.Skeleton
import proofs.«900136_g7700000000000137_dist_ar_v7x_xy2x2_x_m8192_n1024_bf16_1_alg».proof.Proof.Gen.KernelIdeal.Launch
import proofs.«900136_g7700000000000137_dist_ar_v7x_xy2x2_x_m8192_n1024_bf16_1_alg».proof.Proof.Gen.KernelIdeal.Points
import proofs.«900136_g7700000000000137_dist_ar_v7x_xy2x2_x_m8192_n1024_bf16_1_alg».proof.Proof.Gen.KernelIdeal.Frame

import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdealProof

open Cert.KernelIdeal Cert.KernelIdeal.Gen

open Idealize.ShloMosaic
open Idealize.ShloMosaic.TcCoe

/-- Device `c = 2·cx + cy`: its partner along x flips `cx`, its partner along y flips `cy`. -/
def xn (c : Dev nD) : Dev nD := ⟨(c.val % 2 + 2) - 2 * (c.val / 2), by have := c.isLt; revert this; generalize c.val = v; decide +revert⟩
def yn (c : Dev nD) : Dev nD := ⟨(2 * (c.val / 2) + 1) - c.val % 2, by have := c.isLt; revert this; generalize c.val = v; decide +revert⟩

theorem xn_xn (c : Dev nD) : xn (xn c) = c := by revert c; decide
theorem yn_yn (c : Dev nD) : yn (yn c) = c := by revert c; decide
theorem xn_mod (c : Dev nD) : (xn c).val % 2 = c.val % 2 := by revert c; decide
theorem yn_mod (c : Dev nD) : (yn c).val % 2 = 1 - c.val % 2 := by revert c; decide
theorem xn_div (c : Dev nD) : (xn c).val / 2 = 1 - c.val / 2 := by revert c; decide

def xswap : Dev nD ≃ Dev nD := ⟨xn, xn, xn_xn, xn_xn⟩
def yswap : Dev nD ≃ Dev nD := ⟨yn, yn, yn_yn, yn_yn⟩

end Cert.KernelIdealProof

end
-- ==== Proof.ProtoKernelIdeal.lean ====
import proofs.«900136_g7700000000000137_dist_ar_v7x_xy2x2_x_m8192_n1024_bf16_1_alg».proof.Proof.MeshKernelIdeal
import Idealize.ShloMosaic.Lib.ValueIdx

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

abbrev inB : Memref sig .tc .hbm S8192x1024 .f32 := Memref.whole main_arg0
abbrev outB : Memref sig .tc .hbm S8192x1024 .bf16 := Memref.whole main_v1
abbrev stB : Memref sig .tc .vmem S3x1024x1024 .f32 := Memref.whole cc0_scratch0
abbrev sxB : Memref sig .tc .vmem S4096x1024 .bf16 := Memref.whole cc0_scratch1
abbrev rxB : Memref sig .tc .vmem S4096x1024 .bf16 := Memref.whole cc0_scratch2

theorem chunk_inb (j : Fin 16) : ∀ a, (![256 * j.val, 0] : Fin 2 → Nat) a + S256x1024.size a ≤ S4096x1024.size a :=
  Rect.inb₂ (by show 256 * j.val + 256 ≤ 4096; omega) (by show 0 + 1024 ≤ 1024; omega)
theorem slot_inb (s : Fin 3) : ∀ a, (![s.val, 0, 0] : Fin 3 → Nat) a + S1x1024x1024.size a ≤ S3x1024x1024.size a := by
  intro a
  match a with
  | ⟨0, _⟩ => show s.val + 1 ≤ 3; omega
  | ⟨1, _⟩ => show 0 + 1024 ≤ 1024; omega
  | ⟨2, _⟩ => show 0 + 1024 ≤ 1024; omega

abbrev chunkR (j : Fin 16) : Rect S4096x1024 := Rect.unit (s := S4096x1024) ![256 * j.val, 0] S256x1024.size (chunk_inb j)
abbrev sxC (j : Fin 16) : Memref sig .tc .vmem S256x1024 .bf16 := sxB.slice (chunkR j) (fun _ => rfl)
abbrev rxC (j : Fin 16) : Memref sig .tc .vmem S256x1024 .bf16 := rxB.slice (chunkR j) (fun _ => rfl)
abbrev outMe (c : Dev nD) (j : Fin 16) : Memref sig .tc .hbm S256x1024 .bf16 :=
  outB.slice (Rect.unit (s := S8192x1024) (k0_off2 c (BitVec.ofNat 32 (256 * j.val))) S256x1024.size (k0_off2_inb c j)) (fun _ => rfl)
abbrev outOt (c : Dev nD) (j : Fin 16) : Memref sig .tc .hbm S256x1024 .bf16 :=
  outB.slice (Rect.unit (s := S8192x1024) (k0_off3 c (BitVec.ofNat 32 (256 * j.val))) S256x1024.size (k0_off3_inb c j)) (fun _ => rfl)
abbrev inBlk (c : Dev nD) (b : Fin 4) : Memref sig .tc .hbm S1024x1024 .f32 :=
  inB.slice (Rect.unit (s := S8192x1024) (k0_off1 c (BitVec.ofNat 32 (1024 * b.val))) S1024x1024.size (k0_off1_inb c b)) (fun _ => rfl)
abbrev slot (s : Fin 3) : Memref sig .tc .vmem S1024x1024 .f32 :=
  (stB.slice (Rect.unit (s := S3x1024x1024) ![s.val, 0, 0] S1x1024x1024.size (slot_inb s)) (fun _ => rfl)).squeeze S1024x1024 squeezes_S1x1024x1024_S1024x1024

abbrev barS : Sem sig := (SemArray.scalar (sig.barrier 0 rfl) : Sems sig S_).sem
def csS (b : Fin 4) : DmaSem sig := ⟨b.val, by show b.val < 84; omega⟩
def rsS (j : Fin 16) : DmaSem sig := ⟨4 + j.val, by show 4 + j.val < 84; omega⟩
def sxS (j : Fin 16) : DmaSem sig := ⟨20 + j.val, by show 20 + j.val < 84; omega⟩
def rxS (j : Fin 16) : DmaSem sig := ⟨36 + j.val, by show 36 + j.val < 84; omega⟩
def syS (j : Fin 16) : DmaSem sig := ⟨52 + j.val, by show 52 + j.val < 84; omega⟩
def ryS (j : Fin 16) : DmaSem sig := ⟨68 + j.val, by show 68 + j.val < 84; omega⟩

abbrev barCell (c : Dev nD) : GSem nD τ sig := ((c : Thread nD τ), .reg barS)
abbrev csCell (c : Dev nD) (b : Fin 4) : GSem nD τ sig := ((c : Thread nD τ), .dma (csS b))
abbrev rsCell (c : Dev nD) (j : Fin 16) : GSem nD τ sig := ((c : Thread nD τ), .dma (rsS j))
abbrev sxCell (c : Dev nD) (j : Fin 16) : GSem nD τ sig := ((c : Thread nD τ), .dma (sxS j))
abbrev rxCell (c : Dev nD) (j : Fin 16) : GSem nD τ sig := ((c : Thread nD τ), .dma (rxS j))
abbrev syCell (c : Dev nD) (j : Fin 16) : GSem nD τ sig := ((c : Thread nD τ), .dma (syS j))
abbrev ryCell (c : Dev nD) (j : Fin 16) : GSem nD τ sig := ((c : Thread nD τ), .dma (ryS j))

def NB : ℕ := (slot 0).view.dmaCredit
def NV : ℕ := (rxC 0).view.dmaCredit
def NH (c : Dev nD) : ℕ := (outMe c 0).view.dmaCredit

def A (c : Dev nD) : S8192x1024.Idx → F .f32 := m ((c : Thread nD τ).loc main_arg0)

def up (c : Dev nD) (i : S4096x1024.Idx) : S8192x1024.Idx :=
  ix2 (n0 := 8192) (n1 := 1024) ⟨4096 * (c.val % 2) + (i 0).val, by have := idx2_lt0 i; omega⟩ (i 1)
def low (i : S8192x1024.Idx) : S4096x1024.Idx :=
  ix2 (n0 := 4096) (n1 := 1024) ⟨(i 0).val % 4096, Nat.mod_lt _ (by decide)⟩ (i 1)

/-- The device's half of `x` narrowed; what lands is the x-partner's; their sum; the result holds the sum on the own half, the y-partner's on the other. -/
def SX1 (c : Dev nD) : S4096x1024.Idx → F .bf16 := fun i => FloatOps.truncf .bf16 (by decide) (A m c (up c i))
def RX (c : Dev nD) : S4096x1024.Idx → F .bf16 := SX1 m (xn c)
def SX2 (c : Dev nD) : S4096x1024.Idx → F .bf16 := fun i => FloatOps.addf (SX1 m c i) (RX m c i)
def OUT (c : Dev nD) : S8192x1024.Idx → F .bf16 := fun i =>
  if (i 0).val / 4096 = c.val % 2 then SX2 m c (low i) else SX2 m (yn c) (low i)

end Cert.KernelIdealProof

end
-- ==== Proof.SchedKernelIdeal.lean ====
import proofs.«900136_g7700000000000137_dist_ar_v7x_xy2x2_x_m8192_n1024_bf16_1_alg».proof.Proof.ProtoKernelIdeal

noncomputable section

namespace Cert.KernelIdealProof

open Cert.KernelIdeal Cert.KernelIdeal.Gen

open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

variable (m : (ℓ : Loc nD τ sig) → Buf (Elt F) ℓ)

def slotOf (b : Fin 4) : Fin 3 := ⟨b.val % 3, Nat.mod_lt _ (by decide)⟩

def XST (o : Dev nD) (b : Fin 4) : S3x1024x1024.Idx → F .f32 := fun i =>
  A m o (ix2 (n0 := 8192) (n1 := 1024)
    ⟨4096 * (o.val % 2) + 1024 * b.val + (i 1).val, by
      have h1 : (i 1).val < 1024 := (i 1).isLt; omega⟩ (i 2))

abbrev piece {κsp : Space} {sh : Shape} {e : EltTy} (t : Dev nD) (M : Memref sig .tc κsp sh e) (q : PosShare TreeShare)
    (f : Buf (Elt F) (M.view.loc (t : Thread nD τ))) : sProp 𝕄 :=
  M.view.loc (t : Thread nD τ) ↦[M.view.set]{q} f

def csPay (o : Dev nD) (b : Fin 4) : sProp 𝕄 :=
  iprop(piece o (slot (slotOf b)) fullShare (XST m o b) ∗ piece o (inBlk o b) fullShare (A m o))
def sxPay (o : Dev nD) (j : Fin 16) : sProp 𝕄 := piece o (sxC j) fullShare (SX1 m o)
def rxPay (o : Dev nD) (j : Fin 16) : sProp 𝕄 := piece o (rxC j) fullShare (RX m o)
def syPay (o : Dev nD) (j : Fin 16) : sProp 𝕄 := piece o (sxC j) fullShare.left (SX2 m o)
def ryPay (o : Dev nD) (j : Fin 16) : sProp 𝕄 := piece o (outOt o j) fullShare (OUT m o)
def rsPay (o : Dev nD) (j : Fin 16) : sProp 𝕄 :=
  iprop(piece o (outMe o j) fullShare (OUT m o) ∗ piece o (sxC j) fullShare.right (SX2 m o))
def barPayX (o : Dev nD) : sProp 𝕄 := bigSep Finset.univ fun j : Fin 16 => iprop(∃ f, piece (xn o) (rxC j) fullShare f)
def barPayY (o : Dev nD) : sProp 𝕄 := bigSep Finset.univ fun j : Fin 16 => iprop(∃ f, piece (yn o) (outMe o j) fullShare f)

inductive Kind where
  | cs (b : Fin 4) | rs (j : Fin 16) | sx (j : Fin 16) | rx (j : Fin 16) | sy (j : Fin 16) | ry (j : Fin 16)

def kindOf (n : DmaSem sig) : Kind :=
  if h0 : n.val < 4 then .cs ⟨n.val, h0⟩
  else if h1 : n.val < 20 then .rs ⟨n.val - 4, by omega⟩
  else if h2 : n.val < 36 then .sx ⟨n.val - 20, by omega⟩
  else if h3 : n.val < 52 then .rx ⟨n.val - 36, by omega⟩
  else if h4 : n.val < 68 then .sy ⟨n.val - 52, by omega⟩
  else .ry ⟨n.val - 68, by have : n.val < 84 := n.isLt; omega⟩

/-- `kindOf` inverts each of the six numberings: the range tests decide, and the offset cancels. -/
theorem kindOf_cs (b : Fin 4) : kindOf (csS b) = .cs b := dif_pos (show (csS b).val < 4 from b.isLt)
theorem kindOf_rs (j : Fin 16) : kindOf (rsS j) = .rs j := by
  simp (disch := omega) only [kindOf, rsS, dif_pos, dif_neg, Nat.add_sub_cancel_left]
theorem kindOf_sx (j : Fin 16) : kindOf (sxS j) = .sx j := by
  simp (disch := omega) only [kindOf, sxS, dif_pos, dif_neg, Nat.add_sub_cancel_left]
theorem kindOf_rx (j : Fin 16) : kindOf (rxS j) = .rx j := by
  simp (disch := omega) only [kindOf, rxS, dif_pos, dif_neg, Nat.add_sub_cancel_left]
theorem kindOf_sy (j : Fin 16) : kindOf (syS j) = .sy j := by
  simp (disch := omega) only [kindOf, syS, dif_pos, dif_neg, Nat.add_sub_cancel_left]
theorem kindOf_ry (j : Fin 16) : kindOf (ryS j) = .ry j := by
  simp (disch := omega) only [kindOf, ryS, dif_pos, dif_neg, Nat.add_sub_cancel_left]

def dmaPay (o : Dev nD) : Kind → sProp 𝕄
  | .cs b => csPay m o b | .rs j => rsPay m o j | .sx j => sxPay m o j | .rx j => rxPay m o j | .sy j => syPay m o j | .ry j => ryPay m o j

def dmaAmt (o : Dev nD) : Kind → ℕ
  | .cs _ => NB | .rs _ => NH o | .sx _ => NV | .rx _ => NV | .sy _ => NH o | .ry _ => NH o

theorem h_S1024x1024 : 0 < S1024x1024.numel := by decide +kernel
theorem NB_pos : 0 < NB := View.dmaCredit_pos (slot 0).view h_S1024x1024
theorem NV_pos : 0 < NV := View.dmaCredit_pos (rxC 0).view h_S256x1024
theorem NH_pos (c : Dev nD) : 0 < NH c := View.dmaCredit_pos (outMe c 0).view h_S256x1024

theorem dmaAmt_pos (o : Dev nD) (k : Kind) : 0 < dmaAmt o k := by
  cases k <;> first | exact NB_pos | exact NV_pos | exact NH_pos o

def cellAmt (g : GSem nD τ sig) : ℕ := match g.2 with | .reg _ => 1 | .dma n => dmaAmt g.1.1 (kindOf n)
theorem cellAmt_pos (g : GSem nD τ sig) : 0 < cellAmt g := by
  rcases g with ⟨t, s⟩
  cases s with
  | reg s => exact Nat.one_pos
  | dma n => exact dmaAmt_pos t.1 (kindOf n)
def cellDuties (g : GSem nD τ sig) (r : ℕ) : Finset Bool :=
  if r = 0 ∧ g.1.2 = .tc then (match g.2 with | .reg s => if s = barS then Finset.univ else ∅ | .dma _ => {false}) else ∅
def cellPay (g : GSem nD τ sig) (d : Bool) : sProp 𝕄 :=
  match g.2 with
  | .reg _ => if d then barPayY g.1.1 else barPayX g.1.1
  | .dma n => dmaPay m g.1.1 (kindOf n)

/-- One round: a barrier cell has a duty from each partner, a DMA cell one; each duty hands the cell's owner its payload. -/
def Rd : Rounds.Schedule (GSem nD τ sig) Bool 𝕄 where
  duties := cellDuties
  unitless _ := False
  amount g _ _ := cellAmt g
  payload g _ d := cellPay m g d
  amount_pos g _ _ _ := cellAmt_pos g

end Cert.KernelIdealProof

end
-- ==== Proof.TablesKernelIdeal.lean ====
import proofs.«900136_g7700000000000137_dist_ar_v7x_xy2x2_x_m8192_n1024_bf16_1_alg».proof.Proof.Gen.KernelIdeal
import proofs.«900136_g7700000000000137_dist_ar_v7x_xy2x2_x_m8192_n1024_bf16_1_alg».proof.Proof.Gen.KernelIdeal.Skeleton
import proofs.«900136_g7700000000000137_dist_ar_v7x_xy2x2_x_m8192_n1024_bf16_1_alg».proof.Proof.Gen.KernelIdeal.Launch
import proofs.«900136_g7700000000000137_dist_ar_v7x_xy2x2_x_m8192_n1024_bf16_1_alg».proof.Proof.Gen.KernelIdeal.Points
import proofs.«900136_g7700000000000137_dist_ar_v7x_xy2x2_x_m8192_n1024_bf16_1_alg».proof.Proof.Gen.KernelIdeal.Frame
import proofs.«900136_g7700000000000137_dist_ar_v7x_xy2x2_x_m8192_n1024_bf16_1_alg».proof.Proof.SchedKernelIdeal

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Tables
variable (c : Dev nD)

theorem duties_bar : (Rd (F := F) m).duties (barCell c) 0 = Finset.univ := by
  show cellDuties (barCell c) 0 = _; unfold cellDuties; rw [if_pos ⟨rfl, rfl⟩]; exact if_pos rfl
theorem duties_dma (n : DmaSem sig) : (Rd (F := F) m).duties ((c : Thread nD τ), .dma n) 0 = {false} := by
  show cellDuties ((c : Thread nD τ), .dma n) 0 = _; unfold cellDuties; rw [if_pos ⟨rfl, rfl⟩]
theorem duties_later (g : GSem nD τ sig) : ∀ r, 1 ≤ r → (Rd (F := F) m).duties g r = ∅ :=
  fun r hr => by show cellDuties g r = _; unfold cellDuties; rw [if_neg fun h => by omega]

theorem amount_bar (d : Bool) : (Rd (F := F) m).amount (barCell c) 0 d = 1 := rfl
theorem payload_bar_false : (Rd (F := F) m).payload (barCell c) 0 false = barPayX c := rfl
theorem payload_bar_true : (Rd (F := F) m).payload (barCell c) 0 true = barPayY c := rfl
theorem expect_bar : (Rd (F := F) m).expect (barCell c) 0 = 2 := by
  unfold Schedule.expect Schedule.amountOf
  rw [duties_bar, Finset.sum_congr rfl fun d _ => amount_bar m c d, Finset.sum_const, Finset.card_univ, Fintype.card_bool, smul_eq_mul]

theorem rest_bar : bigSep ((Rd (F := F) m).duties (barCell c) 0 \ ∅) (fun d => (Rd (F := F) m).payload (barCell c) 0 d) = iprop(barPayX c ∗ barPayY c) := by
  rw [Finset.sdiff_empty, duties_bar, bigSep_univ_eq_bigSepL [false, true] (by decide) (by decide), bigSepL_cons_cons, bigSepL_singleton,
    payload_bar_false, payload_bar_true]
  rfl

theorem amount_cs (j : Fin 4) (d : Bool) : (Rd (F := F) m).amount (csCell c j) 0 d = NB := by
  show dmaAmt c (kindOf _) = _; rw [kindOf_cs]; rfl
theorem payload_cs (j : Fin 4) (d : Bool) : (Rd (F := F) m).payload (csCell c j) 0 d = csPay m c j := by
  show dmaPay m c (kindOf _) = _; rw [kindOf_cs]; rfl

theorem amount_rs (j : Fin 16) (d : Bool) : (Rd (F := F) m).amount (rsCell c j) 0 d = NH c := by
  show dmaAmt c (kindOf _) = _; rw [kindOf_rs]; rfl
theorem payload_rs (j : Fin 16) (d : Bool) : (Rd (F := F) m).payload (rsCell c j) 0 d = rsPay m c j := by
  show dmaPay m c (kindOf _) = _; rw [kindOf_rs]; rfl

theorem amount_sx (j : Fin 16) (d : Bool) : (Rd (F := F) m).amount (sxCell c j) 0 d = NV := by
  show dmaAmt c (kindOf _) = _; rw [kindOf_sx]; rfl
theorem payload_sx (j : Fin 16) (d : Bool) : (Rd (F := F) m).payload (sxCell c j) 0 d = sxPay m c j := by
  show dmaPay m c (kindOf _) = _; rw [kindOf_sx]; rfl

theorem amount_rx (j : Fin 16) (d : Bool) : (Rd (F := F) m).amount (rxCell c j) 0 d = NV := by
  show dmaAmt c (kindOf _) = _; rw [kindOf_rx]; rfl
theorem payload_rx (j : Fin 16) (d : Bool) : (Rd (F := F) m).payload (rxCell c j) 0 d = rxPay m c j := by
  show dmaPay m c (kindOf _) = _; rw [kindOf_rx]; rfl

theorem amount_sy (j : Fin 16) (d : Bool) : (Rd (F := F) m).amount (syCell c j) 0 d = NH c := by
  show dmaAmt c (kindOf _) = _; rw [kindOf_sy]; rfl
theorem payload_sy (j : Fin 16) (d : Bool) : (Rd (F := F) m).payload (syCell c j) 0 d = syPay m c j := by
  show dmaPay m c (kindOf _) = _; rw [kindOf_sy]; rfl

theorem amount_ry (j : Fin 16) (d : Bool) : (Rd (F := F) m).amount (ryCell c j) 0 d = NH c := by
  show dmaAmt c (kindOf _) = _; rw [kindOf_ry]; rfl
theorem payload_ry (j : Fin 16) (d : Bool) : (Rd (F := F) m).payload (ryCell c j) 0 d = ryPay m c j := by
  show dmaPay m c (kindOf _) = _; rw [kindOf_ry]; rfl

end Tables

instance Rd_payload_storable (g : GSem nD τ sig) (r : ℕ) (d : Bool) :
    BI.Storable (upEmb : UEmb _ 𝕄) ((Rd (F := F) m).payload g r d) := by
  rcases g with ⟨t, s⟩
  cases s with
  | reg s =>
    show BI.Storable upEmb (if d then barPayY t.1 else barPayX t.1)
    unfold barPayY barPayX
    split <;> infer_instance
  | dma n =>
    show BI.Storable upEmb (dmaPay m t.1 (kindOf n))
    cases kindOf n <;> (unfold dmaPay csPay rsPay sxPay rxPay syPay ryPay; infer_instance)

end Cert.KernelIdealProof

end
-- ==== Proof.LevelsKernelIdeal.lean ====
import proofs.«900136_g7700000000000137_dist_ar_v7x_xy2x2_x_m8192_n1024_bf16_1_alg».proof.Proof.ProtoKernelIdeal

noncomputable section

namespace Cert.KernelIdealProof

open Cert.KernelIdeal Cert.KernelIdeal.Gen

open Idealize.ShloMosaic
open Idealize.ShloMosaic.TcCoe
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The dues from the last paid (`k = 0`) to the first (`k = 33`): the y-landings, the x-landings, the two barrier units. -/
def due (c : Dev nD) (k : ℕ) : CellTallies nD τ sig Unit :=
  if h : k < 16 then tallyAt (ryCell (yn c) ⟨15 - k, by omega⟩) () (NH c)
  else if h : k < 32 then tallyAt (rxCell (xn c) ⟨31 - k, by omega⟩) () NV
  else if k = 32 then tallyAt (barCell (yn c)) () 1
  else tallyAt (barCell (xn c)) () 1

def owedUpTo (c : Dev nD) : ℕ → CellTallies nD τ sig Unit
  | 0 => 0
  | k + 1 => owedUpTo c k + due c k

def O₀ (c : Dev nD) : CellTallies nD τ sig Unit := owedUpTo c 34

def L (g : GSem nD τ sig) : Finset Unit := if g.1.2 = .tc then {()} else ∅
/-- Barrier cells at level 1, the landing cells of the first exchange at 2, of the second at 3, every other cell at 0. -/
def lv (g : GSem nD τ sig) (_ : Unit) : ℕ :=
  match g.2 with
  | .reg _ => 1
  | .dma n => if 36 ≤ n.val ∧ n.val < 52 then 2 else if 68 ≤ n.val then 3 else 0

theorem L_of_ne (g : GSem nD τ sig) (h : g.1.2 ≠ .tc) : L g = ∅ := if_neg h
theorem L_tc (c : Dev nD) (sm : SemLoc sig) : L ((c : Thread nD τ), sm) = {()} := if_pos rfl

theorem lv_rx (d : Dev nD) (j : Fin 16) : lv (rxCell d j) () = 2 :=
  if_pos (show 36 ≤ 36 + j.val ∧ 36 + j.val < 52 by omega)

theorem lv_ry (d : Dev nD) (j : Fin 16) : lv (ryCell d j) () = 3 :=
  (if_neg (show ¬ (36 ≤ 68 + j.val ∧ 68 + j.val < 52) by omega)).trans (if_pos (show 68 ≤ 68 + j.val by omega))

theorem owedUpTo_pos {c : Dev nD} {k : ℕ} {g : GSem nD τ sig} {u : Unit} (h : 0 < owedUpTo c k g u) :
    ∃ i, i < k ∧ 0 < due c i g u := by
  induction k with
  | zero => exact absurd h (Nat.lt_irrefl 0)
  | succ k ih =>
    rcases Pipeline.add_pos_cases (show 0 < (owedUpTo c k + due c k) g u from h) with h' | h'
    · obtain ⟨i, hi, hd⟩ := ih h'
      exact ⟨i, Nat.lt_succ_of_lt hi, hd⟩
    · exact ⟨k, Nat.lt_succ_self k, h'⟩

/-- Every due sits on a barrier cell (level 1) or on a landing cell of the first (2) or second (3) exchange. -/
theorem due_pos {c : Dev nD} {i : ℕ} {g : GSem nD τ sig} {u : Unit} (h : 0 < due c i g u) :
    u ∈ L g ∧ 1 ≤ lv g u ∧ (i < 32 → 2 ≤ lv g u) ∧ (i < 16 → 3 ≤ lv g u) := by
  unfold due at h
  by_cases h1 : i < 16
  · rw [dif_pos h1] at h
    obtain ⟨rfl, rfl⟩ := Pipeline.tallyAt_pos h
    rw [L_tc, lv_ry]
    exact ⟨Finset.mem_singleton_self _, by omega, by omega, by omega⟩
  rw [dif_neg h1] at h
  by_cases h2 : i < 32
  · rw [dif_pos h2] at h
    obtain ⟨rfl, rfl⟩ := Pipeline.tallyAt_pos h
    rw [L_tc, lv_rx]
    exact ⟨Finset.mem_singleton_self _, by omega, by omega, by omega⟩
  rw [dif_neg h2] at h
  by_cases h3 : i = 32 <;> simp only [h3, if_true, if_false] at h <;> obtain ⟨rfl, rfl⟩ := Pipeline.tallyAt_pos h <;>
    exact ⟨by rw [L_tc]; exact Finset.mem_singleton_self _, Nat.le_refl 1, by omega, by omega⟩

omit [FloatOps F] in
/-- A wait is allowed when every due still owed sits at a higher level than the cell waited on. -/
theorem mayWait_lv (c : Dev nD) (sm : SemLoc sig) (k : ℕ)
    (h : ∀ {i g u}, i < k → 0 < due c i g u → lv ((c : Thread nD τ), sm) () < lv g u) :
    (levAts L lv : sProp 𝕄) ⊢ MayWait (c : Thread nD τ) sm () (owedUpTo c k) :=
  Pipeline.mayWait_of_levAts (by rw [L_tc]; exact Finset.mem_singleton_self _) fun g u hg => by
    obtain ⟨i, hi, hd⟩ := owedUpTo_pos hg
    exact ⟨(due_pos hd).1, h hi hd⟩

omit [FloatOps F] in
theorem mayWait_low (c : Dev nD) (n : DmaSem sig) (hn : lv ((c : Thread nD τ), .dma n) () = 0) (k : ℕ) :
    (levAts L lv : sProp 𝕄) ⊢ MayWait (c : Thread nD τ) (.dma n) () (owedUpTo c k) :=
  mayWait_lv c _ k fun _ hd => by rw [hn]; exact (due_pos hd).2.1

omit [FloatOps F] in
theorem mayWait_bar (c : Dev nD) (k : ℕ) (hk : k ≤ 32) :
    (levAts L lv : sProp 𝕄) ⊢ MayWait (c : Thread nD τ) (.reg barS) () (owedUpTo c k) :=
  mayWait_lv c _ k fun hi hd => (due_pos hd).2.2.1 (Nat.lt_of_lt_of_le hi hk)

omit [FloatOps F] in
theorem mayWait_rx (c : Dev nD) (j : Fin 16) (k : ℕ) (hk : k ≤ 16) :
    (levAts L lv : sProp 𝕄) ⊢ MayWait (c : Thread nD τ) (.dma (rxS j)) () (owedUpTo c k) :=
  mayWait_lv c _ k fun hi hd => by rw [lv_rx]; exact (due_pos hd).2.2.2 (Nat.lt_of_lt_of_le hi hk)

omit [FloatOps F] in
theorem mayWait_ry (c : Dev nD) (j : Fin 16) :
    (levAts L lv : sProp 𝕄) ⊢ MayWait (c : Thread nD τ) (.dma (ryS j)) () (owedUpTo c 0) := by
  show (levAts L lv : sProp 𝕄) ⊢ MayWait (c : Thread nD τ) (.dma (ryS j)) () 0
  rw [MayWait_zero]; iintro -; iempintro

omit [FloatOps F] in
theorem launchCred_owedUpTo (c : Dev nD) (k : ℕ) :
    (Pipeline.launchCred (fun d => owedUpTo d k) c : sProp 𝕄)
      ⊢ bigSep (Finset.range k) fun i => Pipeline.launchCred (fun d => due d i) c := by
  induction k with
  | zero =>
    rw [Finset.range_zero, bigSep_empty]
    exact Entails.of_eq (Pipeline.launchCred_zero c)
  | succ k ih =>
    rw [Finset.range_add_one, bigSep_insert Finset.notMem_range_self,
      show (fun d => owedUpTo d (k + 1)) = fun d => owedUpTo d k + due d k from rfl, Pipeline.launchCred_add]
    show _ ⊢ iprop(Pipeline.launchCred (fun d => due d k) c ∗ bigSep (Finset.range k) fun i => Pipeline.launchCred (fun d => due d i) c)
    exact (sep_mono_left ih).trans sep_symm

omit [FloatOps F] in
/-- Where every device's due `i` is an amount on its partner's cell `sm`, the partner's due is the credit on one's own. -/
theorem launch_due (c : Dev nD) (i : ℕ) (sm : SemLoc sig) (p : Dev nD → Dev nD) (hp : ∀ d, p (p d) = d) (n : ℕ)
    (h : ∀ d, due d i = tallyAt (((p d : Dev nD) : Thread nD τ), sm) () n) :
    (Pipeline.launchCred (fun d => due d i) c : sProp 𝕄) ⊢ cred (tallyAt ((c : Thread nD τ), sm) () n) := by
  rw [funext h]
  exact Pipeline.launchCred_tallyAt sm p p hp hp () n c

omit [FloatOps F] in
theorem launch_due_ry (c : Dev nD) (j : Fin 16) :
    (Pipeline.launchCred (fun d => due d (15 - j.val)) c : sProp 𝕄) ⊢ cred (tallyAt (ryCell c j) () (NH c)) :=
  launch_due c _ (.dma (ryS j)) yn yn_yn (NH c) fun d => by
    unfold due
    rw [dif_pos (show 15 - j.val < 16 by omega)]
    exact congrArg (fun k => tallyAt (ryCell (yn d) k) () (NH c)) (Fin.ext (show 15 - (15 - j.val) = j.val by omega))

omit [FloatOps F] in
theorem launch_due_rx (c : Dev nD) (j : Fin 16) :
    (Pipeline.launchCred (fun d => due d (31 - j.val)) c : sProp 𝕄) ⊢ cred (tallyAt (rxCell c j) () NV) :=
  launch_due c _ (.dma (rxS j)) xn xn_xn NV fun d => by
    unfold due
    rw [dif_neg (show ¬ 31 - j.val < 16 by omega), dif_pos (show 31 - j.val < 32 by omega)]
    exact congrArg (fun k => tallyAt (rxCell (xn d) k) () NV) (Fin.ext (show 31 - (31 - j.val) = j.val by omega))

omit [FloatOps F] in
theorem launch_due_bar (c : Dev nD) :
    iprop((Pipeline.launchCred (fun d => due d 32) c : sProp 𝕄) ∗ Pipeline.launchCred (fun d => due d 33) c)
      ⊢ cred (tallyAt (barCell c) () 2) := by
  rw [← tallyAt_add (barCell c) () 1 1]
  exact (BIClass.sep_mono (launch_due c 32 (.reg barS) yn yn_yn 1 fun d => by unfold due; rw [dif_neg (by decide), dif_neg (by decide), if_pos rfl])
    (launch_due c 33 (.reg barS) xn xn_xn 1 fun d => by unfold due; rw [dif_neg (by decide), dif_neg (by decide), if_neg (by decide)])).trans (cred_add _ _).2

omit [FloatOps F] in
theorem creds (c : Dev nD) :
    (Pipeline.launchCred O₀ c : sProp 𝕄) ⊢ iprop(cred (tallyAt (barCell c) () 2)
      ∗ (bigSep Finset.univ fun j : Fin 16 => cred (tallyAt (rxCell c j) () NV))
      ∗ (bigSep Finset.univ fun j : Fin 16 => cred (tallyAt (ryCell c j) () (NH c)))) := by
  have hsub : ({32, 33} : Finset ℕ) ∪ ((Finset.univ.image fun j : Fin 16 => 31 - j.val) ∪ (Finset.univ.image fun j : Fin 16 => 15 - j.val))
      ⊆ Finset.range 34 := by decide
  have hd1 : Disjoint ({32, 33} : Finset ℕ) ((Finset.univ.image fun j : Fin 16 => 31 - j.val) ∪ (Finset.univ.image fun j : Fin 16 => 15 - j.val)) := by
    decide
  have hd2 : Disjoint (Finset.univ.image fun j : Fin 16 => 31 - j.val) (Finset.univ.image fun j : Fin 16 => 15 - j.val) := by decide
  refine (show (Pipeline.launchCred O₀ c : sProp 𝕄) ⊢ _ from launchCred_owedUpTo c 34).trans ((bigSep_subset hsub).trans ?_)
  rw [bigSep_union hd1, bigSep_union hd2, bigSep_insert (by decide), bigSep_singleton,
    bigSep_image_of_injOn (fun a _ b _ h => Fin.ext (by omega)),
    bigSep_image_of_injOn (fun a _ b _ h => Fin.ext (by omega))]
  refine sep_mono (launch_due_bar c) (sep_mono (bigSep_mono fun j _ => launch_due_rx c j) (bigSep_mono fun j _ => launch_due_ry c j))

/-- The body on device `c`: the weakest precondition at the launch's one point. -/
abbrev WPc (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

end Cert.KernelIdealProof

end
-- ==== Proof.GhostKernelIdeal.lean ====
import proofs.«900136_g7700000000000137_dist_ar_v7x_xy2x2_x_m8192_n1024_bf16_1_alg».proof.Proof.TablesKernelIdeal
import proofs.«900136_g7700000000000137_dist_ar_v7x_xy2x2_x_m8192_n1024_bf16_1_alg».proof.Proof.LevelsKernelIdeal

noncomputable section

namespace Cert.KernelIdealProof

open Cert.KernelIdeal Cert.KernelIdeal.Gen

open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev CIx : Type := Option (DmaSem sig)
abbrev csem : CIx → SemLoc sig
  | none => .reg barS
  | some n => .dma n
abbrev kcell (ck : Dev nD × CIx) : GSem nD τ sig := ((ck.1 : Thread nD τ), csem ck.2)
abbrev osem : DmaSem sig → SemLoc sig := fun n => .dma n

def records (K : Dev nD × CIx → ℕ) : sProp 𝕄 :=
  iprop((bigSep Finset.univ fun ck : Dev nD × CIx => cellInv ER (Rd m) (K ck) (kcell ck))
    ∗ bigSep Finset.univ fun ck : Dev nD × CIx => reached ER (kcell ck) 0)

instance records_persistent (K : Dev nD × CIx → ℕ) : BI.Persistent (records m K) := by unfold records; infer_instance

def positions (c : Dev nD) : sProp 𝕄 := bigSep Finset.univ fun k : CIx => atPos ER (kcell (c, k)) 0 ∅ 0

/-- The tokens of the duties device `c` pays: on its partners' barrier and landing cells, and on its own staging, write-back and read-out cells. -/
def payToks (c : Dev nD) : sProp 𝕄 :=
  iprop(dutyTok ER (barCell (xn c)) 0 false ∗ dutyTok ER (barCell (yn c)) 0 true
    ∗ (bigSep Finset.univ fun b : Fin 4 => dutyTok ER (csCell c b) 0 false)
    ∗ (bigSep Finset.univ fun j : Fin 16 => dutyTok ER (rsCell c j) 0 false)
    ∗ (bigSep Finset.univ fun j : Fin 16 => dutyTok ER (sxCell c j) 0 false)
    ∗ (bigSep Finset.univ fun j : Fin 16 => dutyTok ER (rxCell (xn c) j) 0 false)
    ∗ (bigSep Finset.univ fun j : Fin 16 => dutyTok ER (syCell c j) 0 false)
    ∗ (bigSep Finset.univ fun j : Fin 16 => dutyTok ER (ryCell (yn c) j) 0 false))

def ghost (K : Dev nD × CIx → ℕ) (c : Dev nD) : sProp 𝕄 := iprop(records m K ∗ positions c ∗ payToks c)

def startCreds (c : Dev nD) : sProp 𝕄 :=
  iprop(cred (tallyAt (barCell c) () 2)
    ∗ (bigSep Finset.univ fun j : Fin 16 => cred (tallyAt (rxCell c j) () NV))
    ∗ (bigSep Finset.univ fun j : Fin 16 => cred (tallyAt (ryCell c j) () (NH c))))

def start (c : Dev nD) : sProp 𝕄 := iprop((∃ K, ghost m K c) ∗ startCreds c ∗ levAts L lv)

abbrev wholeAt (c : Dev nD) (b : Ref sig .tc) (f : Buf (Elt F) ((c : Thread nD τ).loc b)) : sProp 𝕄 :=
  ((c : Thread nD τ).loc b) ↦{fullShare} f

def Φ₀ (c : Dev nD) : sProp 𝕄 :=
  iprop(start m c ∗ (∃ f, wholeAt c cc0_scratch0 f) ∗ (∃ f, wholeAt c cc0_scratch1 f) ∗ (∃ f, wholeAt c cc0_scratch2 f)
    ∗ wholeAt c main_arg0 (m _) ∗ wholeAt c main_v1 (m _))
def Φ₁ (c : Dev nD) : sProp 𝕄 :=
  iprop((∃ f, wholeAt c cc0_scratch0 f) ∗ (∃ f, wholeAt c cc0_scratch1 f) ∗ (∃ f, wholeAt c cc0_scratch2 f)
    ∗ (bigSep Finset.univ fun n : DmaSem sig => semVal ((c : Thread nD τ), osem n) 0)
    ∗ wholeAt c main_arg0 (m _) ∗ wholeAt c main_v1 (OUT m c))

/-- No window; one point, with `Φ₀` before and `Φ₁` after; everything owed before, nothing after. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdealProof

end
-- ==== Proof.RegroupKernelIdeal.lean ====
import proofs.«900136_g7700000000000137_dist_ar_v7x_xy2x2_x_m8192_n1024_bf16_1_alg».proof.Proof.GhostKernelIdeal

noncomputable section

namespace Cert.KernelIdealProof

open Cert.KernelIdeal Cert.KernelIdeal.Gen

open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

omit [FloatOps F] in
theorem bigSep_cix (Φ : CIx → sProp 𝕄) :
    bigSep Finset.univ Φ = iprop(Φ none ∗ bigSep Finset.univ fun n : DmaSem sig => Φ (some n)) := by
  have h : (Finset.univ : Finset CIx) = insert none (Finset.univ.map Function.Embedding.some) := by
    ext x; cases x <;> simp
  rw [h, bigSep_insert (by simp), bigSep_map]
  rfl

omit [FloatOps F] in
theorem bigSep_fin_add (a b : ℕ) (Φ : Fin (a + b) → sProp 𝕄) :
    bigSep Finset.univ Φ
      = iprop((bigSep Finset.univ fun i : Fin a => Φ (Fin.castAdd b i)) ∗ bigSep Finset.univ fun j : Fin b => Φ (Fin.natAdd a j)) := by
  rw [bigSep_univ_equiv finSumFinEquiv Φ, bigSep_univ_sum]
  rfl

omit [FloatOps F] in
/-- The 84 DMA semaphores are the six families in order: split `Fin 84` as `4 + (16 + (16 + (16 + (16 + 16))))`. -/
theorem bigSep_dma (Φ : DmaSem sig → sProp 𝕄) :
    bigSep Finset.univ Φ
      = iprop((bigSep Finset.univ fun b : Fin 4 => Φ (csS b)) ∗ (bigSep Finset.univ fun j : Fin 16 => Φ (rsS j))
          ∗ (bigSep Finset.univ fun j : Fin 16 => Φ (sxS j)) ∗ (bigSep Finset.univ fun j : Fin 16 => Φ (rxS j))
          ∗ (bigSep Finset.univ fun j : Fin 16 => Φ (syS j)) ∗ (bigSep Finset.univ fun j : Fin 16 => Φ (ryS j))) := by
  have e2 (j : Fin 16) : Fin.natAdd 4 (Fin.natAdd 16 (Fin.castAdd (16 + (16 + 16)) j)) = sxS j :=
    Fin.ext (by show 4 + (16 + j.val) = 20 + j.val; omega)
  have e3 (j : Fin 16) : Fin.natAdd 4 (Fin.natAdd 16 (Fin.natAdd 16 (Fin.castAdd (16 + 16) j))) = rxS j :=
    Fin.ext (by show 4 + (16 + (16 + j.val)) = 36 + j.val; omega)
  have e4 (j : Fin 16) : Fin.natAdd 4 (Fin.natAdd 16 (Fin.natAdd 16 (Fin.natAdd 16 (Fin.castAdd 16 j)))) = syS j :=
    Fin.ext (by show 4 + (16 + (16 + (16 + j.val))) = 52 + j.val; omega)
  have e5 (j : Fin 16) : Fin.natAdd 4 (Fin.natAdd 16 (Fin.natAdd 16 (Fin.natAdd 16 (Fin.natAdd 16 j)))) = ryS j :=
    Fin.ext (by show 4 + (16 + (16 + (16 + (16 + j.val)))) = 68 + j.val; omega)
  refine (bigSep_fin_add 4 (16 + (16 + (16 + (16 + 16)))) Φ).trans ?_
  rw [bigSep_fin_add 16 (16 + (16 + (16 + 16))), bigSep_fin_add 16 (16 + (16 + 16)), bigSep_fin_add 16 (16 + 16), bigSep_fin_add 16 16]
  simp only [e2, e3, e4, e5]
  rfl

omit [FloatOps F] in
theorem positions_eq (c : Dev nD) :
    positions (F := F) c
      = iprop(atPos ER (barCell c) 0 ∅ 0
          ∗ (bigSep Finset.univ fun b : Fin 4 => atPos ER (csCell c b) 0 ∅ 0)
          ∗ (bigSep Finset.univ fun j : Fin 16 => atPos ER (rsCell c j) 0 ∅ 0)
          ∗ (bigSep Finset.univ fun j : Fin 16 => atPos ER (sxCell c j) 0 ∅ 0)
          ∗ (bigSep Finset.univ fun j : Fin 16 => atPos ER (rxCell c j) 0 ∅ 0)
          ∗ (bigSep Finset.univ fun j : Fin 16 => atPos ER (syCell c j) 0 ∅ 0)
          ∗ (bigSep Finset.univ fun j : Fin 16 => atPos ER (ryCell c j) 0 ∅ 0)) := by
  unfold positions
  rw [bigSep_cix, bigSep_dma]

theorem inv_at (K : Dev nD × CIx → ℕ) (ck : Dev nD × CIx) : records m K ⊢ cellInv ER (Rd m) (K ck) (kcell ck) := by
  unfold records
  exact sep_elim_left.trans (bigSep_elim (Finset.mem_univ ck))

theorem reached_at (K : Dev nD × CIx → ℕ) (ck : Dev nD × CIx) : records m K ⊢ reached ER (kcell ck) 0 := by
  unfold records
  exact sep_elim_right.trans (bigSep_elim (Finset.mem_univ ck))

end Cert.KernelIdealProof

end
-- ==== Proof.LaunchKernelIdeal.lean ====
import proofs.«900136_g7700000000000137_dist_ar_v7x_xy2x2_x_m8192_n1024_bf16_1_alg».proof.Proof.RegroupKernelIdeal

noncomputable section

namespace Cert.KernelIdealProof

open Cert.KernelIdeal Cert.KernelIdeal.Gen

open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem :=
  ⟨by decide, fun a b h => SemLoc.dma.inj h, fun k w s => w.elim0⟩

theorem share_eq (c : Dev nD) (w : Fin cfg0.W) : (dats m 0 c).share w = fullShare := w.elim0

theorem csem_injective : Function.Injective csem := by
  rintro (_ | a) (_ | b) h <;> cases h <;> rfl

theorem kcell_injective : Function.Injective (kcell : Dev nD × CIx → GSem nD τ sig) := by
  rintro ⟨c, k⟩ ⟨c', k'⟩ h
  obtain rfl : c = c' := congrArg (fun g : GSem nD τ sig => g.1.1) h
  exact congrArg (Prod.mk c) (csem_injective (congrArg Prod.snd h))

def ringCells : Finset (GSem nD τ sig) := Finset.univ.map ⟨kcell, kcell_injective⟩

/-- The duties minted for a device: its barrier cell's two, and one for each of its DMA cells. -/
abbrev TIx : Type := Bool ⊕ DmaSem sig
abbrev tokOf (ct : Dev nD × TIx) : GSem nD τ sig × ℕ × Bool := match ct.2 with
  | .inl d => (barCell ct.1, 0, d)
  | .inr n => (((ct.1 : Thread nD τ), .dma n), 0, false)

theorem tokOf_injective : Function.Injective (tokOf : Dev nD × TIx → GSem nD τ sig × ℕ × Bool) := by
  rintro ⟨c, d | k⟩ ⟨c', d' | k'⟩ h <;> cases h <;> rfl

def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

def toks (c : Dev nD) : sProp 𝕄 :=
  iprop((dutyTok ER (barCell c) 0 false ∗ dutyTok ER (barCell c) 0 true)
    ∗ bigSep Finset.univ fun n : DmaSem sig => dutyTok ER ((c : Thread nD τ), .dma n) 0 false)

def G (c : Dev nD) : sProp 𝕄 :=
  iprop((bigSep Finset.univ fun k : CIx => roundState ER (Rd m) (kcell (c, k)) 0)
    ∗ (bigSep Finset.univ fun k : CIx => iprop(atPos ER (kcell (c, k)) 0 ∅ 0 ∗ reached ER (kcell (c, k)) 0)) ∗ toks c)

/-- `G` with every cell's invariant allocated in place of its round state. -/
def G₁ (c : Dev nD) : sProp 𝕄 :=
  iprop((bigSep Finset.univ fun k : CIx => iprop(∃ κ : ℕ, cellInv ER (Rd m) κ (kcell (c, k))))
    ∗ (bigSep Finset.univ fun k : CIx => iprop(atPos ER (kcell (c, k)) 0 ∅ 0 ∗ reached ER (kcell (c, k)) 0)) ∗ toks c)

def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CIx => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks
      rw [bigSep_univ_sum, bigSep_univ_eq_bigSepL [false, true] (by decide) (by decide), bigSepL_cons_cons, bigSepL_singleton]
      rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 osem c ∗ unscopedSems0 c)
      ⊢ (bigSep Finset.univ fun k : CIx => semVal (kcell (c, k)) 0 : sProp 𝕄) := by
  rw [unscopedSems0_eq, bigSep_cix]
  unfold Pipeline.ownSems0
  iintro ⟨HS, HB⟩
  iframe

theorem core_alloc (c : Dev nD) :
    iprop(Pipeline.ownSems0 osem c ∗ unscopedSems0 c ∗ G m c)
      ⊢ |={Set.univ}=> G₁ m c := by
  unfold G G₁
  iintro ⟨Hos, Hus, Hst, Hat, Htok⟩
  ihave Hv := (sems0_eq (F := F) c) $$ [Hos Hus]
  · iframe
  imod (show iprop((bigSep Finset.univ fun k : CIx => semVal (kcell (c, k)) 0) ∗ bigSep Finset.univ fun k : CIx => roundState ER (Rd m) (kcell (c, k)) 0)
      ⊢ (|={Set.univ}=> bigSep Finset.univ fun k : CIx => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · iframe
  imodintro
  iframe

theorem ghost_intro (K : Dev nD × CIx → ℕ) (c : Dev nD) : iprop(records m K ∗ positions c ∗ payToks c) ⊢ G' m c := by
  unfold G' ghost
  iintro H
  iexists K
  iexact H

/-- Summed over the devices, a token held for the partner's cell is the partner's token for its own: re-index by the swaps. -/
theorem toks_around : (bigSep Finset.univ fun c : Dev nD => (toks c : sProp 𝕄)) ⊢ bigSep Finset.univ fun c : Dev nD => payToks c := by
  unfold toks payToks
  simp only [bigSep_dma, bigSep_sep']
  rw [bigSep_univ_equiv xswap (fun c : Dev nD => (dutyTok ER (barCell c) 0 false : sProp 𝕄)),
    bigSep_univ_equiv yswap (fun c : Dev nD => (dutyTok ER (barCell c) 0 true : sProp 𝕄)),
    bigSep_univ_equiv xswap (fun c : Dev nD => (bigSep Finset.univ fun j : Fin 16 => dutyTok ER (rxCell c j) 0 false : sProp 𝕄)),
    bigSep_univ_equiv yswap (fun c : Dev nD => (bigSep Finset.univ fun j : Fin 16 => dutyTok ER (ryCell c j) 0 false : sProp 𝕄))]
  simp only [xswap, yswap, Equiv.coe_fn_mk]
  iintro ⟨⟨H1, H2⟩, H3, H4, H5, H6, H7, H8⟩
  iframe

theorem regroup : (bigSep Finset.univ (G₁ m) : sProp 𝕄) ⊢ bigSep Finset.univ (G' m) := by
  unfold G₁
  rw [bigSep_sep', bigSep_sep', ← bigSep_univ_prod (fun ck : Dev nD × CIx => iprop(∃ κ : ℕ, cellInv ER (Rd m) κ (kcell ck))),
    bigSep_congr (s := Finset.univ) (fun (c : Dev nD) _ => bigSep_sep' Finset.univ (fun k : CIx => (atPos ER (kcell (c, k)) 0 ∅ 0 : sProp 𝕄)) (fun k => reached ER (kcell (c, k)) 0)),
    bigSep_sep', ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER (Rd m) κ (kcell ck) : sProp 𝕄))) $$ HI
  icases HK with ⟨%K, #HI⟩
  ihave Htk := (toks_around (F := F)) $$ Htok
  iapply (BI.bigSep_with_persistent (R := records m K) fun c _ => ghost_intro m K c)
  isplitr
  · unfold records; iframe # ∗
  · iapply (Entails.of_eq (bigSep_sep' Finset.univ (fun c : Dev nD => (positions c : sProp 𝕄)) payToks).symm)
    unfold positions; iframe

theorem glob : (bigSep Finset.univ fun c => iprop(Pipeline.ownSems0 osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

def X (c : Dev nD) : sProp 𝕄 :=
  iprop(start m c ∗ wholeAt c main_arg0 (m _) ∗ wholeAt c main_v1 (m _))
def Y (c : Dev nD) : sProp 𝕄 :=
  iprop(wholeAt c main_arg0 (m _) ∗ wholeAt c main_v1 (OUT m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  iintro ⟨⟨Hx, Hv⟩, Hlev, Hcr, -, HG⟩
  ihave Hc := (creds (F := F) c) $$ Hcr
  imodintro
  unfold X start G' startCreds
  iframe

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ X
  iintro ⟨⟨Hs, Hx, Hv⟩, -, ⟨H0, H1, H2⟩⟩
  iframe

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq]
  unfold Φ₁ Y Pipeline.ownSems0
  iintro ⟨H0, H1, H2, Hs, Hx, Hv⟩
  iframe

theorem waits (c : Dev nD) : (levAts L lv : sProp 𝕄) ⊢ Pipeline.cellsWaits cfgs (dats m) () 0 c :=
  Pipeline.cellsWaits_intro cfgs (dats m) () 0 c fun w s t => w.elim0

/-- The launch theorem for devices that owe at launch, at the proof data `dats`, its post read off the final memory. -/
theorem run_main (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = OUT m c
      ∧ r.2.mem ((c.tc : Thread nD τ).loc main_arg0) = m _) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      iframe)
    (hglob := glob m)
    (hA := fun _ w => w.elim0) (hpf := fun _ k => k.elim0)
    (X := X m) (Y := Y m) (Z := fun _ => iprop(emp))
    (hX := start_intro m ρ) (hin := phi0_intro m) (hout := phi1_exit m)
    (QY := fun c s => s.mem ((c : Thread nD τ).loc main_v1) = OUT m c
      ∧ s.mem ((c : Thread nD τ).loc main_arg0) = m _)
    (hY := fun c s' => by
      unfold Y
      iintro ⟨⟨Hx, Hv⟩, -, HSI⟩
      icombine HSI Hx gives %hx
      icombine HSI Hv gives %hv
      imodintro
      isplitr; · ipureintro; exact ⟨Buf.eq_of_forall_mem_univ hv, Buf.eq_of_forall_mem_univ hx⟩
      iexact HSI)
    (hQ := fun s h c => (h c).2.2)

end Cert.KernelIdealProof

end
-- ==== Proof.BodyDefsKernelIdeal.lean ====
import proofs.«900136_g7700000000000137_dist_ar_v7x_xy2x2_x_m8192_n1024_bf16_1_alg».proof.Proof.GhostKernelIdeal

noncomputable section

namespace Cert.KernelIdealProof

open Cert.KernelIdeal Cert.KernelIdeal.Gen

open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

def posAt (c : Dev nD) (r : ℕ) : sProp 𝕄 :=
  iprop(atPos ER (barCell c) r ∅ 0 ∗ (bigSep Finset.univ fun b : Fin 4 => atPos ER (csCell c b) r ∅ 0)
    ∗ (bigSep Finset.univ fun j : Fin 16 => atPos ER (rsCell c j) r ∅ 0) ∗ (bigSep Finset.univ fun j : Fin 16 => atPos ER (sxCell c j) r ∅ 0)
    ∗ (bigSep Finset.univ fun j : Fin 16 => atPos ER (rxCell c j) r ∅ 0) ∗ (bigSep Finset.univ fun j : Fin 16 => atPos ER (syCell c j) r ∅ 0)
    ∗ (bigSep Finset.univ fun j : Fin 16 => atPos ER (ryCell c j) r ∅ 0))

def rxGive (c : Dev nD) : sProp 𝕄 := bigSep Finset.univ fun j : Fin 16 => iprop(∃ f, piece c (rxC j) fullShare f)
def otGive (c : Dev nD) : sProp 𝕄 := bigSep Finset.univ fun j : Fin 16 => iprop(∃ f, piece c (outOt c j) fullShare f)

def inRestSet (c : Dev nD) : Finset (Idx ((c : Thread nD τ).loc main_arg0)) :=
  Finset.univ \ (Finset.univ : Finset (Fin 4)).biUnion fun b => (inBlk c b).view.set

/-- Before the first step, the buffers cut into the pieces the steps hold; the landing half and the partner's half of the result at whatever they hold. -/
def bodyPre (c : Dev nD) (W : Waits sig Unit)
    (f0 : Buf (Elt F) ((c : Thread nD τ).loc cc0_scratch0)) (f1 : Buf (Elt F) ((c : Thread nD τ).loc cc0_scratch1))
    (fv : Buf (Elt F) ((c : Thread nD τ).loc main_v1)) : sProp 𝕄 :=
  iprop(owes (c : Thread nD τ) (owedUpTo c 34) W ∗ posAt c 0 ∗ payToks c ∗ startCreds c
    ∗ (bigSep Finset.univ fun s : Fin 3 => piece c (slot s) fullShare f0)
    ∗ (bigSep Finset.univ fun j : Fin 16 => piece c (sxC j) fullShare f1)
    ∗ rxGive c
    ∗ (bigSep Finset.univ fun b : Fin 4 => piece c (inBlk c b) fullShare (A m c))
    ∗ (((c : Thread nD τ).loc main_arg0) ↦[inRestSet c]{fullShare} A m c)
    ∗ (bigSep Finset.univ fun j : Fin 16 => piece c (outMe c j) fullShare fv)
    ∗ otGive c)

/-- After the last step: nothing owed, every cell one round on, the result at the all-reduced contents. -/
def bodyPost (c : Dev nD) : sProp 𝕄 :=
  iprop((∃ W, owes (c : Thread nD τ) (owedUpTo c 0) W) ∗ posAt c 1
    ∗ (bigSep Finset.univ fun s : Fin 3 => iprop(∃ f, piece c (slot s) fullShare f))
    ∗ (bigSep Finset.univ fun j : Fin 16 => piece c (sxC j) fullShare (SX2 m c))
    ∗ (bigSep Finset.univ fun j : Fin 16 => piece c (rxC j) fullShare (RX m c))
    ∗ (bigSep Finset.univ fun b : Fin 4 => piece c (inBlk c b) fullShare (A m c))
    ∗ (((c : Thread nD τ).loc main_arg0) ↦[inRestSet c]{fullShare} A m c)
    ∗ (bigSep Finset.univ fun j : Fin 16 => piece c (outMe c j) fullShare (OUT m c))
    ∗ (bigSep Finset.univ fun j : Fin 16 => piece c (outOt c j) fullShare (OUT m c)))

end Cert.KernelIdealProof

end
-- ==== Proof.StepsAKernelIdeal.lean ====
import proofs.«900136_g7700000000000137_dist_ar_v7x_xy2x2_x_m8192_n1024_bf16_1_alg».proof.Proof.TablesKernelIdeal
import proofs.«900136_g7700000000000137_dist_ar_v7x_xy2x2_x_m8192_n1024_bf16_1_alg».proof.Proof.LevelsKernelIdeal

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "𝒱₀" => Variants.none

theorem a_rx_set (j : Fin 16) : (rxC j).view.set = (chunkR j).set := View.set_slice_whole _ _
theorem a_sx_set (j : Fin 16) : (sxC j).view.set = (chunkR j).set := View.set_slice_whole _ _

theorem a_chunk_disjoint (j j' : Fin 16) (h : j ≠ j') : Disjoint (chunkR j).set (chunkR j').set := by
  have hv : j.val ≠ j'.val := fun e => h (Fin.ext e)
  refine Rect.unit_disjoint (0 : Fin 2) ?_
  show 256 * j.val + 256 ≤ 256 * j'.val ∨ 256 * j'.val + 256 ≤ 256 * j.val
  omega

theorem a_chunk_cover : (Finset.univ : Finset S4096x1024.Idx) = Finset.univ.biUnion fun j : Fin 16 => (chunkR j).set := by
  ext i
  simp only [Finset.mem_univ, true_iff, Finset.mem_biUnion, true_and]
  have h0 : (i 0).val < 4096 := (i 0).isLt
  have h1 : (i 1).val < 1024 := (i 1).isLt
  refine ⟨⟨(i 0).val / 256, by omega⟩, ?_⟩
  rw [Rect.mem_set_unit]
  intro a
  match a with
  | ⟨0, _⟩ => show 256 * ((i 0).val / 256) ≤ (i 0).val ∧ (i 0).val < 256 * ((i 0).val / 256) + 256; omega
  | ⟨1, _⟩ => show 0 ≤ (i 1).val ∧ (i 1).val < 0 + 1024; omega

theorem cut_cover {ℓ : Loc nD τ sig} {I : Type} [Fintype I] [DecidableEq I] (S : I → Finset (Idx ℓ))
    (hd : ∀ i i', i ≠ i' → Disjoint (S i) (S i')) (hc : (Finset.univ : Finset (Idx ℓ)) = Finset.univ.biUnion S)
    {q : PosShare TreeShare} (f : Buf (Elt F) ℓ) :
    ((ℓ ↦{q} f : sProp 𝕄)) = bigSep Finset.univ fun i : I => (ℓ ↦[S i]{q} f : sProp 𝕄) := by
  have hb := pointsTo_biUnion (Ix := Unit) (Name := ℕ) (U := UU) (Lvl := ℕ) (ℓ := ℓ) (q := q) (f := f) Finset.univ S (fun i _ i' _ h => hd i i' h)
  rwa [← hc] at hb

theorem join_cover {ℓ : Loc nD τ sig} {I : Type} [Fintype I] [DecidableEq I] [Inhabited I] (S : I → Finset (Idx ℓ))
    (hd : ∀ i i', i ≠ i' → Disjoint (S i) (S i')) (hc : (Finset.univ : Finset (Idx ℓ)) = Finset.univ.biUnion S)
    {q : PosShare TreeShare} :
    (bigSep Finset.univ fun i : I => iprop(∃ f, ℓ ↦[S i]{q} f) : sProp 𝕄) ⊢ iprop(∃ f, ℓ ↦{q} f) := by
  iintro H
  ihave H' := (bigSep_exists_pi (Finset.univ : Finset I) (fun i f => (ℓ ↦[S i]{q} f : sProp 𝕄))) $$ H
  icases H' with ⟨%fs, H⟩
  ihave Hj := (pointsTo_biUnion_join (Ix := Unit) (Name := ℕ) (U := UU) (Lvl := ℕ) (ℓ := ℓ) (q := q)
    Finset.univ S fs (fs default) (fun i _ i' _ h => hd i i' h)) $$ H
  icases Hj with ⟨%g, -, Hg⟩
  rw [← hc]
  iexists g
  iexact Hg

theorem rx_cut (c : Dev nD) {q : PosShare TreeShare} (f : Buf (Elt F) ((c : Thread nD τ).loc cc0_scratch2)) :
    ((((c : Thread nD τ).loc cc0_scratch2) ↦{q} f : sProp 𝕄)) = bigSep Finset.univ fun j : Fin 16 => piece c (rxC j) q f :=
  (cut_cover (ℓ := (c : Thread nD τ).loc cc0_scratch2) (fun j => (chunkR j).set) a_chunk_disjoint a_chunk_cover f).trans
    (bigSep_congr fun j _ => by unfold piece; rw [a_rx_set])

theorem sx_cut (c : Dev nD) {q : PosShare TreeShare} (f : Buf (Elt F) ((c : Thread nD τ).loc cc0_scratch1)) :
    ((((c : Thread nD τ).loc cc0_scratch1) ↦{q} f : sProp 𝕄)) = bigSep Finset.univ fun j : Fin 16 => piece c (sxC j) q f :=
  (cut_cover (ℓ := (c : Thread nD τ).loc cc0_scratch1) (fun j => (chunkR j).set) a_chunk_disjoint a_chunk_cover f).trans
    (bigSep_congr fun j _ => by unfold piece; rw [a_sx_set])

theorem rx_join (c : Dev nD) {q : PosShare TreeShare} :
    (bigSep Finset.univ fun j : Fin 16 => iprop(∃ f, piece c (rxC j) q f) : sProp 𝕄)
      ⊢ iprop(∃ f, ((c : Thread nD τ).loc cc0_scratch2) ↦{q} f) :=
  (Entails.of_eq (bigSep_congr fun j _ => by unfold piece; rw [a_rx_set])).trans
    (join_cover (ℓ := (c : Thread nD τ).loc cc0_scratch2) (fun j => (chunkR j).set) a_chunk_disjoint a_chunk_cover)

theorem sx_join (c : Dev nD) {q : PosShare TreeShare} :
    (bigSep Finset.univ fun j : Fin 16 => iprop(∃ f, piece c (sxC j) q f) : sProp 𝕄)
      ⊢ iprop(∃ f, ((c : Thread nD τ).loc cc0_scratch1) ↦{q} f) :=
  (Entails.of_eq (bigSep_congr fun j _ => by unfold piece; rw [a_sx_set])).trans
    (join_cover (ℓ := (c : Thread nD τ).loc cc0_scratch1) (fun j => (chunkR j).set) a_chunk_disjoint a_chunk_cover)

omit [FloatOps F] in
theorem a_due_bar_x (c : Dev nD) : due c 33 = tallyAt (barCell (xn c)) () 1 := by
  unfold due
  rw [dif_neg (by decide), dif_neg (by decide), if_neg (by decide)]
omit [FloatOps F] in
theorem a_due_bar_y (c : Dev nD) : due c 32 = tallyAt (barCell (yn c)) () 1 := by
  unfold due
  rw [dif_neg (by decide), dif_neg (by decide), if_pos rfl]

theorem barPayX_xn (c : Dev nD) :
    (barPayX (xn c) : sProp 𝕄) = bigSep Finset.univ fun j : Fin 16 => iprop(∃ f, piece c (rxC j) fullShare f) := by
  unfold barPayX
  have h := xn_xn c
  revert h
  generalize xn (xn c) = d
  intro h
  subst h
  rfl

theorem a_outMe_yn (c : Dev nD) (j : Fin 16) : outMe (yn c) j = outOt c j :=
  Memref.slice_unit_congr _
    ((k0_off2_eq (yn c) j).trans ((congrArg (fun x : ℕ => (![x, 0] : Fin 2 → ℕ))
      (by rw [yn_mod]; have := Nat.mod_lt c.val (show 0 < 2 by decide); omega)).trans (k0_off3_eq c j).symm)) _ _ _ _

theorem barPayY_yn (c : Dev nD) :
    (barPayY (yn c) : sProp 𝕄) = bigSep Finset.univ fun j : Fin 16 => iprop(∃ f, piece c (outOt c j) fullShare f) := by
  unfold barPayY
  have h := yn_yn c
  revert h
  generalize yn (yn c) = d
  intro h
  subst h
  exact bigSep_congr fun j _ => by rw [a_outMe_yn]

omit [FloatOps F] in

theorem a_mem_rows {off size : Fin 2 → ℕ} (r0 n : ℕ) (hoff : off = ![r0, 0]) (hsz : size = ![n, 1024])
    (inb : ∀ a, off a + size a ≤ S8192x1024.size a) (i : S8192x1024.Idx) :
    i ∈ (Rect.unit (s := S8192x1024) off size inb).set ↔ r0 ≤ (i 0).val ∧ (i 0).val < r0 + n := by
  subst hoff
  subst hsz
  rw [Rect.mem_set_unit]
  have h1 : (i 1).val < 1024 := (i 1).isLt
  constructor
  · intro h; exact h 0
  · intro h a
    match a with
    | ⟨0, _⟩ => exact h
    | ⟨1, _⟩ => show 0 ≤ (i 1).val ∧ (i 1).val < 0 + 1024; omega

abbrev a_meSet (c : Dev nD) (j : Fin 16) : Finset S8192x1024.Idx := (outMe c j).view.set
abbrev a_otSet (c : Dev nD) (j : Fin 16) : Finset S8192x1024.Idx := (outOt c j).view.set

theorem a_mem_outMe (c : Dev nD) (j : Fin 16) (i : S8192x1024.Idx) :
    i ∈ (outMe c j).view.set ↔ 4096 * (c.val % 2) + 256 * j.val ≤ (i 0).val ∧ (i 0).val < 4096 * (c.val % 2) + 256 * j.val + 256 := by
  rw [show (outMe c j).view.set = _ from View.set_slice_whole _ _]
  exact a_mem_rows _ 256 (k0_off2_eq c j) rfl _ i
theorem a_mem_outOt (c : Dev nD) (j : Fin 16) (i : S8192x1024.Idx) :
    i ∈ (outOt c j).view.set ↔ (256 * j.val + 4096) - 4096 * (c.val % 2) ≤ (i 0).val ∧ (i 0).val < (256 * j.val + 4096) - 4096 * (c.val % 2) + 256 := by
  rw [show (outOt c j).view.set = _ from View.set_slice_whole _ _]
  exact a_mem_rows _ 256 (k0_off3_eq c j) rfl _ i

theorem a_outMe_disjoint (c : Dev nD) (j j' : Fin 16) (h : j ≠ j') : Disjoint (outMe c j).view.set (outMe c j').view.set :=
  Finset.disjoint_left.mpr fun i hi hi' => by
    rw [a_mem_outMe] at hi hi'
    have hv : j.val ≠ j'.val := fun e => h (Fin.ext e)
    omega
theorem a_outOt_disjoint (c : Dev nD) (j j' : Fin 16) (h : j ≠ j') : Disjoint (outOt c j).view.set (outOt c j').view.set :=
  Finset.disjoint_left.mpr fun i hi hi' => by
    rw [a_mem_outOt] at hi hi'
    have hv : j.val ≠ j'.val := fun e => h (Fin.ext e)
    omega
theorem a_outMe_outOt_disjoint (c : Dev nD) :
    Disjoint (Finset.univ.biUnion fun j : Fin 16 => a_meSet c j) (Finset.univ.biUnion fun j : Fin 16 => a_otSet c j) :=
  Finset.disjoint_left.mpr fun i hi hi' => by
    obtain ⟨j, -, hj⟩ := Finset.mem_biUnion.mp hi
    obtain ⟨j', -, hj'⟩ := Finset.mem_biUnion.mp hi'
    rw [a_mem_outMe] at hj
    rw [a_mem_outOt] at hj'
    have := j.isLt; have := j'.isLt
    omega
theorem a_out_cover (c : Dev nD) : (Finset.univ : Finset S8192x1024.Idx)
    = (Finset.univ.biUnion fun j : Fin 16 => a_meSet c j) ∪ (Finset.univ.biUnion fun j : Fin 16 => a_otSet c j) := by
  ext i
  simp only [Finset.mem_univ, true_iff, Finset.mem_union, Finset.mem_biUnion, true_and]
  have h0 : (i 0).val < 8192 := (i 0).isLt
  by_cases h : (i 0).val / 4096 = c.val % 2
  · refine Or.inl ⟨⟨(i 0).val % 4096 / 256, by omega⟩, ?_⟩
    rw [a_mem_outMe]
    show 4096 * (c.val % 2) + 256 * ((i 0).val % 4096 / 256) ≤ (i 0).val
      ∧ (i 0).val < 4096 * (c.val % 2) + 256 * ((i 0).val % 4096 / 256) + 256
    omega
  · refine Or.inr ⟨⟨(i 0).val % 4096 / 256, by omega⟩, ?_⟩
    rw [a_mem_outOt]
    show (256 * ((i 0).val % 4096 / 256) + 4096) - 4096 * (c.val % 2) ≤ (i 0).val
      ∧ (i 0).val < (256 * ((i 0).val % 4096 / 256) + 4096) - 4096 * (c.val % 2) + 256
    have := Nat.mod_lt c.val (show 0 < 2 by decide)
    omega

theorem out_cut (c : Dev nD) {q : PosShare TreeShare} (f : Buf (Elt F) ((c : Thread nD τ).loc main_v1)) :
    ((((c : Thread nD τ).loc main_v1) ↦{q} f : sProp 𝕄))
      = iprop((bigSep Finset.univ fun j : Fin 16 => piece c (outMe c j) q f) ∗ (bigSep Finset.univ fun j : Fin 16 => piece c (outOt c j) q f)) := by
  have hme := pointsTo_biUnion (Ix := Unit) (Name := ℕ) (U := UU) (Lvl := ℕ) (ℓ := (c : Thread nD τ).loc main_v1) (q := q) (f := f)
    (Finset.univ : Finset (Fin 16)) (fun j => a_meSet c j) (fun j _ j' _ h => a_outMe_disjoint c j j' h)
  have hot := pointsTo_biUnion (Ix := Unit) (Name := ℕ) (U := UU) (Lvl := ℕ) (ℓ := (c : Thread nD τ).loc main_v1) (q := q) (f := f)
    (Finset.univ : Finset (Fin 16)) (fun j => a_otSet c j) (fun j _ j' _ h => a_outOt_disjoint c j j' h)
  have hu := pointsTo_union (Ix := Unit) (Name := ℕ) (U := UU) (Lvl := ℕ) (ℓ := (c : Thread nD τ).loc main_v1) (q := q) (f := f) (a_outMe_outOt_disjoint c)
  rw [a_out_cover c, BI.equiv_iff.mp ⟨hu.1, hu.2⟩, hme, hot]

abbrev a_slotR (s : Fin 3) : Rect S3x1024x1024 := Rect.unit (s := S3x1024x1024) ![s.val, 0, 0] S1x1024x1024.size (slot_inb s)

theorem a_slot_set (s : Fin 3) : (slot s).view.set = (a_slotR s).set :=
  (View.set_reshape _ _).trans (View.set_slice_whole _ _)

theorem a_mem_slotR (s : Fin 3) (i : S3x1024x1024.Idx) : i ∈ (a_slotR s).set ↔ (i 0).val = s.val := by
  rw [Rect.mem_set_unit]
  have h1 : (i 1).val < 1024 := (i 1).isLt
  have h2 : (i 2).val < 1024 := (i 2).isLt
  constructor
  · intro h
    have h0 : s.val ≤ (i 0).val ∧ (i 0).val < s.val + 1 := h 0
    omega
  · intro h a
    match a with
    | ⟨0, _⟩ => show s.val ≤ (i 0).val ∧ (i 0).val < s.val + 1; omega
    | ⟨1, _⟩ => show 0 ≤ (i 1).val ∧ (i 1).val < 0 + 1024; omega
    | ⟨2, _⟩ => show 0 ≤ (i 2).val ∧ (i 2).val < 0 + 1024; omega

theorem a_slot_disjoint (s s' : Fin 3) (h : s ≠ s') : Disjoint (a_slotR s).set (a_slotR s').set :=
  Finset.disjoint_left.mpr fun i hi hi' => by
    rw [a_mem_slotR] at hi hi'
    exact h (Fin.ext (hi.symm.trans hi'))

theorem a_slot_cover : (Finset.univ : Finset S3x1024x1024.Idx) = Finset.univ.biUnion fun s : Fin 3 => (a_slotR s).set := by
  ext i
  simp only [Finset.mem_univ, true_iff, Finset.mem_biUnion, true_and]
  exact ⟨⟨(i 0).val, (i 0).isLt⟩, (a_mem_slotR _ i).mpr rfl⟩

theorem st_cut (c : Dev nD) {q : PosShare TreeShare} (f : Buf (Elt F) ((c : Thread nD τ).loc cc0_scratch0)) :
    ((((c : Thread nD τ).loc cc0_scratch0) ↦{q} f : sProp 𝕄)) = bigSep Finset.univ fun s : Fin 3 => piece c (slot s) q f :=
  (cut_cover (ℓ := (c : Thread nD τ).loc cc0_scratch0) (fun s => (a_slotR s).set) a_slot_disjoint a_slot_cover f).trans
    (bigSep_congr fun s _ => by unfold piece; rw [a_slot_set])

theorem st_join (c : Dev nD) {q : PosShare TreeShare} :
    (bigSep Finset.univ fun s : Fin 3 => iprop(∃ f, piece c (slot s) q f) : sProp 𝕄)
      ⊢ iprop(∃ f, ((c : Thread nD τ).loc cc0_scratch0) ↦{q} f) :=
  (Entails.of_eq (bigSep_congr fun s _ => by unfold piece; rw [a_slot_set])).trans
    (join_cover (ℓ := (c : Thread nD τ).loc cc0_scratch0) (fun s => (a_slotR s).set) a_slot_disjoint a_slot_cover)

theorem a_mem_inBlk (c : Dev nD) (b : Fin 4) (i : S8192x1024.Idx) :
    i ∈ (inBlk c b).view.set ↔ 4096 * (c.val % 2) + 1024 * b.val ≤ (i 0).val ∧ (i 0).val < 4096 * (c.val % 2) + 1024 * b.val + 1024 := by
  rw [show (inBlk c b).view.set = _ from View.set_slice_whole _ _]
  exact a_mem_rows _ 1024 (k0_off1_eq c b) rfl _ i

theorem a_inBlk_disjoint (c : Dev nD) (b b' : Fin 4) (h : b ≠ b') : Disjoint (inBlk c b).view.set (inBlk c b').view.set :=
  Finset.disjoint_left.mpr fun i hi hi' => by
    rw [a_mem_inBlk] at hi hi'
    have hv : b.val ≠ b'.val := fun e => h (Fin.ext e)
    omega

abbrev inRest (c : Dev nD) : Finset S8192x1024.Idx := Finset.univ \ Finset.univ.biUnion fun b : Fin 4 => (inBlk c b).view.set

theorem in_cut (c : Dev nD) {q : PosShare TreeShare} (f : Buf (Elt F) ((c : Thread nD τ).loc main_arg0)) :
    ((((c : Thread nD τ).loc main_arg0) ↦{q} f : sProp 𝕄))
      = iprop((bigSep Finset.univ fun b : Fin 4 => piece c (inBlk c b) q f) ∗ (((c : Thread nD τ).loc main_arg0) ↦[inRest c]{q} f)) := by
  have hb := pointsTo_biUnion (Ix := Unit) (Name := ℕ) (U := UU) (Lvl := ℕ) (ℓ := (c : Thread nD τ).loc main_arg0) (q := q) (f := f)
    (Finset.univ : Finset (Fin 4)) (fun b => (inBlk c b).view.set) (fun b _ b' _ h => a_inBlk_disjoint c b b' h)
  have hs := pointsTo_split_subset (Ix := Unit) (Name := ℕ) (U := UU) (Lvl := ℕ) (ℓ := (c : Thread nD τ).loc main_arg0) (q := q) (f := f)
    (Finset.subset_univ (Finset.univ.biUnion fun b : Fin 4 => (inBlk c b).view.set))
  rw [BI.equiv_iff.mp ⟨hs.1, hs.2⟩, hb]

end Cert.KernelIdealProof

end
-- ==== Proof.StepsBKernelIdeal.lean ====
import proofs.«900136_g7700000000000137_dist_ar_v7x_xy2x2_x_m8192_n1024_bf16_1_alg».proof.Proof.TablesKernelIdeal
import proofs.«900136_g7700000000000137_dist_ar_v7x_xy2x2_x_m8192_n1024_bf16_1_alg».proof.Proof.LevelsKernelIdeal

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ
local notation "𝒱₀" => Variants.none

variable (m : (ℓ : Loc nD τ sig) → Buf (Elt F) ℓ)

omit [FloatOps F] in

theorem due_rx (c : Dev nD) (j : Fin 16) : due c (31 - j.val) = tallyAt (rxCell (xn c) j) () NV := by
  have hj := j.isLt
  unfold due
  rw [dif_neg (by omega), dif_pos (by omega)]
  exact congrArg (fun x => tallyAt (rxCell (xn c) x) () NV) (Fin.ext (by show 31 - (31 - j.val) = j.val; omega))

theorem landed_chunk (j : Fin 16) (t : Dev nD)
    (fd : Buf (Elt F) ((rxC j).view.loc (t : Thread nD τ)))
    (fs : S4096x1024.Idx → F .bf16) :
    (piece t (rxC j) fullShare
        ((rxC j).view.write (Elt F) fd
          ((sxC j).view.read (Elt F) fs) Finset.univ) : sProp 𝕄)
      = piece t (rxC j) fullShare fs := by
  refine pointsTo_congr fun i hi => ?_
  obtain ⟨y, rfl⟩ := View.exists_emb_of_mem_set _ hi
  rw [View.write_emb_of_mem _ _ (Finset.mem_univ y), View.read_apply]
  rfl

omit [FloatOps F] in

theorem slot_emb (s : Fin 3) (y : S1024x1024.Idx) :
    (slot s).view.emb y = ix3 (n0 := 3) (n1 := 1024) (n2 := 1024) s (y 0) (y 1) := by
  have hk : Shape.reshapeEquiv (squeezes_S1x1024x1024_S1024x1024).numel_eq y
      = ix3 (n0 := 1) (n1 := 1024) (n2 := 1024) ⟨0, Nat.one_pos⟩ (y 0) (y 1) :=
    Shape.reshapeEquiv_eq_of_rowMajor _ (by
      rw [Shape.rowMajor_val_three, Shape.rowMajor_val_two]
      show (0 * 1024 + (y 0).val) * 1024 + (y 1).val = (y 0).val * 1024 + (y 1).val
      omega)
  show (Rect.unit (s := S3x1024x1024) ![s.val, 0, 0] S1x1024x1024.size (slot_inb s)).emb (Shape.reshapeEquiv _ y) = _
  rw [hk]
  funext a
  apply Fin.ext
  match a with
  | ⟨0, _⟩ => show s.val + 1 * 0 = s.val; omega
  | ⟨1, _⟩ => show 0 + 1 * (y 0).val = (y 0).val; omega
  | ⟨2, _⟩ => show 0 + 1 * (y 1).val = (y 1).val; omega

omit [FloatOps F] in

theorem inBlk_emb (c : Dev nD) (b : Fin 4) (y : S1024x1024.Idx) :
    (inBlk c b).view.emb y
      = ix2 (n0 := 8192) (n1 := 1024) ⟨4096 * (c.val % 2) + 1024 * b.val + (y 0).val, by
          have h1 : (y 0).val < 1024 := (y 0).isLt
          have := b.isLt; have := Nat.mod_lt c.val (show 0 < 2 by decide); omega⟩ (y 1) := by
  show (Rect.unit (s := S8192x1024) (k0_off1 c (BitVec.ofNat 32 (1024 * b.val))) S1024x1024.size (k0_off1_inb c b)).emb y = _
  funext a
  apply Fin.ext
  match a with
  | ⟨0, _⟩ =>
    show (k0_off1 c (BitVec.ofNat 32 (1024 * b.val))) 0 + 1 * (y 0).val = 4096 * (c.val % 2) + 1024 * b.val + (y 0).val
    rw [k0_off1_eq]
    show 4096 * (c.val % 2) + 1024 * b.val + 1 * (y 0).val = _
    omega
  | ⟨1, _⟩ =>
    show (k0_off1 c (BitVec.ofNat 32 (1024 * b.val))) 1 + 1 * (y 1).val = (y 1).val
    rw [k0_off1_eq]
    show 0 + 1 * (y 1).val = _
    omega

theorem staged (c : Dev nD) (b : Fin 4)
    (fd : Buf (Elt F) ((slot (slotOf b)).view.loc (c : Thread nD τ))) :
    (piece c (slot (slotOf b)) fullShare
        ((slot (slotOf b)).view.write (Elt F) fd
          ((inBlk c b).view.read (Elt F) (A m c)) Finset.univ) : sProp 𝕄)
      = piece c (slot (slotOf b)) fullShare (XST m c b) := by
  refine pointsTo_congr fun i hi => ?_
  obtain ⟨y, rfl⟩ := View.exists_emb_of_mem_set _ hi
  rw [View.write_emb_of_mem _ _ (Finset.mem_univ y), View.read_apply]
  refine Eq.trans (b := A m c ((inBlk c b).view.emb y)) rfl ?_
  rw [inBlk_emb, slot_emb]
  rfl

omit [FloatOps F] in

theorem lv_cs (c : Dev nD) (b : Fin 4) : lv ((c : Thread nD τ), .dma (csS b)) () = 0 := by
  have := b.isLt
  show (if 36 ≤ b.val ∧ b.val < 52 then 2 else if 68 ≤ b.val then 3 else 0) = 0
  rw [if_neg (by omega), if_neg (by omega)]

def nrBlk (j : Fin 16) : Fin 4 := ⟨j.val / 4, by have := j.isLt; omega⟩

theorem nr_inb (j : Fin 16) :
    ∀ a, (![(slotOf (nrBlk j)).val, 256 * (j.val % 4), 0] : Fin 3 → Nat) a + S1x256x1024.size a ≤ S3x1024x1024.size a := by
  have h3 := (slotOf (nrBlk j)).isLt
  have h4 := Nat.mod_lt j.val (show 0 < 4 by decide)
  intro a
  match a with
  | ⟨0, _⟩ => show (slotOf (nrBlk j)).val + 1 ≤ 3; omega
  | ⟨1, _⟩ => show 256 * (j.val % 4) + 256 ≤ 1024; omega
  | ⟨2, _⟩ => show 0 + 1024 ≤ 1024; omega

abbrev nrR (j : Fin 16) : Rect S3x1024x1024 :=
  Rect.unit (s := S3x1024x1024) ![(slotOf (nrBlk j)).val, 256 * (j.val % 4), 0] S1x256x1024.size (nr_inb j)

def nrPay (v : Vec F S1x256x1024 .f32) : FVec F S256x1024 .bf16 :=
  shapeCast S256x1024 (truncf .bf16 (shapeCast S256x1024 v shapeCasts_S1x256x1024_S256x1024) bitsLt_bf16_f32)
    shapeCasts_S256x1024_S256x1024

omit [FloatOps F] in

theorem nr_sub_slot (j : Fin 16) :
    (stB).view.setOn (nrR j).toLoadRect.set
      ⊆ (slot (slotOf (nrBlk j)) : Memref sig .tc .vmem S1024x1024 .f32).view.set := by
  intro i hi
  obtain ⟨x, hx, rfl⟩ := Finset.mem_map.mp hi
  have hset : (slot (slotOf (nrBlk j)) : Memref sig .tc .vmem S1024x1024 .f32).view.set
      = (Rect.unit (s := S3x1024x1024) ![(slotOf (nrBlk j)).val, 0, 0] S1x1024x1024.size (slot_inb (slotOf (nrBlk j)))).set := by
    exact (View.set_reshape _ _).trans (View.set_slice_whole _ _)
  rw [hset]
  show x ∈ _
  rw [Rect.mem_set_unit] at hx ⊢
  have h4 := Nat.mod_lt j.val (show 0 < 4 by decide)
  intro a
  match a with
  | ⟨0, _⟩ =>
    have h := hx ⟨0, by decide⟩
    change (slotOf (nrBlk j)).val ≤ (x 0).val ∧ (x 0).val < (slotOf (nrBlk j)).val + 1 at h
    show (slotOf (nrBlk j)).val ≤ (x 0).val ∧ (x 0).val < (slotOf (nrBlk j)).val + 1
    exact h
  | ⟨1, _⟩ =>
    have h := hx ⟨1, by decide⟩
    change 256 * (j.val % 4) ≤ (x 1).val ∧ (x 1).val < 256 * (j.val % 4) + 256 at h
    show 0 ≤ (x 1).val ∧ (x 1).val < 0 + 1024
    omega
  | ⟨2, _⟩ =>
    have h := hx ⟨2, by decide⟩
    change 0 ≤ (x 2).val ∧ (x 2).val < 0 + 1024 at h
    show 0 ≤ (x 2).val ∧ (x 2).val < 0 + 1024
    exact h

omit [FloatOps F] in

theorem chunk_sub (j : Fin 16) :
    (sxB).view.setOn (chunkR j).toLoadRect.set
      ⊆ (sxC j).view.set := by
  intro i hi
  obtain ⟨x, hx, rfl⟩ := Finset.mem_map.mp hi
  have hset : (sxC j).view.set = (chunkR j).set := View.set_slice_whole _ _
  rw [hset]
  exact hx

theorem wp_narrow_load1 (c : Dev nD) (j : Fin 16)
    {h1 : (stB).view.LoadsAt (nrR j).toLoadRect}
    {α : Type} {Q : α → sProp 𝕄} {k : ((nrR j).toLoadRect.shape.Idx → Elt F .f32) → Prog (TpuEff nD τ sig (Elt F) Λ₀ .tc) α}
    (f : Buf (Elt F) ((slot (slotOf (nrBlk j)) : Memref sig .tc .vmem S1024x1024 .f32).view.loc (c : Thread nD τ))) :
    (piece c (slot (slotOf (nrBlk j))) fullShare f : sProp 𝕄)
      ⊢ iprop((piece c (slot (slotOf (nrBlk j))) fullShare f
            -∗ WPc c
                (k ((stB).view.readAt (Elt F) (nrR j).toLoadRect f)) Q)
          -∗ WPc c (.op (.load stB (nrR j).toLoadRect h1) k) Q) :=
  wp_load 𝒱₀ (c : Thread nD τ) none Set.univ (m := stB) (nr_sub_slot j)

theorem wp_narrow_load2 (c : Dev nD) (j : Fin 16)
    {h2 : (sxB).view.LoadsAt (chunkR j).toLoadRect}
    {α : Type} {Q : α → sProp 𝕄} {k : ((chunkR j).toLoadRect.shape.Idx → Elt F .bf16) → Prog (TpuEff nD τ sig (Elt F) Λ₀ .tc) α}
    (f : Buf (Elt F) ((sxC j).view.loc (c : Thread nD τ))) :
    (piece c (sxC j) fullShare f : sProp 𝕄)
      ⊢ iprop((piece c (sxC j) fullShare f
            -∗ WPc c
                (k ((sxB).view.readAt (Elt F) (chunkR j).toLoadRect f)) Q)
          -∗ WPc c (.op (.load sxB (chunkR j).toLoadRect h2) k) Q) :=
  wp_load 𝒱₀ (c : Thread nD τ) none Set.univ (m := sxB) (chunk_sub j)

theorem wp_narrow_store (c : Dev nD) (j : Fin 16) (w : (chunkR j).shape.Idx → Elt F .bf16)
    {hst : ((sxB).access (chunkR j)).Stores Finset.univ}
    {hm : (Finset.univ : Finset (chunkR j).shape.Idx) = Finset.univ ∨ ∀ a, (chunkR j).stride a = 1}
    {α : Type} {Q : α → sProp 𝕄} {k : PUnit → Prog (TpuEff nD τ sig (Elt F) Λ₀ .tc) α}
    (f : Buf (Elt F) ((sxC j).view.loc (c : Thread nD τ))) :
    (piece c (sxC j) fullShare f : sProp 𝕄)
      ⊢ iprop((piece c (sxC j) fullShare ((sxC j).view.write (Elt F) f w Finset.univ)
            -∗ WPc c (k ⟨⟩) Q)
          -∗ WPc c
              (.op (.store sxB (chunkR j) w Finset.univ hst hm) k) Q) :=
  wp_store 𝒱₀ (c : Thread nD τ) none Set.univ (m := sxB) (r := chunkR j) (Mk := Finset.univ) (Finset.subset_of_eq (View.setOn_univ _))

theorem narrow_val (c : Dev nD) (j : Fin 16)
    (f : Buf (Elt F) ((sxC j).view.loc (c : Thread nD τ))) :
    (piece c (sxC j) fullShare
        ((sxC j).view.write (Elt F) f
          (nrPay ((stB).view.readAt (Elt F) (nrR j).toLoadRect (XST m c (nrBlk j))))
          Finset.univ) : sProp 𝕄)
      = piece c (sxC j) fullShare (SX1 m c) := by
  refine pointsTo_congr fun i hi => ?_
  obtain ⟨y, rfl⟩ := View.exists_emb_of_mem_set _ hi
  rw [View.write_emb_of_mem _ _ (Finset.mem_univ y)]
  refine Eq.trans (b := nrPay ((stB).view.readAt (Elt F) (nrR j).toLoadRect (XST m c (nrBlk j))) y) rfl ?_
  unfold nrPay
  rw [shapeCast_self]
  show FloatOps.truncf .bf16 bitsLt_bf16_f32 (shapeCast S256x1024 _ shapeCasts_S1x256x1024_S256x1024 y) = _
  rw [shapeCast_apply _ _ y (ix3 (n0 := 1) (n1 := 256) (n2 := 1024) ⟨0, Nat.one_pos⟩ (y 0) (y 1)) (by
    rw [Shape.rowMajor_val_three, Shape.rowMajor_val_two]
    show (0 * 256 + (y 0).val) * 1024 + (y 1).val = (y 0).val * 1024 + (y 1).val
    omega)]
  show FloatOps.truncf .bf16 _ (A m c _) = FloatOps.truncf .bf16 _ (A m c _)
  refine congrArg _ (congrArg (A m c) (Shape.idx_ext₂ ?_ ?_))
  · show 4096 * (c.val % 2) + 1024 * (j.val / 4) + (256 * (j.val % 4) + 1 * (y 0).val) = 4096 * (c.val % 2) + (256 * j.val + 1 * (y 0).val)
    omega
  · show 0 + 1 * (y 1).val = 0 + 1 * (y 1).val
    rfl

end Cert.KernelIdealProof

end
-- ==== Proof.StepsCKernelIdeal.lean ====
import proofs.«900136_g7700000000000137_dist_ar_v7x_xy2x2_x_m8192_n1024_bf16_1_alg».proof.Proof.TablesKernelIdeal
import proofs.«900136_g7700000000000137_dist_ar_v7x_xy2x2_x_m8192_n1024_bf16_1_alg».proof.Proof.LevelsKernelIdeal

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

theorem NH_eq_NV (c : Dev nD) : NH c = NV := rfl

theorem due_ry (c : Dev nD) (j : Fin 16) (k : ℕ) (hk : k = 15 - j.val) : due c k = tallyAt (ryCell (yn c) j) () (NH c) := by
  have hj := j.isLt
  unfold due
  rw [dif_pos (show k < 16 by omega)]
  exact congrArg (fun x => tallyAt (ryCell (yn c) x) () (NH c)) (Fin.ext (by show 15 - k = j.val; omega))

namespace StepsC

theorem amt_outMe (c : Dev nD) (j : Fin 16) (sm : DmaSem sig) : (outMe c j).view.amount (.dma sm) = NH c := rfl
theorem amt_outOt (c : Dev nD) (j : Fin 16) (sm : DmaSem sig) : (outOt c j).view.amount (.dma sm) = NH c := rfl
theorem amt_rxC (j : Fin 16) (sm : DmaSem sig) : (rxC j).view.amount (.dma sm) = NV := rfl
theorem amt_sxC (j : Fin 16) (sm : DmaSem sig) : (sxC j).view.amount (.dma sm) = NV := rfl

theorem write_univ_congr {sg : RefSig} {κ : Idealize.ShloMosaic.Kind} {sp : Space} {s : Shape} {e : EltTy} {Val : EltTy → Type}
    (v : View sg κ sp s e) (fd : v.ty.Contents Val) (w : s.Idx → Val e) (g : v.ty.Contents Val)
    (h : ∀ y : s.Idx, _root_.cast (congrArg Val v.elt_eq.symm) (w y) = g (v.emb y)) :
    ∀ i ∈ v.set, v.write Val fd w Finset.univ i = g i := by
  intro i hi
  obtain ⟨y, rfl⟩ := View.exists_emb_of_mem_set v hi
  rw [View.write_emb_of_mem _ _ (Finset.mem_univ y)]
  exact h y

section Coords
variable (c : Dev nD) (j : Fin 16) (y : S256x1024.Idx)

theorem sxC_emb_0 : (((sxC j).view.emb y : S4096x1024.Idx) 0).val = 256 * j.val + (y 0).val := by
  show 256 * j.val + 1 * (y 0).val = _; omega
theorem sxC_emb_1 : (((sxC j).view.emb y : S4096x1024.Idx) 1).val = (y 1).val := by
  show 0 + 1 * (y 1).val = _; omega
theorem rxC_emb_eq : ((rxC j).view.emb y : S4096x1024.Idx) = ((sxC j).view.emb y : S4096x1024.Idx) := rfl

theorem outMe_emb_0 : (((outMe c j).view.emb y : S8192x1024.Idx) 0).val = 4096 * (c.val % 2) + 256 * j.val + (y 0).val := by
  show (k0_off2 c (BitVec.ofNat 32 (256 * j.val))) 0 + 1 * (y 0).val = _
  rw [k0_off2_eq c j]
  show 4096 * (c.val % 2) + 256 * j.val + 1 * (y 0).val = _
  omega
theorem outMe_emb_1 : (((outMe c j).view.emb y : S8192x1024.Idx) 1).val = (y 1).val := by
  show (k0_off2 c (BitVec.ofNat 32 (256 * j.val))) 1 + 1 * (y 1).val = _
  rw [k0_off2_eq c j]
  show 0 + 1 * (y 1).val = _
  omega

theorem low_outMe : low ((outMe c j).view.emb y : S8192x1024.Idx) = ((sxC j).view.emb y : S4096x1024.Idx) := by
  have hj := j.isLt
  have hy := idx2_lt0 y
  have hc := Nat.mod_lt c.val (show 0 < 2 by decide)
  funext a
  match a with
  | ⟨0, _⟩ =>
    refine Fin.ext ?_
    show (((outMe c j).view.emb y : S8192x1024.Idx) 0).val % 4096 = (((sxC j).view.emb y : S4096x1024.Idx) 0).val
    rw [outMe_emb_0, sxC_emb_0]; omega
  | ⟨1, _⟩ =>
    refine Fin.ext ?_
    show (((outMe c j).view.emb y : S8192x1024.Idx) 1).val = (((sxC j).view.emb y : S4096x1024.Idx) 1).val
    rw [outMe_emb_1, sxC_emb_1]

theorem outMe_half : (((outMe c j).view.emb y : S8192x1024.Idx) 0).val / 4096 = c.val % 2 := by
  have hj := j.isLt
  have hy := idx2_lt0 y
  have hc := Nat.mod_lt c.val (show 0 < 2 by decide)
  rw [outMe_emb_0]; omega

theorem OUT_yn_outMe : OUT m (yn c) ((outMe c j).view.emb y : S8192x1024.Idx) = SX2 m c ((sxC j).view.emb y : S4096x1024.Idx) := by
  have hc := Nat.mod_lt c.val (show 0 < 2 by decide)
  have hne : ¬ (((outMe c j).view.emb y : S8192x1024.Idx) 0).val / 4096 = (yn c).val % 2 := by
    rw [outMe_half, yn_mod]; omega
  show (if (((outMe c j).view.emb y : S8192x1024.Idx) 0).val / 4096 = (yn c).val % 2 then _ else _) = _
  rw [if_neg hne, yn_yn, low_outMe]

theorem OUT_outMe : OUT m c ((outMe c j).view.emb y : S8192x1024.Idx) = SX2 m c ((sxC j).view.emb y : S4096x1024.Idx) := by
  show (if (((outMe c j).view.emb y : S8192x1024.Idx) 0).val / 4096 = c.val % 2 then _ else _) = _
  rw [if_pos (outMe_half c j y), low_outMe]

end Coords

theorem off2_eq_off3 (c : Dev nD) (j : Fin 16) :
    k0_off2 c (BitVec.ofNat 32 (256 * j.val)) = k0_off3 (yn c) (BitVec.ofNat 32 (256 * j.val)) := by
  have hc := Nat.mod_lt c.val (show 0 < 2 by decide)
  rw [k0_off2_eq c j, k0_off3_eq (yn c) j, yn_mod]
  exact congrArg (fun a : ℕ => (![a, 0] : Fin 2 → ℕ)) (by omega)

theorem outMe_set_eq (c : Dev nD) (j : Fin 16) :
    (outMe c j).view.set = (outOt (yn c) j).view.set :=
  (View.set_slice_whole main_v1 _).trans
    ((congrArg (fun r : Rect S8192x1024 => r.set) (Rect.unit_congr (off2_eq_off3 c j) (k0_off2_inb c j) (k0_off3_inb (yn c) j))).trans (View.set_slice_whole main_v1 _).symm)

theorem send_y_pay (c : Dev nD) (j : Fin 16) (fd : Buf (Elt F) ((outMe c j).view.loc (yn c : Thread nD τ))) :
    ((outMe c j).view.loc (yn c : Thread nD τ) ↦[(outMe c j).view.set]{fullShare}
        ((outMe c j).view.write (Elt F) fd ((sxC j).view.read (Elt F) (SX2 m c)) Finset.univ) : sProp 𝕄)
      ⊢ ryPay m (yn c) j := by
  have key := write_univ_congr (Val := Elt F) (outMe c j).view
    fd ((sxC j).view.read (Elt F) (SX2 m c)) (OUT m (yn c)) (fun y => by
      rw [View.read_apply, cast_cast, cast_eq]
      exact (OUT_yn_outMe m c j y).symm)
  unfold ryPay
  rw [pointsTo_congr key, outMe_set_eq]

theorem copy_out_pay (c : Dev nD) (j : Fin 16) (fd : Buf (Elt F) ((outMe c j).view.loc (c : Thread nD τ))) :
    iprop(((outMe c j).view.loc (c : Thread nD τ) ↦[(outMe c j).view.set]{fullShare}
        ((outMe c j).view.write (Elt F) fd ((sxC j).view.read (Elt F) (SX2 m c)) Finset.univ))
        ∗ ((sxC j).view.loc (c : Thread nD τ) ↦[(sxC j).view.set]{fullShare.right} SX2 m c) : sProp 𝕄)
      ⊢ rsPay m c j := by
  have key := write_univ_congr (Val := Elt F) (outMe c j).view
    fd ((sxC j).view.read (Elt F) (SX2 m c)) (OUT m c) (fun y => by
      rw [View.read_apply, cast_cast, cast_eq]
      exact (OUT_outMe m c j y).symm)
  unfold rsPay
  rw [pointsTo_congr key]

end StepsC
open StepsC

namespace StepsC

theorem lvC_rs (c : Dev nD) (j : Fin 16) : lv ((c : Thread nD τ), .dma (rsS j)) () = 0 := by
  have hj := j.isLt
  show (if 36 ≤ 4 + j.val ∧ 4 + j.val < 52 then 2 else if 68 ≤ 4 + j.val then 3 else 0) = 0
  rw [if_neg (by omega), if_neg (by omega)]
theorem lvC_sx (c : Dev nD) (j : Fin 16) : lv ((c : Thread nD τ), .dma (sxS j)) () = 0 := by
  have hj := j.isLt
  show (if 36 ≤ 20 + j.val ∧ 20 + j.val < 52 then 2 else if 68 ≤ 20 + j.val then 3 else 0) = 0
  rw [if_neg (by omega), if_neg (by omega)]
theorem lvC_sy (c : Dev nD) (j : Fin 16) : lv ((c : Thread nD τ), .dma (syS j)) () = 0 := by
  have hj := j.isLt
  show (if 36 ≤ 52 + j.val ∧ 52 + j.val < 52 then 2 else if 68 ≤ 52 + j.val then 3 else 0) = 0
  rw [if_neg (by omega), if_neg (by omega)]

end StepsC

theorem split_half (c : Dev nD) (j : Fin 16) (f : Buf (Elt F) ((sxC j).view.loc (c : Thread nD τ))) :
    (piece c (sxC j) fullShare f : sProp 𝕄) ⊢ iprop(piece c (sxC j) fullShare.left f ∗ piece c (sxC j) fullShare.right f) :=
  (pointsTo_share (PosShare.mem_left_op_right fullShare)).1
theorem join_half (c : Dev nD) (j : Fin 16) (f : Buf (Elt F) ((sxC j).view.loc (c : Thread nD τ))) :
    iprop(piece c (sxC j) fullShare.left f ∗ piece c (sxC j) fullShare.right f) ⊢ (piece c (sxC j) fullShare f : sProp 𝕄) :=
  (pointsTo_share (PosShare.mem_left_op_right fullShare)).2

theorem wp_sum_load_sx (c : Dev nD) (j : Fin 16) {hl : (sxB).view.LoadsAt (chunkR j).toLoadRect}
    {α : Type} {Q : α → sProp 𝕄} {k : ((chunkR j).toLoadRect.shape.Idx → Elt F .bf16) → Prog (TpuEff nD τ sig (Elt F) Λ₀ .tc) α}
    (q : PosShare TreeShare) (f : Buf (Elt F) ((sxC j).view.loc (c : Thread nD τ))) :
    (piece c (sxC j) q f : sProp 𝕄)
      ⊢ iprop((piece c (sxC j) q f -∗ WPc c
              (k ((sxC j).view.read (Elt F) f)) Q)
          -∗ WPc c (.op (.load sxB (chunkR j).toLoadRect hl) k) Q) :=
  wp_load Variants.none (c : Thread nD τ) none Set.univ (m := (sxB)) (r := (chunkR j).toLoadRect)
    (S := (sxC j).view.set) (q := q) (f := f)
    (View.set_slice (sxB).view (chunkR j)).symm.subset

theorem wp_sum_load_rx (c : Dev nD) (j : Fin 16) {hl : (rxB).view.LoadsAt (chunkR j).toLoadRect}
    {α : Type} {Q : α → sProp 𝕄} {k : ((chunkR j).toLoadRect.shape.Idx → Elt F .bf16) → Prog (TpuEff nD τ sig (Elt F) Λ₀ .tc) α}
    (q : PosShare TreeShare) (f : Buf (Elt F) ((rxC j).view.loc (c : Thread nD τ))) :
    (piece c (rxC j) q f : sProp 𝕄)
      ⊢ iprop((piece c (rxC j) q f -∗ WPc c
              (k ((rxC j).view.read (Elt F) f)) Q)
          -∗ WPc c (.op (.load rxB (chunkR j).toLoadRect hl) k) Q) :=
  wp_load Variants.none (c : Thread nD τ) none Set.univ (m := (rxB)) (r := (chunkR j).toLoadRect)
    (S := (rxC j).view.set) (q := q) (f := f)
    (View.set_slice (rxB).view (chunkR j)).symm.subset

theorem wp_sum_store (c : Dev nD) (j : Fin 16) {w : (chunkR j).shape.Idx → Elt F .bf16}
    {hx : ((sxB).access (chunkR j)).Stores Finset.univ}
    {hm : (Finset.univ : Finset (chunkR j).shape.Idx) = Finset.univ ∨ ∀ a, (chunkR j).stride a = 1}
    {α : Type} {Q : α → sProp 𝕄} {k : PUnit → Prog (TpuEff nD τ sig (Elt F) Λ₀ .tc) α}
    (f : Buf (Elt F) ((sxC j).view.loc (c : Thread nD τ))) :
    (piece c (sxC j) fullShare f : sProp 𝕄)
      ⊢ iprop((piece c (sxC j) fullShare ((sxC j).view.write (Elt F) f w Finset.univ)
              -∗ WPc c (k ⟨⟩) Q)
          -∗ WPc c (.op (.store sxB (chunkR j) w Finset.univ hx hm) k) Q) :=
  wp_store Variants.none (c : Thread nD τ) none Set.univ (m := (sxB)) (r := chunkR j) (Mk := Finset.univ)
    (S := (sxC j).view.set) (f := f) (Finset.Subset.refl _)

theorem sum_val (c : Dev nD) (j : Fin 16) :
    (piece c (sxC j) fullShare ((sxC j).view.write (Elt F) (SX1 m c)
        (shapeCast S256x1024 (addf ((sxC j).view.read (Elt F) (SX1 m c))
          ((rxC j).view.read (Elt F) (RX m c))) shapeCasts_S256x1024_S256x1024) Finset.univ) : sProp 𝕄)
      = piece c (sxC j) fullShare (SX2 m c) :=
  pointsTo_congr (write_univ_congr (Val := Elt F) (sxC j).view (SX1 m c) _ (SX2 m c) fun y => by
    rw [shapeCast_self, cast_eq]
    show FloatOps.addf ((sxC j).view.read (Elt F) (SX1 m c) y)
        ((rxC j).view.read (Elt F) (RX m c) y)
      = FloatOps.addf (SX1 m c ((sxC j).view.emb y)) (RX m c ((sxC j).view.emb y))
    rw [View.read_apply, View.read_apply, cast_eq, cast_eq]
    rfl)

end Cert.KernelIdealProof
end
-- ==== Proof.StepsRKernelIdeal.lean ====
import proofs.«900136_g7700000000000137_dist_ar_v7x_xy2x2_x_m8192_n1024_bf16_1_alg».proof.Proof.StepsAKernelIdeal
import proofs.«900136_g7700000000000137_dist_ar_v7x_xy2x2_x_m8192_n1024_bf16_1_alg».proof.Proof.StepsBKernelIdeal
import proofs.«900136_g7700000000000137_dist_ar_v7x_xy2x2_x_m8192_n1024_bf16_1_alg».proof.Proof.StepsCKernelIdeal
import proofs.«900136_g7700000000000137_dist_ar_v7x_xy2x2_x_m8192_n1024_bf16_1_alg».proof.Proof.RegroupKernelIdeal

noncomputable section

namespace Cert.KernelIdealProof

open Cert.KernelIdeal Cert.KernelIdeal.Gen StepsC

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The persistent records hold every cell's invariant and that its round 0 is reached. -/
theorem r_inv_bar (K : Dev nD × CIx → ℕ) (c : Dev nD) : records m K ⊢ cellInv ER (Rd m) (K (c, none)) (barCell c) :=
  inv_at m K (c, none)
theorem r_inv_dma (K : Dev nD × CIx → ℕ) (c : Dev nD) (n : DmaSem sig) :
    records m K ⊢ cellInv ER (Rd m) (K (c, some n)) ((c : Thread nD τ), .dma n) :=
  inv_at m K (c, some n)
theorem r_reached_bar (K : Dev nD × CIx → ℕ) (c : Dev nD) : records m K ⊢ reached ER (barCell c) 0 :=
  reached_at m K (c, none)
theorem r_reached_dma (K : Dev nD × CIx → ℕ) (c : Dev nD) (n : DmaSem sig) :
    records m K ⊢ reached ER ((c : Thread nD τ), SemLoc.dma n) 0 :=
  reached_at m K (c, some n)

/-- The entry signal to the x-partner pays the one duty of its barrier cell owed at 33: it hands over this device's landing half. -/
theorem r_wp_sig_x (K : Dev nD × CIx → ℕ) (c : Dev nD) (v : ℕ) (hv : v < nD) (hn : v = (xn c).val) {α : Type} {Q : α → sProp 𝕄} {k : PUnit → Prog (TpuEff nD τ sig (Elt F) Λ₀ .tc) α} (W : Waits sig Unit) :
    iprop(records m K ∗ owes c (owedUpTo c 34) W ∗ dutyTok ER (barCell (xn c)) 0 false
        ∗ (bigSep Finset.univ fun j : Fin 16 => iprop(∃ f, piece c (rxC j) fullShare f)))
      ⊢ iprop((owes c (owedUpTo c 33) W -∗ WPc c (k ⟨⟩) Q)
          -∗ WPc c (.op (.semSignal (Dev.tc ⟨v, hv⟩ : Thread nD τ) barS 1) k) Q) := by
  subst hn
  rw [← barPayX_xn c, ← payload_bar_false m (xn c)]
  refine BIBase.Entails.trans ?_ (Rounds.wp_signal Variants.none ER (Rd m) (c : Thread nD τ) none (dst := (xn c : Thread nD τ)) (κ := K (xn c, none)) (d := false)
    (by rw [duties_bar]; exact Finset.mem_univ _) (amount_bar m (xn c) false) () (O₀ := owedUpTo c 34) (owedUpTo c 33)
    (by show owedUpTo c 33 + due c 33 = _; rw [a_due_bar_x]))
  iintro ⟨#Hrec, H⟩
  ihave #Hi := (r_inv_bar m K (xn c)) $$ Hrec
  ihave #Hr := (r_reached_bar m K (xn c)) $$ Hrec
  iframe # ∗

/-- The entry signal to the y-partner hands over the half of this device's result that the partner writes. -/
theorem r_wp_sig_y (K : Dev nD × CIx → ℕ) (c : Dev nD) (v : ℕ) (hv : v < nD) (hn : v = (yn c).val) {α : Type} {Q : α → sProp 𝕄} {k : PUnit → Prog (TpuEff nD τ sig (Elt F) Λ₀ .tc) α} (W : Waits sig Unit) :
    iprop(records m K ∗ owes c (owedUpTo c 33) W ∗ dutyTok ER (barCell (yn c)) 0 true
        ∗ (bigSep Finset.univ fun j : Fin 16 => iprop(∃ f, piece c (outOt c j) fullShare f)))
      ⊢ iprop((owes c (owedUpTo c 32) W -∗ WPc c (k ⟨⟩) Q)
          -∗ WPc c (.op (.semSignal (Dev.tc ⟨v, hv⟩ : Thread nD τ) barS 1) k) Q) := by
  subst hn
  rw [← barPayY_yn c, ← payload_bar_true m (yn c)]
  refine BIBase.Entails.trans ?_ (Rounds.wp_signal Variants.none ER (Rd m) (c : Thread nD τ) none (dst := (yn c : Thread nD τ)) (κ := K (yn c, none)) (d := true)
    (by rw [duties_bar]; exact Finset.mem_univ _) (amount_bar m (yn c) true) () (O₀ := owedUpTo c 33) (owedUpTo c 32)
    (by show owedUpTo c 32 + due c 32 = _; rw [a_due_bar_y]))
  iintro ⟨#Hrec, H⟩
  ihave #Hi := (r_inv_bar m K (yn c)) $$ Hrec
  ihave #Hr := (r_reached_bar m K (yn c)) $$ Hrec
  iframe # ∗

/-- Both partners have signalled: their two hand-overs arrive together, and nothing this device still owes sits below the barrier's level. -/
theorem r_wp_wait_bar (K : Dev nD × CIx → ℕ) (c : Dev nD) {α : Type} {Q : α → sProp 𝕄} {k : PUnit → Prog (TpuEff nD τ sig (Elt F) Λ₀ .tc) α} (W : Waits sig Unit) :
    iprop(records m K ∗ cred (tallyAt (barCell c) () 2) ∗ owes c (owedUpTo c 32) W
        ∗ levAts L lv ∗ atPos ER (barCell c) 0 ∅ 0)
      ⊢ iprop(((owes c (owedUpTo c 32) (insert (SemLoc.reg barS, ()) W) ∗ atPos ER (barCell c) 1 ∅ 0 ∗ reached ER (barCell c) 1
              ∗ barPayX c ∗ barPayY c)
            -∗ WPc c (k ⟨⟩) Q)
          -∗ WPc c (.op (.semWait barS 2) k) Q) := by
  iintro ⟨#Hrec, Hc, HO, #Hlev, Hat⟩ Hk
  ihave #Hi := (r_inv_bar m K c) $$ Hrec
  ihave #Hm := (mayWait_bar c 32 (le_refl _)) $$ Hlev
  iapply (Rounds.wp_wait_rest_token Variants.none ER (Rd m) (c : Thread nD τ) none (κ := K (c, none))
      (wpE_semWait_eq Variants.none (c : Thread nD τ) none Set.univ) (Set.mem_univ _) () (O := owedUpTo c 32) (W := W) (R := 0) (m := 0) (T := ∅)
      (by show 0 + 2 = (Rd (F := F) m).expect (barCell c) 0; rw [expect_bar])) $$ [Hc HO Hat]
  · iframe # ∗
  iintro ⟨HO, Hat, Hr, Hpay⟩
  ihave Hp := (Entails.of_eq (rest_bar m c)) $$ Hpay
  icases Hp with ⟨Hx, Hy⟩
  iapply Hk
  iframe

/-- A staging copy pays its own cell; the slot comes back holding the block because a whole-view write of a whole-view read is the block. -/
theorem r_wp_stage (K : Dev nD × CIx → ℕ) (c : Dev nD) (b : Fin 4)
    {hsrc : (inBlk c b).view.WordExact}
    {hdst : (slot (slotOf b)).view.WordExact}
    {hsem : DmaTarget.Typed (nD := nD) (τ := τ) (p := Proc.tc) .hbm (.dma (csS b)) (.here (slot (slotOf b)))}
    {α : Type} {Q : α → sProp 𝕄} {k : PUnit → Prog (TpuEff nD τ sig (Elt F) Λ₀ .tc) α}
    (fd : Buf (Elt F) ((slot (slotOf b)).view.loc (c : Thread nD τ))) :
    iprop(records m K ∗ piece c (inBlk c b) fullShare (A m c) ∗ piece c (slot (slotOf b)) fullShare fd
        ∗ dutyTok ER (csCell c b) 0 false)
      ⊢ iprop((cred (tallyAt (csCell c b) () NB) -∗ WPc c (k ⟨⟩) Q)
          -∗ WPc c
              (.op (.enqueueDma (inBlk c b) (.here (slot (slotOf b))) (.dma (csS b)) hsrc hdst hsem) k) Q) := by
  refine BIBase.Entails.trans ?_ (Rounds.wp_copy_pointsTo Variants.none ER (Rd m) (c : Thread nD τ) none (κ := K (c, some (csS b))) (r := 0) (d := false) (q := fullShare) (fs := A m c) (fd := fd)
    (by rw [duties_dma]; exact Finset.mem_singleton_self _) () NB (by unfold NB; rfl) (amount_cs m c b false)
    (by rw [payload_cs]; unfold csPay; exact sep_mono_left (Entails.of_eq (staged m c b fd))))
  iintro ⟨#Hrec, H⟩
  ihave #Hi := (r_inv_dma m K c (csS b)) $$ Hrec
  ihave #Hr := (r_reached_dma m K c (csS b)) $$ Hrec
  iframe # ∗

/-- A wait for the whole of round 0 of one of the device's DMA cells: the cell's payload `P` comes back and the position moves on. -/
theorem r_wp_wait_cell (K : Dev nD × CIx → ℕ) (c : Dev nD) (n : DmaSem sig) (N N' : ℕ) (P : sProp 𝕄) (hN : N' = N)
    (hamt : (Rd (F := F) m).amount ((c : Thread nD τ), .dma n) 0 false = N)
    (hpay : (Rd (F := F) m).payload ((c : Thread nD τ), .dma n) 0 false = P)
    {O : CellTallies nD τ sig Unit} (hmay : (levAts L lv : sProp 𝕄) ⊢ MayWait (c : Thread nD τ) (.dma n) () O)
    (w : TpuEff nD τ sig (Elt F) Λ₀ .tc PUnit)
    (hw : ∀ Kw : PUnit → sProp 𝕄, wpE (defs₀ (F := F)) Variants.none (c : Thread nD τ) none Set.univ w Kw = waitSpec (c : Thread nD τ) Set.univ (.dma n) N' Kw)
    {α : Type} {Q : α → sProp 𝕄} {k : PUnit → Prog (TpuEff nD τ sig (Elt F) Λ₀ .tc) α} (W : Waits sig Unit) :
    iprop(records m K ∗ cred (tallyAt ((c : Thread nD τ), .dma n) () N) ∗ owes c O W
        ∗ levAts L lv ∗ atPos ER ((c : Thread nD τ), .dma n) 0 ∅ 0)
      ⊢ iprop(((owes c O (insert (SemLoc.dma n, ()) W) ∗ atPos ER ((c : Thread nD τ), .dma n) 1 ∅ 0 ∗ reached ER ((c : Thread nD τ), .dma n) 1 ∗ P)
            -∗ WPc c (k ⟨⟩) Q)
          -∗ WPc c (.op w k) Q) := by
  subst hN
  have hrest : bigSep ((Rd (F := F) m).duties ((c : Thread nD τ), .dma n) 0 \ ∅) (fun d => (Rd (F := F) m).payload ((c : Thread nD τ), .dma n) 0 d) = P := by
    rw [Finset.sdiff_empty, duties_dma, bigSep_singleton, hpay]
  iintro ⟨#Hrec, Hc, HO, #Hlev, Hat⟩ Hk
  ihave #Hi := (r_inv_dma m K c n) $$ Hrec
  ihave #Hm := hmay $$ Hlev
  iapply (Rounds.wp_wait_rest_token Variants.none ER (Rd m) (c : Thread nD τ) none (κ := K (c, some n)) hw (Set.mem_univ _) () (O := O) (W := W) (R := 0) (m := 0) (T := ∅)
      (by unfold Schedule.expect Schedule.amountOf; rw [Nat.zero_add, duties_dma, Finset.sum_singleton, hamt])) $$ [Hc HO Hat]
  · iframe # ∗
  iintro ⟨HO, Hat, Hr, Hpay⟩
  ihave Hpay := (Entails.of_eq hrest) $$ Hpay
  iapply Hk
  iframe

/-- Each DMA wait below is the general wait at its cell's amount, payload and level. -/
theorem r_wp_wait_cs (K : Dev nD × CIx → ℕ) (c : Dev nD) (b : Fin 4)
    {hsrc : (inBlk c b).view.WordExact}
    {hdst : (slot (slotOf b)).view.WordExact}
    {α : Type} {Q : α → sProp 𝕄} {k : PUnit → Prog (TpuEff nD τ sig (Elt F) Λ₀ .tc) α}
    (W : Waits sig Unit) (kk : ℕ) :
    iprop(records m K ∗ cred (tallyAt (csCell c b) () NB) ∗ owes c (owedUpTo c kk) W
        ∗ levAts L lv ∗ atPos ER (csCell c b) 0 ∅ 0)
      ⊢ iprop(((owes c (owedUpTo c kk) (insert (SemLoc.dma (csS b), ()) W)
              ∗ atPos ER (csCell c b) 1 ∅ 0 ∗ reached ER (csCell c b) 1
              ∗ piece c (slot (slotOf b)) fullShare (XST m c b) ∗ piece c (inBlk c b) fullShare (A m c))
            -∗ WPc c (k ⟨⟩) Q)
          -∗ WPc c
              (.op (.waitDma2 (csS b) (inBlk c b) (slot (slotOf b)) hsrc hdst) k) Q) :=
  r_wp_wait_cell m K c (csS b) NB (slot (slotOf b)).view.dmaCredit (csPay m c b) (by unfold NB; rfl)
    (amount_cs m c b false) (payload_cs m c b false) (mayWait_low c (csS b) (lv_cs c b) kk) (.waitDma2 (csS b) (inBlk c b) (slot (slotOf b)) hsrc hdst)
    (fun Kw => wpE_waitDma2_eq Variants.none (c : Thread nD τ) none Set.univ Kw) W

/-- The first exchange's send pays the x-partner's landing cell, the due counted `31 - j` from the end; what lands is this device's narrowed chunk. -/
theorem r_wp_send_x (K : Dev nD × CIx → ℕ) (c : Dev nD) (j : Fin 16) (v : ℕ) (hv : v < nD) (hn : v = (xn c).val)
    {hsc : (rxC j : Memref sig (Dev.tc ⟨v, hv⟩ : Thread nD τ).2.kind .vmem S256x1024 .bf16).view.ref.isScScratch = false}
    {hsrc : (sxC j).view.WordExact}
    {hdst : (rxC j).view.WordExact}
    {hsem : DmaTarget.Typed .vmem (.dma (rxS j)) (.remote (Dev.tc ⟨v, hv⟩ : Thread nD τ) (rxC j) (.dma (sxS j)) hsc)}
    {α : Type} {Q : α → sProp 𝕄} {k : PUnit → Prog (TpuEff nD τ sig (Elt F) Λ₀ .tc) α}
    (fd : Buf (Elt F) ((rxC j).view.loc (xn c : Thread nD τ))) (W : Waits sig Unit)
    (kk' kk : ℕ) (hk' : kk' = kk + 1) (hk : kk = 31 - j.val) :
    iprop(records m K
        ∗ piece c (sxC j) fullShare (SX1 m c) ∗ piece (xn c) (rxC j) fullShare fd
        ∗ owes c (owedUpTo c kk') W
        ∗ dutyTok ER (sxCell c j) 0 false
        ∗ dutyTok ER (rxCell (xn c) j) 0 false)
      ⊢ iprop(((cred (tallyAt (sxCell c j) () NV) ∗ owes c (owedUpTo c kk) W)
            -∗ WPc c (k ⟨⟩) Q)
          -∗ WPc c
              (.op (.enqueueDma (sxC j) (.remote (Dev.tc ⟨v, hv⟩ : Thread nD τ) (rxC j) (.dma (sxS j)) hsc) (.dma (rxS j)) hsrc hdst hsem) k) Q) := by
  subst hn; subst hk'; subst hk
  refine BIBase.Entails.trans ?_ (Rounds.wp_send_pointsTo Variants.none ER (Rd m) (c : Thread nD τ) none (κ₁ := K (c, some (sxS j))) (κ₂ := K (xn c, some (rxS j)))
    (r₁ := 0) (r₂ := 0) (d₁ := false) (d₂ := false) (q := fullShare) (fs := SX1 m c) (fd := fd)
    (by rw [duties_dma]; exact Finset.mem_singleton_self _) (by rw [duties_dma]; exact Finset.mem_singleton_self _)
    () () NV (by unfold NV; rfl) (amount_sx m c j false) (amount_rx m (xn c) j false) (O₀ := owedUpTo c (31 - j.val + 1)) (owedUpTo c (31 - j.val))
    (by show owedUpTo c (31 - j.val) + due c (31 - j.val) = _; rw [due_rx]) (W := W)
    (by rw [payload_sx]; exact BI.Entails.refl _)
    (by rw [payload_rx]; unfold rxPay RX; rw [xn_xn]; exact Entails.of_eq (landed_chunk j (xn c) fd (SX1 m c))))
  iintro ⟨#Hrec, H⟩
  ihave #I1 := (r_inv_dma m K c (sxS j)) $$ Hrec
  ihave #I2 := (r_inv_dma m K (xn c) (rxS j)) $$ Hrec
  ihave #R1 := (r_reached_dma m K c (sxS j)) $$ Hrec
  ihave #R2 := (r_reached_dma m K (xn c) (rxS j)) $$ Hrec
  iframe # ∗

/-- The second exchange's send pays the y-partner's landing cell, the due counted `15 - j` from the end; what lands is the summed chunk, which is the partner's result there. -/
theorem r_wp_send_y (K : Dev nD × CIx → ℕ) (c : Dev nD) (j : Fin 16) (v : ℕ) (hv : v < nD) (hn : v = (yn c).val)
    {hsc : (outMe c j : Memref sig (Dev.tc ⟨v, hv⟩ : Thread nD τ).2.kind .hbm S256x1024 .bf16).view.ref.isScScratch = false}
    {hsrc : (sxC j).view.WordExact} {hdst : (outMe c j).view.WordExact}
    {hsem : DmaTarget.Typed .vmem (.dma (ryS j)) (.remote (Dev.tc ⟨v, hv⟩ : Thread nD τ) (outMe c j) (.dma (syS j)) hsc)}
    {α : Type} {Q : α → sProp 𝕄} {k : PUnit → Prog (TpuEff nD τ sig (Elt F) Λ₀ .tc) α}
    (fd : Buf (Elt F) ((outMe c j).view.loc (yn c : Thread nD τ))) (W : Waits sig Unit) (kk' kk : ℕ) (hk' : kk' = kk + 1) (hk : kk = 15 - j.val) :
    iprop(records m K
        ∗ piece c (sxC j) fullShare.left (SX2 m c) ∗ piece (yn c) (outMe c j) fullShare fd
        ∗ owes c (owedUpTo c kk') W
        ∗ dutyTok ER (syCell c j) 0 false
        ∗ dutyTok ER (ryCell (yn c) j) 0 false)
      ⊢ iprop(((cred (tallyAt (syCell c j) () (NH c)) ∗ owes c (owedUpTo c kk) W) -∗ WPc c (k ⟨⟩) Q)
          -∗ WPc c
              (.op (.enqueueDma (sxC j) (.remote (Dev.tc ⟨v, hv⟩ : Thread nD τ) (outMe c j) (.dma (syS j)) hsc) (.dma (ryS j)) hsrc hdst hsem) k) Q) := by
  subst hn; subst hk'
  refine BIBase.Entails.trans ?_ (Rounds.wp_send_pointsTo Variants.none ER (Rd m) (c : Thread nD τ) none (κ₁ := K (c, some (syS j))) (κ₂ := K (yn c, some (ryS j)))
    (r₁ := 0) (r₂ := 0) (d₁ := false) (d₂ := false) (q := fullShare.left) (fs := SX2 m c) (fd := fd)
    (by rw [duties_dma]; exact Finset.mem_singleton_self _) (by rw [duties_dma]; exact Finset.mem_singleton_self _)
    () () (NH c) (amt_outMe c j (ryS j)) (amount_sy m c j false) ((amount_ry m (yn c) j false).trans ((NH_eq_NV (yn c)).trans (NH_eq_NV c).symm))
    (O₀ := owedUpTo c (kk + 1)) (owedUpTo c kk) (by show owedUpTo c kk + due c kk = _; rw [due_ry c j kk hk]) (W := W)
    (by rw [payload_sy]; exact BI.Entails.refl _)
    (by rw [payload_ry]; exact send_y_pay m c j fd))
  iintro ⟨#Hrec, H⟩
  ihave #I1 := (r_inv_dma m K c (syS j)) $$ Hrec
  ihave #I2 := (r_inv_dma m K (yn c) (ryS j)) $$ Hrec
  ihave #R1 := (r_reached_dma m K c (syS j)) $$ Hrec
  ihave #R2 := (r_reached_dma m K (yn c) (ryS j)) $$ Hrec
  iframe # ∗

/-- The write-back of the summed chunk into the device's own result. -/
theorem r_wp_copy_out (K : Dev nD × CIx → ℕ) (c : Dev nD) (j : Fin 16)
    {hsrc : (sxC j).view.WordExact} {hdst : (outMe c j).view.WordExact}
    {hsem : DmaTarget.Typed (nD := nD) (p := (Proc.tc : Proc τ)) .vmem (.dma (rsS j)) (.here (outMe c j))}
    {α : Type} {Q : α → sProp 𝕄} {k : PUnit → Prog (TpuEff nD τ sig (Elt F) Λ₀ .tc) α}
    (fd : Buf (Elt F) ((outMe c j).view.loc (c : Thread nD τ))) :
    iprop(records m K
        ∗ piece c (sxC j) fullShare.right (SX2 m c) ∗ piece c (outMe c j) fullShare fd
        ∗ dutyTok ER (rsCell c j) 0 false)
      ⊢ iprop((cred (tallyAt (rsCell c j) () (NH c)) -∗ WPc c (k ⟨⟩) Q)
          -∗ WPc c
              (.op (.enqueueDma (sxC j) (.here (outMe c j)) (.dma (rsS j)) hsrc hdst hsem) k) Q) := by
  refine BIBase.Entails.trans ?_ (Rounds.wp_copy_pointsTo Variants.none ER (Rd m) (c : Thread nD τ) none (κ := K (c, some (rsS j))) (r := 0) (d := false) (q := fullShare.right) (fs := SX2 m c) (fd := fd)
    (by rw [duties_dma]; exact Finset.mem_singleton_self _) () (NH c) (amt_outMe c j (rsS j)) (amount_rs m c j false)
    (by rw [payload_rs]; exact copy_out_pay m c j fd))
  iintro ⟨#Hrec, H⟩
  ihave #Hi := (r_inv_dma m K c (rsS j)) $$ Hrec
  ihave #Hr := (r_reached_dma m K c (rsS j)) $$ Hrec
  iframe # ∗

theorem r_wp_wait_rx (K : Dev nD × CIx → ℕ) (c : Dev nD) (j : Fin 16)
    {hsrc : (sxC j).view.WordExact} {hdst : (rxC j).view.WordExact}
    {α : Type} {Q : α → sProp 𝕄} {k : PUnit → Prog (TpuEff nD τ sig (Elt F) Λ₀ .tc) α} (W : Waits sig Unit) (kk : ℕ) (hk : kk ≤ 16) :
    iprop(records m K ∗ cred (tallyAt (rxCell c j) () NV) ∗ owes c (owedUpTo c kk) W
        ∗ levAts L lv ∗ atPos ER (rxCell c j) 0 ∅ 0)
      ⊢ iprop(((owes c (owedUpTo c kk) (insert (SemLoc.dma (rxS j), ()) W) ∗ atPos ER (rxCell c j) 1 ∅ 0 ∗ reached ER (rxCell c j) 1
              ∗ piece c (rxC j) fullShare (RX m c))
            -∗ WPc c (k ⟨⟩) Q)
          -∗ WPc c (.op (.waitDma2 (rxS j) (sxC j) (rxC j) hsrc hdst) k) Q) :=
  r_wp_wait_cell m K c (rxS j) NV (rxC j).view.dmaCredit (rxPay m c j) (amt_rxC j (rxS j))
    (amount_rx m c j false) (payload_rx m c j false) (mayWait_rx c j kk hk) (.waitDma2 (rxS j) (sxC j) (rxC j) hsrc hdst)
    (fun Kw => wpE_waitDma2_eq Variants.none (c : Thread nD τ) none Set.univ Kw) W

theorem r_wp_wait_sx (K : Dev nD × CIx → ℕ) (c : Dev nD) (j : Fin 16)
    {hsrc : (rxC j).view.WordExact} {hdst : (sxC j).view.WordExact}
    {α : Type} {Q : α → sProp 𝕄} {k : PUnit → Prog (TpuEff nD τ sig (Elt F) Λ₀ .tc) α} (W : Waits sig Unit) (kk : ℕ) :
    iprop(records m K ∗ cred (tallyAt (sxCell c j) () NV) ∗ owes c (owedUpTo c kk) W
        ∗ levAts L lv ∗ atPos ER (sxCell c j) 0 ∅ 0)
      ⊢ iprop(((owes c (owedUpTo c kk) (insert (SemLoc.dma (sxS j), ()) W) ∗ atPos ER (sxCell c j) 1 ∅ 0 ∗ reached ER (sxCell c j) 1
              ∗ piece c (sxC j) fullShare (SX1 m c))
            -∗ WPc c (k ⟨⟩) Q)
          -∗ WPc c (.op (.waitDma2 (sxS j) (rxC j) (sxC j) hsrc hdst) k) Q) :=
  r_wp_wait_cell m K c (sxS j) NV (sxC j).view.dmaCredit (sxPay m c j) (amt_sxC j (sxS j))
    (amount_sx m c j false) (payload_sx m c j false) (mayWait_low c (sxS j) (lvC_sx c j) kk) (.waitDma2 (sxS j) (rxC j) (sxC j) hsrc hdst)
    (fun Kw => wpE_waitDma2_eq Variants.none (c : Thread nD τ) none Set.univ Kw) W

theorem r_wp_wait_ry (K : Dev nD × CIx → ℕ) (c : Dev nD) (j : Fin 16)
    {hsrc : (outOt c j).view.WordExact} {hdst : (outOt c j).view.WordExact}
    {α : Type} {Q : α → sProp 𝕄} {k : PUnit → Prog (TpuEff nD τ sig (Elt F) Λ₀ .tc) α} (W : Waits sig Unit) :
    iprop(records m K ∗ cred (tallyAt (ryCell c j) () (NH c)) ∗ owes c (owedUpTo c 0) W
        ∗ levAts L lv ∗ atPos ER (ryCell c j) 0 ∅ 0)
      ⊢ iprop(((owes c (owedUpTo c 0) (insert (SemLoc.dma (ryS j), ()) W) ∗ atPos ER (ryCell c j) 1 ∅ 0 ∗ reached ER (ryCell c j) 1
              ∗ piece c (outOt c j) fullShare (OUT m c))
            -∗ WPc c (k ⟨⟩) Q)
          -∗ WPc c (.op (.waitDma2 (ryS j) (outOt c j) (outOt c j) hsrc hdst) k) Q) :=
  r_wp_wait_cell m K c (ryS j) (NH c) (outOt c j).view.dmaCredit (ryPay m c j) (amt_outOt c j (ryS j))
    (amount_ry m c j false) (payload_ry m c j false) (mayWait_ry c j) (.waitDma2 (ryS j) (outOt c j) (outOt c j) hsrc hdst)
    (fun Kw => wpE_waitDma2_eq Variants.none (c : Thread nD τ) none Set.univ Kw) W

theorem r_wp_wait_rs (K : Dev nD × CIx → ℕ) (c : Dev nD) (j : Fin 16)
    {hsrc : (sxC j).view.WordExact} {hdst : (outMe c j).view.WordExact}
    {α : Type} {Q : α → sProp 𝕄} {k : PUnit → Prog (TpuEff nD τ sig (Elt F) Λ₀ .tc) α} (W : Waits sig Unit) (kk : ℕ) :
    iprop(records m K ∗ cred (tallyAt (rsCell c j) () (NH c)) ∗ owes c (owedUpTo c kk) W
        ∗ levAts L lv ∗ atPos ER (rsCell c j) 0 ∅ 0)
      ⊢ iprop(((owes c (owedUpTo c kk) (insert (SemLoc.dma (rsS j), ()) W) ∗ atPos ER (rsCell c j) 1 ∅ 0 ∗ reached ER (rsCell c j) 1
              ∗ (piece c (outMe c j) fullShare (OUT m c) ∗ piece c (sxC j) fullShare.right (SX2 m c)))
            -∗ WPc c (k ⟨⟩) Q)
          -∗ WPc c (.op (.waitDma2 (rsS j) (sxC j) (outMe c j) hsrc hdst) k) Q) :=
  r_wp_wait_cell m K c (rsS j) (NH c) (outMe c j).view.dmaCredit (rsPay m c j) (amt_outMe c j (rsS j))
    (amount_rs m c j false) (payload_rs m c j false) (mayWait_low c (rsS j) (lvC_rs c j) kk) (.waitDma2 (rsS j) (sxC j) (outMe c j) hsrc hdst)
    (fun Kw => wpE_waitDma2_eq Variants.none (c : Thread nD τ) none Set.univ Kw) W

theorem r_wp_wait_sy (K : Dev nD × CIx → ℕ) (c : Dev nD) (j : Fin 16)
    {hsrc : (outMe c j).view.WordExact} {hdst : (sxC j).view.WordExact}
    {α : Type} {Q : α → sProp 𝕄} {k : PUnit → Prog (TpuEff nD τ sig (Elt F) Λ₀ .tc) α} (W : Waits sig Unit) (kk : ℕ) :
    iprop(records m K ∗ cred (tallyAt (syCell c j) () (NH c)) ∗ owes c (owedUpTo c kk) W
        ∗ levAts L lv ∗ atPos ER (syCell c j) 0 ∅ 0)
      ⊢ iprop(((owes c (owedUpTo c kk) (insert (SemLoc.dma (syS j), ()) W) ∗ atPos ER (syCell c j) 1 ∅ 0 ∗ reached ER (syCell c j) 1
              ∗ piece c (sxC j) fullShare.left (SX2 m c))
            -∗ WPc c (k ⟨⟩) Q)
          -∗ WPc c (.op (.waitDma2 (syS j) (outMe c j) (sxC j) hsrc hdst) k) Q) :=
  r_wp_wait_cell m K c (syS j) (NH c) (sxC j).view.dmaCredit (syPay m c j) ((amt_sxC j (syS j)).trans (NH_eq_NV c).symm)
    (amount_sy m c j false) (payload_sy m c j false) (mayWait_low c (syS j) (lvC_sy c j) kk) (.waitDma2 (syS j) (outMe c j) (sxC j) hsrc hdst)
    (fun Kw => wpE_waitDma2_eq Variants.none (c : Thread nD τ) none Set.univ Kw) W

end Cert.KernelIdealProof

end
-- ==== Proof.SoundKernelIdeal.lean ====
import proofs.«900136_g7700000000000137_dist_ar_v7x_xy2x2_x_m8192_n1024_bf16_1_alg».proof.Proof.Gen.KernelIdeal
import proofs.«900136_g7700000000000137_dist_ar_v7x_xy2x2_x_m8192_n1024_bf16_1_alg».proof.Proof.Gen.KernelIdeal.Skeleton
import proofs.«900136_g7700000000000137_dist_ar_v7x_xy2x2_x_m8192_n1024_bf16_1_alg».proof.Proof.Gen.KernelIdeal.Launch
import proofs.«900136_g7700000000000137_dist_ar_v7x_xy2x2_x_m8192_n1024_bf16_1_alg».proof.Proof.Gen.KernelIdeal.Points
import proofs.«900136_g7700000000000137_dist_ar_v7x_xy2x2_x_m8192_n1024_bf16_1_alg».proof.Proof.Gen.KernelIdeal.Frame
import proofs.«900136_g7700000000000137_dist_ar_v7x_xy2x2_x_m8192_n1024_bf16_1_alg».proof.Proof.BodyDefsKernelIdeal
import proofs.«900136_g7700000000000137_dist_ar_v7x_xy2x2_x_m8192_n1024_bf16_1_alg».proof.Proof.StepsRKernelIdeal

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem wp_dev (c : Dev nD) {α : Type} {Q : α → sProp 𝕄} {k : Dev nD → Prog (TpuEff nD τ sig (Elt F) Λ₀ .tc) α} :
    (WPc c (k c) Q) ⊢ WPc c (.op .deviceId k) Q := by
  unfold WPc; rw [wp_deviceId]

theorem wp_end (c : Dev nD) (Kt : PUnit → sProp 𝕄) :
    Kt ⟨⟩ ⊢ WPc c ((Prog.ret PUnit.unit : Prog (TpuEff nD τ sig (Elt F) Λ₀ .tc) PUnit).bind fun _ => Pure.pure PUnit.unit) Kt := by
  show Kt ⟨⟩ ⊢ WPc c (Prog.ret PUnit.unit) Kt
  unfold WPc
  rw [wp_ret]
  iintro H
  imodintro
  iexact H

/-- Chunk `j` of the first exchange, its four steps chained; by `narrow_val` the chunk sent holds `SX1`. -/
theorem wp_narrow (K : Dev nD × CIx → ℕ) (c : Dev nD) (j : Fin 16) (b : Fin 4) (hb : nrBlk j = b) {v : ℕ} {hv : v < nD} (hn : v = (xn c).val)
    {h1 : stB.view.LoadsAt (nrR j).toLoadRect} {h2 : sxB.view.LoadsAt (chunkR j).toLoadRect}
    {hst : (sxB.access (chunkR j)).Stores Finset.univ}
    {hm : (Finset.univ : Finset (chunkR j).shape.Idx) = Finset.univ ∨ ∀ a, (chunkR j).stride a = 1}
    {hsc : (rxC j : Memref sig (Dev.tc ⟨v, hv⟩ : Thread nD τ).2.kind .vmem S256x1024 .bf16).view.ref.isScScratch = false}
    {hsrc : (sxC j).view.WordExact} {hdst : (rxC j).view.WordExact}
    {hsem : DmaTarget.Typed .vmem (.dma (rxS j)) (.remote (Dev.tc ⟨v, hv⟩ : Thread nD τ) (rxC j) (.dma (sxS j)) hsc)}
    {α : Type} {Q : α → sProp 𝕄} {k : PUnit → Prog (TpuEff nD τ sig (Elt F) Λ₀ .tc) α}
    {f : Buf (Elt F) ((sxC j).view.loc (c : Thread nD τ))} {fd : Buf (Elt F) ((rxC j).view.loc (xn c : Thread nD τ))}
    {W : Waits sig Unit} (kk' kk : ℕ) (hk' : kk' = kk + 1) (hk : kk = 31 - j.val) :
    iprop(records m K ∗ piece c (slot (slotOf b)) fullShare (XST m c b) ∗ piece c (sxC j) fullShare f ∗ piece (xn c) (rxC j) fullShare fd
        ∗ owes c (owedUpTo c kk') W ∗ dutyTok ER (sxCell c j) 0 false ∗ dutyTok ER (rxCell (xn c) j) 0 false)
      ⊢ iprop(((piece c (slot (slotOf b)) fullShare (XST m c b) ∗ cred (tallyAt (sxCell c j) () NV) ∗ owes c (owedUpTo c kk) W)
            -∗ WPc c (k ⟨⟩) Q)
          -∗ WPc c (.op (.load stB (nrR j).toLoadRect h1) fun x => .op (.load sxB (chunkR j).toLoadRect h2) fun _ =>
              .op (.store sxB (chunkR j) (nrPay x) Finset.univ hst hm) fun _ =>
              .op (.enqueueDma (sxC j) (.remote (Dev.tc ⟨v, hv⟩ : Thread nD τ) (rxC j) (.dma (sxS j)) hsc) (.dma (rxS j)) hsrc hdst hsem) k) Q) := by
  subst hb
  iintro ⟨#Hrec, Hsl, Hsx, Hrx, HO, Ht1, Ht2⟩ Hk
  iapply (wp_narrow_load1 c j _) $$ Hsl
  iintro Hsl
  iapply (wp_narrow_load2 c j _) $$ Hsx
  iintro Hsx
  iapply (wp_narrow_store c j _ _) $$ Hsx
  iintro Hsx
  ihave Hsx := (Entails.of_eq (narrow_val m c j _)) $$ Hsx
  iapply (r_wp_send_x m K c j v hv hn fd W kk' kk hk' hk) $$ [Hsx Hrx HO Ht1 Ht2]
  · iframe # ∗
  iintro ⟨Hc, HO⟩
  iapply Hk
  iframe

/-- Chunk `j` of the second exchange, its eight steps chained; by `sum_val` the chunk sent on and written back holds `SX2`. -/
theorem wp_sum (K : Dev nD × CIx → ℕ) (c : Dev nD) (j : Fin 16) {v : ℕ} {hv : v < nD} (hn : v = (yn c).val)
    {a1 b2 s1 o1 : (sxC j).view.WordExact} {a2 b1 : (rxC j).view.WordExact} {s2 o2 : (outMe c j).view.WordExact}
    {l1 l3 : sxB.view.LoadsAt (chunkR j).toLoadRect} {l2 : rxB.view.LoadsAt (chunkR j).toLoadRect}
    {hx : (sxB.access (chunkR j)).Stores Finset.univ}
    {hm : (Finset.univ : Finset (chunkR j).shape.Idx) = Finset.univ ∨ ∀ a, (chunkR j).stride a = 1}
    {hsc : (outMe c j : Memref sig (Dev.tc ⟨v, hv⟩ : Thread nD τ).2.kind .hbm S256x1024 .bf16).view.ref.isScScratch = false}
    {hsem : DmaTarget.Typed .vmem (.dma (ryS j)) (.remote (Dev.tc ⟨v, hv⟩ : Thread nD τ) (outMe c j) (.dma (syS j)) hsc)}
    {osem : DmaTarget.Typed (nD := nD) (p := (Proc.tc : Proc τ)) .vmem (.dma (rsS j)) (.here (outMe c j))}
    {α : Type} {Q : α → sProp 𝕄} {k : PUnit → Prog (TpuEff nD τ sig (Elt F) Λ₀ .tc) α}
    {fy : Buf (Elt F) ((outMe c j).view.loc (yn c : Thread nD τ))} {fo : Buf (Elt F) ((outMe c j).view.loc (c : Thread nD τ))}
    {W : Waits sig Unit} (kk' kk : ℕ) (hk' : kk' = kk + 1) (hk : kk = 15 - j.val) :
    iprop(records m K ∗ levAts L lv ∗ cred (tallyAt (rxCell c j) () NV) ∗ cred (tallyAt (sxCell c j) () NV)
        ∗ owes c (owedUpTo c kk') W ∗ atPos ER (rxCell c j) 0 ∅ 0 ∗ atPos ER (sxCell c j) 0 ∅ 0
        ∗ piece (yn c) (outMe c j) fullShare fy ∗ piece c (outMe c j) fullShare fo
        ∗ dutyTok ER (syCell c j) 0 false ∗ dutyTok ER (ryCell (yn c) j) 0 false ∗ dutyTok ER (rsCell c j) 0 false)
      ⊢ iprop(((owes c (owedUpTo c kk) (insert (SemLoc.dma (sxS j), ()) (insert (SemLoc.dma (rxS j), ()) W))
              ∗ atPos ER (rxCell c j) 1 ∅ 0 ∗ atPos ER (sxCell c j) 1 ∅ 0 ∗ piece c (rxC j) fullShare (RX m c)
              ∗ cred (tallyAt (syCell c j) () (NH c)) ∗ cred (tallyAt (rsCell c j) () (NH c))) -∗ WPc c (k ⟨⟩) Q)
          -∗ WPc c (.op (.waitDma2 (rxS j) (sxC j) (rxC j) a1 a2) fun _ => .op (.waitDma2 (sxS j) (rxC j) (sxC j) b1 b2) fun _ =>
              .op (.load sxB (chunkR j).toLoadRect l1) fun (v1 : Vec F S256x1024 .bf16) =>
              .op (.load rxB (chunkR j).toLoadRect l2) fun (v2 : Vec F S256x1024 .bf16) =>
              .op (.load sxB (chunkR j).toLoadRect l3) fun _ =>
              .op (.store sxB (chunkR j) (shapeCast S256x1024 (addf v1 v2) shapeCasts_S256x1024_S256x1024) Finset.univ hx hm) fun _ =>
              .op (.enqueueDma (sxC j) (.remote (Dev.tc ⟨v, hv⟩ : Thread nD τ) (outMe c j) (.dma (syS j)) hsc) (.dma (ryS j)) s1 s2 hsem) fun _ =>
              .op (.enqueueDma (sxC j) (.here (outMe c j)) (.dma (rsS j)) o1 o2 osem) k) Q) := by
  iintro ⟨#Hrec, #Hlev, HcX, HcS, HO, HaX, HaS, Hy, Ho, HtY, HtZ, HtR⟩ Hk
  iapply (r_wp_wait_rx m K c j _ kk' (by omega)) $$ [HcX HO HaX]
  · iframe # ∗
  iintro ⟨HO, HaX, -, Hrx⟩
  iapply (r_wp_wait_sx m K c j _ _) $$ [HcS HO HaS]
  · iframe # ∗
  iintro ⟨HO, HaS, -, Hsx⟩
  iapply (wp_sum_load_sx c j fullShare _) $$ Hsx
  iintro Hsx
  iapply (wp_sum_load_rx c j fullShare _) $$ Hrx
  iintro Hrx
  iapply (wp_sum_load_sx c j fullShare _) $$ Hsx
  iintro Hsx
  iapply (wp_sum_store c j _) $$ Hsx
  iintro Hsx
  ihave Hsx := (Entails.of_eq (sum_val m c j)) $$ Hsx
  ihave Hsx := (split_half c j _) $$ Hsx
  icases Hsx with ⟨HsxL, HsxR⟩
  iapply (r_wp_send_y m K c j v hv hn fy _ kk' kk hk' hk) $$ [HsxL Hy HO HtY HtZ]
  · iframe # ∗
  iintro ⟨HcY, HO⟩
  iapply (r_wp_copy_out m K c j fo) $$ [HsxR Ho HtR]
  · iframe # ∗
  iintro HcR
  iapply Hk
  iframe

/-- The two closing waits of chunk `j` chained; the halves they give back join to the whole chunk. -/
theorem wp_done (K : Dev nD × CIx → ℕ) (c : Dev nD) (j : Fin 16)
    {h1 h4 : (sxC j).view.WordExact} {h2 h3 : (outMe c j).view.WordExact}
    {α : Type} {Q : α → sProp 𝕄} {k : PUnit → Prog (TpuEff nD τ sig (Elt F) Λ₀ .tc) α} {W : Waits sig Unit} {kk : ℕ} :
    iprop(records m K ∗ levAts L lv ∗ cred (tallyAt (rsCell c j) () (NH c)) ∗ cred (tallyAt (syCell c j) () (NH c))
        ∗ owes c (owedUpTo c kk) W ∗ atPos ER (rsCell c j) 0 ∅ 0 ∗ atPos ER (syCell c j) 0 ∅ 0)
      ⊢ iprop(((owes c (owedUpTo c kk) (insert (SemLoc.dma (syS j), ()) (insert (SemLoc.dma (rsS j), ()) W))
              ∗ atPos ER (rsCell c j) 1 ∅ 0 ∗ atPos ER (syCell c j) 1 ∅ 0
              ∗ piece c (outMe c j) fullShare (OUT m c) ∗ piece c (sxC j) fullShare (SX2 m c)) -∗ WPc c (k ⟨⟩) Q)
          -∗ WPc c (.op (.waitDma2 (rsS j) (sxC j) (outMe c j) h1 h2) fun _ => .op (.waitDma2 (syS j) (outMe c j) (sxC j) h3 h4) k) Q) := by
  iintro ⟨#Hrec, #Hlev, HcR, HcY, HO, HaR, HaY⟩ Hk
  iapply (r_wp_wait_rs m K c j _ _) $$ [HcR HO HaR]
  · iframe # ∗
  iintro ⟨HO, HaR, -, Hou, HsxR⟩
  iapply (r_wp_wait_sy m K c j _ _) $$ [HcY HO HaY]
  · iframe # ∗
  iintro ⟨HO, HaY, -, HsxL⟩
  ihave Hsx := (join_half c j _) $$ [HsxL HsxR]
  · iframe
  iapply Hk
  iframe

set_option maxHeartbeats 16000000 in
theorem sound_body (K : Dev nD × CIx → ℕ) (c : Dev nD) (W : Waits sig Unit)
    (f0 : Buf (Elt F) ((c : Thread nD τ).loc cc0_scratch0)) (f1 : Buf (Elt F) ((c : Thread nD τ).loc cc0_scratch1))
    (fv : Buf (Elt F) ((c : Thread nD τ).loc main_v1)) (Kt : PUnit → sProp 𝕄) :
    iprop(records m K ∗ levAts L lv ∗ bodyPre m c W f0 f1 fv ∗ (bodyPost m c -∗ Kt ⟨⟩))
      ⊢ WPc c (bodyAt0 (F := F) t0_0) Kt := by
  unfold bodyPre posAt payToks startCreds
  simp only [bigSep_fin16, bigSep_fin4, bigSep_fin3]
  iintro ⟨#Hrec, #Hlev, ⟨HO, ⟨HaB, ⟨HaC0, HaC1, HaC2, HaC3⟩, ⟨HaR0, HaR1, HaR2, HaR3, HaR4, HaR5, HaR6, HaR7, HaR8, HaR9, HaR10, HaR11, HaR12, HaR13, HaR14, HaR15⟩, ⟨HaS0, HaS1, HaS2, HaS3, HaS4, HaS5, HaS6, HaS7, HaS8, HaS9, HaS10, HaS11, HaS12, HaS13, HaS14, HaS15⟩, ⟨HaX0, HaX1, HaX2, HaX3, HaX4, HaX5, HaX6, HaX7, HaX8, HaX9, HaX10, HaX11, HaX12, HaX13, HaX14, HaX15⟩, ⟨HaY0, HaY1, HaY2, HaY3, HaY4, HaY5, HaY6, HaY7, HaY8, HaY9, HaY10, HaY11, HaY12, HaY13, HaY14, HaY15⟩, ⟨HaZ0, HaZ1, HaZ2, HaZ3, HaZ4, HaZ5, HaZ6, HaZ7, HaZ8, HaZ9, HaZ10, HaZ11, HaZ12, HaZ13, HaZ14, HaZ15⟩⟩, ⟨HtBx, HtBy, ⟨HtC0, HtC1, HtC2, HtC3⟩, ⟨HtR0, HtR1, HtR2, HtR3, HtR4, HtR5, HtR6, HtR7, HtR8, HtR9, HtR10, HtR11, HtR12, HtR13, HtR14, HtR15⟩, ⟨HtS0, HtS1, HtS2, HtS3, HtS4, HtS5, HtS6, HtS7, HtS8, HtS9, HtS10, HtS11, HtS12, HtS13, HtS14, HtS15⟩, ⟨HtX0, HtX1, HtX2, HtX3, HtX4, HtX5, HtX6, HtX7, HtX8, HtX9, HtX10, HtX11, HtX12, HtX13, HtX14, HtX15⟩, ⟨HtY0, HtY1, HtY2, HtY3, HtY4, HtY5, HtY6, HtY7, HtY8, HtY9, HtY10, HtY11, HtY12, HtY13, HtY14, HtY15⟩, ⟨HtZ0, HtZ1, HtZ2, HtZ3, HtZ4, HtZ5, HtZ6, HtZ7, HtZ8, HtZ9, HtZ10, HtZ11, HtZ12, HtZ13, HtZ14, HtZ15⟩⟩, ⟨HcB, ⟨HcX0, HcX1, HcX2, HcX3, HcX4, HcX5, HcX6, HcX7, HcX8, HcX9, HcX10, HcX11, HcX12, HcX13, HcX14, HcX15⟩, ⟨HcZ0, HcZ1, HcZ2, HcZ3, HcZ4, HcZ5, HcZ6, HcZ7, HcZ8, HcZ9, HcZ10, HcZ11, HcZ12, HcZ13, HcZ14, HcZ15⟩⟩, ⟨Hsl0, Hsl1, Hsl2⟩, ⟨Hsx0, Hsx1, Hsx2, Hsx3, Hsx4, Hsx5, Hsx6, Hsx7, Hsx8, Hsx9, Hsx10, Hsx11, Hsx12, Hsx13, Hsx14, Hsx15⟩, HrxG, ⟨Hin0, Hin1, Hin2, Hin3⟩, HinR, ⟨Hou0, Hou1, Hou2, Hou3, Hou4, Hou5, Hou6, Hou7, Hou8, Hou9, Hou10, Hou11, Hou12, Hou13, Hou14, Hou15⟩, HotG⟩, Hk⟩
  iapply (wp_dev (F := F) c)
  iapply (r_wp_stage m K c 0 _) $$ [Hin0 Hsl0 HtC0]
  · iframe # ∗
    iexact Hsl0
  iintro HcC0
  iapply (r_wp_stage m K c 1 _) $$ [Hin1 Hsl1 HtC1]
  · iframe # ∗
    iexact Hsl1
  iintro HcC1
  unfold rxGive otGive
  iapply (r_wp_sig_x m K c _ _ (k0_dev1_eq c) _) $$ [HO HtBx HrxG]
  · iframe # ∗
  iintro HO
  iapply (r_wp_sig_y m K c _ _ (k0_dev2_eq c) _) $$ [HO HtBy HotG]
  · iframe # ∗
  iintro HO
  iapply (r_wp_wait_bar m K c _) $$ [HcB HO HaB]
  · iframe # ∗
  iintro ⟨HO, HaB, -, HpX, HpY⟩
  unfold barPayX barPayY
  simp only [bigSep_fin16]
  icases HpX with ⟨⟨%gX0, HX0⟩, ⟨%gX1, HX1⟩, ⟨%gX2, HX2⟩, ⟨%gX3, HX3⟩, ⟨%gX4, HX4⟩, ⟨%gX5, HX5⟩, ⟨%gX6, HX6⟩, ⟨%gX7, HX7⟩, ⟨%gX8, HX8⟩, ⟨%gX9, HX9⟩, ⟨%gX10, HX10⟩, ⟨%gX11, HX11⟩, ⟨%gX12, HX12⟩, ⟨%gX13, HX13⟩, ⟨%gX14, HX14⟩, ⟨%gX15, HX15⟩⟩
  icases HpY with ⟨⟨%gY0, HY0⟩, ⟨%gY1, HY1⟩, ⟨%gY2, HY2⟩, ⟨%gY3, HY3⟩, ⟨%gY4, HY4⟩, ⟨%gY5, HY5⟩, ⟨%gY6, HY6⟩, ⟨%gY7, HY7⟩, ⟨%gY8, HY8⟩, ⟨%gY9, HY9⟩, ⟨%gY10, HY10⟩, ⟨%gY11, HY11⟩, ⟨%gY12, HY12⟩, ⟨%gY13, HY13⟩, ⟨%gY14, HY14⟩, ⟨%gY15, HY15⟩⟩
  iapply (r_wp_wait_cs m K c 0 _ _) $$ [HcC0 HO HaC0]
  · iframe # ∗
  iintro ⟨HO, HaC0, -, HslB0, Hin0⟩
  iapply (r_wp_stage m K c 2 _) $$ [Hin2 Hsl2 HtC2]
  · iframe # ∗
    iexact Hsl2
  iintro HcC2
  iapply (wp_narrow m K c 0 0 rfl (k0_dev3_eq c) 32 31 rfl rfl) $$ [HslB0 Hsx0 HX0 HO HtS0 HtX0]
  · iframe # ∗
  iintro ⟨HslB0, HcS0, HO⟩
  iapply (wp_narrow m K c 1 0 rfl (k0_dev4_eq c) 31 30 rfl rfl) $$ [HslB0 Hsx1 HX1 HO HtS1 HtX1]
  · iframe # ∗
  iintro ⟨HslB0, HcS1, HO⟩
  iapply (wp_narrow m K c 2 0 rfl (k0_dev5_eq c) 30 29 rfl rfl) $$ [HslB0 Hsx2 HX2 HO HtS2 HtX2]
  · iframe # ∗
  iintro ⟨HslB0, HcS2, HO⟩
  iapply (wp_narrow m K c 3 0 rfl (k0_dev6_eq c) 29 28 rfl rfl) $$ [HslB0 Hsx3 HX3 HO HtS3 HtX3]
  · iframe # ∗
  iintro ⟨HslB0, HcS3, HO⟩
  iapply (r_wp_wait_cs m K c 1 _ _) $$ [HcC1 HO HaC1]
  · iframe # ∗
  iintro ⟨HO, HaC1, -, HslB1, Hin1⟩
  iapply (r_wp_stage m K c 3 _) $$ [Hin3 HslB0 HtC3]
  · iframe # ∗
    iexact HslB0
  iintro HcC3
  iapply (wp_narrow m K c 4 1 rfl (k0_dev7_eq c) 28 27 rfl rfl) $$ [HslB1 Hsx4 HX4 HO HtS4 HtX4]
  · iframe # ∗
  iintro ⟨HslB1, HcS4, HO⟩
  iapply (wp_narrow m K c 5 1 rfl (k0_dev8_eq c) 27 26 rfl rfl) $$ [HslB1 Hsx5 HX5 HO HtS5 HtX5]
  · iframe # ∗
  iintro ⟨HslB1, HcS5, HO⟩
  iapply (wp_narrow m K c 6 1 rfl (k0_dev9_eq c) 26 25 rfl rfl) $$ [HslB1 Hsx6 HX6 HO HtS6 HtX6]
  · iframe # ∗
  iintro ⟨HslB1, HcS6, HO⟩
  iapply (wp_narrow m K c 7 1 rfl (k0_dev10_eq c) 25 24 rfl rfl) $$ [HslB1 Hsx7 HX7 HO HtS7 HtX7]
  · iframe # ∗
  iintro ⟨HslB1, HcS7, HO⟩
  iapply (r_wp_wait_cs m K c 2 _ _) $$ [HcC2 HO HaC2]
  · iframe # ∗
  iintro ⟨HO, HaC2, -, HslB2, Hin2⟩
  iapply (wp_narrow m K c 8 2 rfl (k0_dev11_eq c) 24 23 rfl rfl) $$ [HslB2 Hsx8 HX8 HO HtS8 HtX8]
  · iframe # ∗
  iintro ⟨HslB2, HcS8, HO⟩
  iapply (wp_narrow m K c 9 2 rfl (k0_dev12_eq c) 23 22 rfl rfl) $$ [HslB2 Hsx9 HX9 HO HtS9 HtX9]
  · iframe # ∗
  iintro ⟨HslB2, HcS9, HO⟩
  iapply (wp_narrow m K c 10 2 rfl (k0_dev13_eq c) 22 21 rfl rfl) $$ [HslB2 Hsx10 HX10 HO HtS10 HtX10]
  · iframe # ∗
  iintro ⟨HslB2, HcS10, HO⟩
  iapply (wp_narrow m K c 11 2 rfl (k0_dev14_eq c) 21 20 rfl rfl) $$ [HslB2 Hsx11 HX11 HO HtS11 HtX11]
  · iframe # ∗
  iintro ⟨HslB2, HcS11, HO⟩
  iapply (r_wp_wait_cs m K c 3 _ _) $$ [HcC3 HO HaC3]
  · iframe # ∗
  iintro ⟨HO, HaC3, -, HslB3, Hin3⟩
  iapply (wp_narrow m K c 12 3 rfl (k0_dev15_eq c) 20 19 rfl rfl) $$ [HslB3 Hsx12 HX12 HO HtS12 HtX12]
  · iframe # ∗
  iintro ⟨HslB3, HcS12, HO⟩
  iapply (wp_narrow m K c 13 3 rfl (k0_dev16_eq c) 19 18 rfl rfl) $$ [HslB3 Hsx13 HX13 HO HtS13 HtX13]
  · iframe # ∗
  iintro ⟨HslB3, HcS13, HO⟩
  iapply (wp_narrow m K c 14 3 rfl (k0_dev17_eq c) 18 17 rfl rfl) $$ [HslB3 Hsx14 HX14 HO HtS14 HtX14]
  · iframe # ∗
  iintro ⟨HslB3, HcS14, HO⟩
  iapply (wp_narrow m K c 15 3 rfl (k0_dev18_eq c) 17 16 rfl rfl) $$ [HslB3 Hsx15 HX15 HO HtS15 HtX15]
  · iframe # ∗
  iintro ⟨HslB3, HcS15, HO⟩
  iapply (wp_sum m K c 0 (k0_dev19_eq c) 16 15 rfl rfl) $$ [HcX0 HcS0 HO HaX0 HaS0 HY0 Hou0 HtY0 HtZ0 HtR0]
  · iframe # ∗
  iintro ⟨HO, HaX0, HaS0, Hrx0, HcY0, HcR0⟩
  iapply (wp_sum m K c 1 (k0_dev20_eq c) 15 14 rfl rfl) $$ [HcX1 HcS1 HO HaX1 HaS1 HY1 Hou1 HtY1 HtZ1 HtR1]
  · iframe # ∗
  iintro ⟨HO, HaX1, HaS1, Hrx1, HcY1, HcR1⟩
  iapply (wp_sum m K c 2 (k0_dev21_eq c) 14 13 rfl rfl) $$ [HcX2 HcS2 HO HaX2 HaS2 HY2 Hou2 HtY2 HtZ2 HtR2]
  · iframe # ∗
  iintro ⟨HO, HaX2, HaS2, Hrx2, HcY2, HcR2⟩
  iapply (wp_sum m K c 3 (k0_dev22_eq c) 13 12 rfl rfl) $$ [HcX3 HcS3 HO HaX3 HaS3 HY3 Hou3 HtY3 HtZ3 HtR3]
  · iframe # ∗
  iintro ⟨HO, HaX3, HaS3, Hrx3, HcY3, HcR3⟩
  iapply (wp_sum m K c 4 (k0_dev23_eq c) 12 11 rfl rfl) $$ [HcX4 HcS4 HO HaX4 HaS4 HY4 Hou4 HtY4 HtZ4 HtR4]
  · iframe # ∗
  iintro ⟨HO, HaX4, HaS4, Hrx4, HcY4, HcR4⟩
  iapply (wp_sum m K c 5 (k0_dev24_eq c) 11 10 rfl rfl) $$ [HcX5 HcS5 HO HaX5 HaS5 HY5 Hou5 HtY5 HtZ5 HtR5]
  · iframe # ∗
  iintro ⟨HO, HaX5, HaS5, Hrx5, HcY5, HcR5⟩
  iapply (wp_sum m K c 6 (k0_dev25_eq c) 10 9 rfl rfl) $$ [HcX6 HcS6 HO HaX6 HaS6 HY6 Hou6 HtY6 HtZ6 HtR6]
  · iframe # ∗
  iintro ⟨HO, HaX6, HaS6, Hrx6, HcY6, HcR6⟩
  iapply (wp_sum m K c 7 (k0_dev26_eq c) 9 8 rfl rfl) $$ [HcX7 HcS7 HO HaX7 HaS7 HY7 Hou7 HtY7 HtZ7 HtR7]
  · iframe # ∗
  iintro ⟨HO, HaX7, HaS7, Hrx7, HcY7, HcR7⟩
  iapply (wp_sum m K c 8 (k0_dev27_eq c) 8 7 rfl rfl) $$ [HcX8 HcS8 HO HaX8 HaS8 HY8 Hou8 HtY8 HtZ8 HtR8]
  · iframe # ∗
  iintro ⟨HO, HaX8, HaS8, Hrx8, HcY8, HcR8⟩
  iapply (wp_sum m K c 9 (k0_dev28_eq c) 7 6 rfl rfl) $$ [HcX9 HcS9 HO HaX9 HaS9 HY9 Hou9 HtY9 HtZ9 HtR9]
  · iframe # ∗
  iintro ⟨HO, HaX9, HaS9, Hrx9, HcY9, HcR9⟩
  iapply (wp_sum m K c 10 (k0_dev29_eq c) 6 5 rfl rfl) $$ [HcX10 HcS10 HO HaX10 HaS10 HY10 Hou10 HtY10 HtZ10 HtR10]
  · iframe # ∗
  iintro ⟨HO, HaX10, HaS10, Hrx10, HcY10, HcR10⟩
  iapply (wp_sum m K c 11 (k0_dev30_eq c) 5 4 rfl rfl) $$ [HcX11 HcS11 HO HaX11 HaS11 HY11 Hou11 HtY11 HtZ11 HtR11]
  · iframe # ∗
  iintro ⟨HO, HaX11, HaS11, Hrx11, HcY11, HcR11⟩
  iapply (wp_sum m K c 12 (k0_dev31_eq c) 4 3 rfl rfl) $$ [HcX12 HcS12 HO HaX12 HaS12 HY12 Hou12 HtY12 HtZ12 HtR12]
  · iframe # ∗
  iintro ⟨HO, HaX12, HaS12, Hrx12, HcY12, HcR12⟩
  iapply (wp_sum m K c 13 (k0_dev32_eq c) 3 2 rfl rfl) $$ [HcX13 HcS13 HO HaX13 HaS13 HY13 Hou13 HtY13 HtZ13 HtR13]
  · iframe # ∗
  iintro ⟨HO, HaX13, HaS13, Hrx13, HcY13, HcR13⟩
  iapply (wp_sum m K c 14 (k0_dev33_eq c) 2 1 rfl rfl) $$ [HcX14 HcS14 HO HaX14 HaS14 HY14 Hou14 HtY14 HtZ14 HtR14]
  · iframe # ∗
  iintro ⟨HO, HaX14, HaS14, Hrx14, HcY14, HcR14⟩
  iapply (wp_sum m K c 15 (k0_dev34_eq c) 1 0 rfl rfl) $$ [HcX15 HcS15 HO HaX15 HaS15 HY15 Hou15 HtY15 HtZ15 HtR15]
  · iframe # ∗
  iintro ⟨HO, HaX15, HaS15, Hrx15, HcY15, HcR15⟩
  iapply (r_wp_wait_ry m K c 0 _) $$ [HcZ0 HO HaZ0]
  · iframe # ∗
  iintro ⟨HO, HaZ0, -, Hot0⟩
  iapply (r_wp_wait_ry m K c 1 _) $$ [HcZ1 HO HaZ1]
  · iframe # ∗
  iintro ⟨HO, HaZ1, -, Hot1⟩
  iapply (r_wp_wait_ry m K c 2 _) $$ [HcZ2 HO HaZ2]
  · iframe # ∗
  iintro ⟨HO, HaZ2, -, Hot2⟩
  iapply (r_wp_wait_ry m K c 3 _) $$ [HcZ3 HO HaZ3]
  · iframe # ∗
  iintro ⟨HO, HaZ3, -, Hot3⟩
  iapply (r_wp_wait_ry m K c 4 _) $$ [HcZ4 HO HaZ4]
  · iframe # ∗
  iintro ⟨HO, HaZ4, -, Hot4⟩
  iapply (r_wp_wait_ry m K c 5 _) $$ [HcZ5 HO HaZ5]
  · iframe # ∗
  iintro ⟨HO, HaZ5, -, Hot5⟩
  iapply (r_wp_wait_ry m K c 6 _) $$ [HcZ6 HO HaZ6]
  · iframe # ∗
  iintro ⟨HO, HaZ6, -, Hot6⟩
  iapply (r_wp_wait_ry m K c 7 _) $$ [HcZ7 HO HaZ7]
  · iframe # ∗
  iintro ⟨HO, HaZ7, -, Hot7⟩
  iapply (r_wp_wait_ry m K c 8 _) $$ [HcZ8 HO HaZ8]
  · iframe # ∗
  iintro ⟨HO, HaZ8, -, Hot8⟩
  iapply (r_wp_wait_ry m K c 9 _) $$ [HcZ9 HO HaZ9]
  · iframe # ∗
  iintro ⟨HO, HaZ9, -, Hot9⟩
  iapply (r_wp_wait_ry m K c 10 _) $$ [HcZ10 HO HaZ10]
  · iframe # ∗
  iintro ⟨HO, HaZ10, -, Hot10⟩
  iapply (r_wp_wait_ry m K c 11 _) $$ [HcZ11 HO HaZ11]
  · iframe # ∗
  iintro ⟨HO, HaZ11, -, Hot11⟩
  iapply (r_wp_wait_ry m K c 12 _) $$ [HcZ12 HO HaZ12]
  · iframe # ∗
  iintro ⟨HO, HaZ12, -, Hot12⟩
  iapply (r_wp_wait_ry m K c 13 _) $$ [HcZ13 HO HaZ13]
  · iframe # ∗
  iintro ⟨HO, HaZ13, -, Hot13⟩
  iapply (r_wp_wait_ry m K c 14 _) $$ [HcZ14 HO HaZ14]
  · iframe # ∗
  iintro ⟨HO, HaZ14, -, Hot14⟩
  iapply (r_wp_wait_ry m K c 15 _) $$ [HcZ15 HO HaZ15]
  · iframe # ∗
  iintro ⟨HO, HaZ15, -, Hot15⟩
  iapply (wp_done m K c 0) $$ [HcR0 HcY0 HO HaR0 HaY0]
  · iframe # ∗
  iintro ⟨HO, HaR0, HaY0, Hou0, Hsx0⟩
  iapply (wp_done m K c 1) $$ [HcR1 HcY1 HO HaR1 HaY1]
  · iframe # ∗
  iintro ⟨HO, HaR1, HaY1, Hou1, Hsx1⟩
  iapply (wp_done m K c 2) $$ [HcR2 HcY2 HO HaR2 HaY2]
  · iframe # ∗
  iintro ⟨HO, HaR2, HaY2, Hou2, Hsx2⟩
  iapply (wp_done m K c 3) $$ [HcR3 HcY3 HO HaR3 HaY3]
  · iframe # ∗
  iintro ⟨HO, HaR3, HaY3, Hou3, Hsx3⟩
  iapply (wp_done m K c 4) $$ [HcR4 HcY4 HO HaR4 HaY4]
  · iframe # ∗
  iintro ⟨HO, HaR4, HaY4, Hou4, Hsx4⟩
  iapply (wp_done m K c 5) $$ [HcR5 HcY5 HO HaR5 HaY5]
  · iframe # ∗
  iintro ⟨HO, HaR5, HaY5, Hou5, Hsx5⟩
  iapply (wp_done m K c 6) $$ [HcR6 HcY6 HO HaR6 HaY6]
  · iframe # ∗
  iintro ⟨HO, HaR6, HaY6, Hou6, Hsx6⟩
  iapply (wp_done m K c 7) $$ [HcR7 HcY7 HO HaR7 HaY7]
  · iframe # ∗
  iintro ⟨HO, HaR7, HaY7, Hou7, Hsx7⟩
  iapply (wp_done m K c 8) $$ [HcR8 HcY8 HO HaR8 HaY8]
  · iframe # ∗
  iintro ⟨HO, HaR8, HaY8, Hou8, Hsx8⟩
  iapply (wp_done m K c 9) $$ [HcR9 HcY9 HO HaR9 HaY9]
  · iframe # ∗
  iintro ⟨HO, HaR9, HaY9, Hou9, Hsx9⟩
  iapply (wp_done m K c 10) $$ [HcR10 HcY10 HO HaR10 HaY10]
  · iframe # ∗
  iintro ⟨HO, HaR10, HaY10, Hou10, Hsx10⟩
  iapply (wp_done m K c 11) $$ [HcR11 HcY11 HO HaR11 HaY11]
  · iframe # ∗
  iintro ⟨HO, HaR11, HaY11, Hou11, Hsx11⟩
  iapply (wp_done m K c 12) $$ [HcR12 HcY12 HO HaR12 HaY12]
  · iframe # ∗
  iintro ⟨HO, HaR12, HaY12, Hou12, Hsx12⟩
  iapply (wp_done m K c 13) $$ [HcR13 HcY13 HO HaR13 HaY13]
  · iframe # ∗
  iintro ⟨HO, HaR13, HaY13, Hou13, Hsx13⟩
  iapply (wp_done m K c 14) $$ [HcR14 HcY14 HO HaR14 HaY14]
  · iframe # ∗
  iintro ⟨HO, HaR14, HaY14, Hou14, Hsx14⟩
  iapply (wp_done m K c 15) $$ [HcR15 HcY15 HO HaR15 HaY15]
  · iframe # ∗
  iintro ⟨HO, HaR15, HaY15, Hou15, Hsx15⟩
  iapply (wp_end (F := F) c Kt)
  iapply Hk
  unfold bodyPost posAt
  simp only [bigSep_fin16, bigSep_fin4, bigSep_fin3]
  isplitl [HO]
  · iexists _; iexact HO
  isplitl [HaB HaC0 HaC1 HaC2 HaC3 HaR0 HaR1 HaR2 HaR3 HaR4 HaR5 HaR6 HaR7 HaR8 HaR9 HaR10 HaR11 HaR12 HaR13 HaR14 HaR15 HaS0 HaS1 HaS2 HaS3 HaS4 HaS5 HaS6 HaS7 HaS8 HaS9 HaS10 HaS11 HaS12 HaS13 HaS14 HaS15 HaX0 HaX1 HaX2 HaX3 HaX4 HaX5 HaX6 HaX7 HaX8 HaX9 HaX10 HaX11 HaX12 HaX13 HaX14 HaX15 HaY0 HaY1 HaY2 HaY3 HaY4 HaY5 HaY6 HaY7 HaY8 HaY9 HaY10 HaY11 HaY12 HaY13 HaY14 HaY15 HaZ0 HaZ1 HaZ2 HaZ3 HaZ4 HaZ5 HaZ6 HaZ7 HaZ8 HaZ9 HaZ10 HaZ11 HaZ12 HaZ13 HaZ14 HaZ15]
  · iframe
  isplitl [HslB3 HslB1 HslB2]
  · isplitl [HslB3]
    · iexists _; iexact HslB3
    isplitl [HslB1]
    · iexists _; iexact HslB1
    iexists _; iexact HslB2
  isplitl [Hsx0 Hsx1 Hsx2 Hsx3 Hsx4 Hsx5 Hsx6 Hsx7 Hsx8 Hsx9 Hsx10 Hsx11 Hsx12 Hsx13 Hsx14 Hsx15]
  · iframe
  isplitl [Hrx0 Hrx1 Hrx2 Hrx3 Hrx4 Hrx5 Hrx6 Hrx7 Hrx8 Hrx9 Hrx10 Hrx11 Hrx12 Hrx13 Hrx14 Hrx15]
  · iframe
  isplitl [Hin0 Hin1 Hin2 Hin3]
  · iframe
  isplitl [HinR]
  · iexact HinR
  isplitl [Hou0 Hou1 Hou2 Hou3 Hou4 Hou5 Hou6 Hou7 Hou8 Hou9 Hou10 Hou11 Hou12 Hou13 Hou14 Hou15]
  · iframe
  iframe

end Cert.KernelIdealProof

end
-- ==== Proof.ObligKernelIdeal.lean ====
import proofs.«900136_g7700000000000137_dist_ar_v7x_xy2x2_x_m8192_n1024_bf16_1_alg».proof.Proof.SoundKernelIdeal
import proofs.«900136_g7700000000000137_dist_ar_v7x_xy2x2_x_m8192_n1024_bf16_1_alg».proof.Proof.RegroupKernelIdeal
import proofs.«900136_g7700000000000137_dist_ar_v7x_xy2x2_x_m8192_n1024_bf16_1_alg».proof.Proof.StepsAKernelIdeal

noncomputable section

namespace Cert.KernelIdealProof

open Cert.KernelIdeal Cert.KernelIdeal.Gen

open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Every cell of a family is a round on with nothing taken, so each closes with its counter at zero. -/
theorem close_family {I : Type} [Fintype I] [DecidableEq I] (K : Dev nD × CIx → ℕ) (c : Dev nD) (g : I → CIx) :
    iprop(records m K ∗ bigSep Finset.univ fun i : I => atPos ER (kcell (c, g i)) 1 ∅ 0)
      ⊢ iprop(|={Set.univ}=> bigSep Finset.univ fun i : I => semVal (kcell (c, g i)) 0) := by
  refine (BI.bigSep_with_persistent (R := records m K) (Ψ := fun i : I => iprop(|={Set.univ}=> semVal (kcell (c, g i)) 0)) fun i _ => ?_).trans (bigSep_fupd _ _)
  iintro ⟨#HR, Hat⟩
  iapply (Rounds.cell_close ER (Rd m) (Set.mem_univ (K (c, g i))) (fun h => h) (R := 0 + 1) (duties_later m (kcell (c, g i))))
  isplitr
  · iapply (inv_at m K (c, g i)); iexact HR
  iexact Hat

theorem close_cells (K : Dev nD × CIx → ℕ) (c : Dev nD) :
    iprop(records m K ∗ posAt c 1)
      ⊢ iprop(|={Set.univ}=> bigSep Finset.univ fun n : DmaSem sig => semVal ((c : Thread nD τ), osem n) 0) := by
  unfold posAt
  rw [← bigSep_dma (fun n => atPos ER ((c : Thread nD τ), .dma n) 1 ∅ 0)]
  iintro ⟨#HR, -, H⟩
  iapply (close_family m K c some)
  iframe # ∗

omit [FloatOps F] in
theorem bigSep_noWin (Ψ : Fin cfg0.W → sProp 𝕄) : bigSep Finset.univ Ψ = (BI.emp : sProp 𝕄) := by
  rw [Finset.univ_eq_empty]; rfl

/-- Pieces at one contents are pieces at some contents. -/
theorem give {I A : Type} [Fintype I] (P : I → A → sProp 𝕄) (f : A) :
    (bigSep Finset.univ fun j => P j f) ⊢ bigSep Finset.univ fun j => iprop(∃ f, P j f) :=
  bigSep_mono fun j _ => (show P j f ⊢ iprop(∃ f, P j f) from by iintro H; iexists f; iexact H)

theorem post_join (c : Dev nD) :
    iprop((bigSep Finset.univ fun s : Fin 3 => iprop(∃ f, piece (F := F) c (slot s) fullShare f))
        ∗ (bigSep Finset.univ fun j : Fin 16 => piece c (sxC j) fullShare (SX2 m c))
        ∗ (bigSep Finset.univ fun j : Fin 16 => piece c (rxC j) fullShare (RX m c))
        ∗ (bigSep Finset.univ fun b : Fin 4 => piece c (inBlk c b) fullShare (A m c))
        ∗ (((c : Thread nD τ).loc main_arg0) ↦[inRestSet c]{fullShare} A m c)
        ∗ (bigSep Finset.univ fun j : Fin 16 => piece c (outMe c j) fullShare (OUT m c))
        ∗ (bigSep Finset.univ fun j : Fin 16 => piece c (outOt c j) fullShare (OUT m c)))
      ⊢ iprop((∃ f, wholeAt c cc0_scratch0 f) ∗ (∃ f, wholeAt c cc0_scratch1 f) ∗ (∃ f, wholeAt c cc0_scratch2 f)
          ∗ wholeAt c main_arg0 (m _) ∗ wholeAt c main_v1 (OUT m c)) := by
  iintro ⟨Hs, Hsx, Hrx, Hb, Hrest, Hme, Hot⟩
  ihave H0 := (st_join (F := F) c) $$ Hs
  ihave H1 := (Entails.of_eq (sx_cut c (SX2 m c)).symm) $$ Hsx
  ihave H2 := (Entails.of_eq (rx_cut c (RX m c)).symm) $$ Hrx
  ihave Hin := (Entails.of_eq (in_cut c (A m c)).symm) $$ [Hb Hrest]
  · iframe; iexact Hrest
  ihave Hout := (Entails.of_eq (out_cut c (OUT m c)).symm) $$ [Hme Hot]
  · iframe
  iframe
  isplitl [H1]; · iexists _; iexact H1
  isplitl [H2]; · iexists _; iexact H2
  iexact Hin

/-- Cut the buffers into the pieces the steps hold, step the body, join the pieces back and close the DMA cells. -/
theorem body_obligation (c : Dev nD) : BodyObligation (dats (F := F) m 0 c) (defs₀ (F := F)) 𝒱₀ () Set.univ := fun t => by
  rw [fin_N0 t, bigSep_noWin, bigSep_noWin]
  show iprop(Φ₀ m c ∗ (dats m 0 c).owesAt () t0_0.castSucc ∗ emp) ⊢ wp frame (wpE (defs₀ (F := F)) 𝒱₀ (c : Thread nD τ) none) Set.univ (bodyAt0 (F := F) t0_0)
    (fun _ => iprop(Φ₁ m c ∗ (dats m 0 c).owesAt () t0_0.succ ∗ emp))
  refine BIBase.Entails.trans ?_ (wp_fupd frame _ Set.univ _ _)
  unfold Φ₀ start ghost
  iintro ⟨⟨⟨⟨%K, #HR, Hpos, Htok⟩, Hcred, #Hlev⟩, ⟨%f0, H0⟩, ⟨%f1, H1⟩, ⟨%f2, H2⟩, Hin, Hout⟩, Ho, -⟩
  unfold Dat.owesAt Pipeline.owesWithin
  icases Ho with ⟨%W, %hW, HO⟩
  rw [show (dats m 0 c).owed t0_0.castSucc = owedUpTo c 34 from rfl]
  iapply (sound_body m K c W f0 f1 (m _) _)
  isplitr; · iexact HR
  isplitr; · iexact Hlev
  isplitr []
  · unfold bodyPre posAt rxGive otGive
    ihave Hpos := (Entails.of_eq (positions_eq (F := F) c)) $$ Hpos
    ihave H0 := (Entails.of_eq (st_cut c f0)) $$ H0
    ihave H1 := (Entails.of_eq (sx_cut c f1)) $$ H1
    ihave H2 := (Entails.of_eq (rx_cut c f2)) $$ H2
    ihave Hin := (Entails.of_eq (in_cut c (m _))) $$ Hin
    ihave Hout := (Entails.of_eq (out_cut c (m _))) $$ Hout
    icases Hin with ⟨Hb, Hrest⟩
    icases Hout with ⟨Hme, Hot⟩
    ihave H2 := (give (fun j f => piece (F := F) c (rxC j) fullShare f) f2) $$ H2
    ihave Hot := (give (fun j f => piece (F := F) c (outOt c j) fullShare f) (m ((c : Thread nD τ).loc main_v1))) $$ Hot
    iframe
    isplitl [Hb]; · iexact Hb
    iexact Hrest
  iintro Hpost
  unfold bodyPost
  icases Hpost with ⟨⟨%W', HO⟩, Hpos, Hrest⟩
  imod (close_cells m K c) $$ [Hpos] with Hz
  · iframe # ∗
  imodintro
  ihave Hbuf := (post_join m c) $$ Hrest
  icases Hbuf with ⟨B0, B1, B2, Bin, Bout⟩
  unfold Φ₁
  iframe
  isplitl; swap; · iempintro
  iexists W'
  isplitr; · ipureintro; exact fun _ _ => Or.inl trivial
  iexact HO

end Cert.KernelIdealProof

end
-- ==== Proof.FrameKernelIdeal.lean ====
import proofs.«900136_g7700000000000137_dist_ar_v7x_xy2x2_x_m8192_n1024_bf16_1_alg».proof.Defs
import proofs.«900136_g7700000000000137_dist_ar_v7x_xy2x2_x_m8192_n1024_bf16_1_alg».proof.Proof.Gen.Pre_finite_inputs_Kernel
import proofs.«900136_g7700000000000137_dist_ar_v7x_xy2x2_x_m8192_n1024_bf16_1_alg».proof.Proof.LaunchKernelIdeal
import proofs.«900136_g7700000000000137_dist_ar_v7x_xy2x2_x_m8192_n1024_bf16_1_alg».proof.Proof.ObligKernelIdeal

noncomputable section

namespace Cert.KernelIdealProof

open Cert.KernelIdeal Cert.KernelIdeal.Gen
open Idealize.ShloMosaic Idealize.ShloMosaic.TcCoe Idealize.SL.Sem

/-- The run's post with the result array dropped. -/
theorem frame : Cert.frame_KernelIdeal (hKernelIdeal := Cert.KernelIdeal.Gen.facts)
    (hPre_finite_inputs_Kernel := Cert.Pre_finite_inputs_Kernel.Gen.facts) :=
  fun m ρ _ => (θ_run Cert.KernelIdeal.defs _ _).mono (fun _ h c => (h c).2) (run_main m ρ (body_obligation m))

end Cert.KernelIdealProof

end
-- ==== Proof.RefValue.lean ====
import proofs.«900136_g7700000000000137_dist_ar_v7x_xy2x2_x_m8192_n1024_bf16_1_alg».proof.Defs
import proofs.«900136_g7700000000000137_dist_ar_v7x_xy2x2_x_m8192_n1024_bf16_1_alg».proof.Proof.ProtoKernelIdeal
import proofs.«900136_g7700000000000137_dist_ar_v7x_xy2x2_x_m8192_n1024_bf16_1_alg».proof.Proof.Gen.ReferenceIdeal
import proofs.«900136_g7700000000000137_dist_ar_v7x_xy2x2_x_m8192_n1024_bf16_1_alg».proof.Proof.Gen.Pre_finite_inputs_ReferenceIdeal
import proofs.«900136_g7700000000000137_dist_ar_v7x_xy2x2_x_m8192_n1024_bf16_1_alg».proof.Proof.Gen.ReferenceIdeal.Run
import proofs.«900136_g7700000000000137_dist_ar_v7x_xy2x2_x_m8192_n1024_bf16_1_alg».proof.Proof.Gen.ReferenceIdeal.Read
import Idealize.ShloMosaic.Lib.Layout
import Idealize.ShloMosaic.Lib.ValueIdx
import Idealize.ShloMosaic.Lib.Pipeline.Value
import Idealize.ShloMosaic.PureOps.Ideal.Laws

noncomputable section

namespace Cert.RefValue

open Idealize.ShloMosaic Idealize.ShloMosaic.TcCoe Idealize.ShloMosaic.ValueIdx Idealize.SL.Sem
open Cert.KernelIdeal Cert.KernelIdealProof Cert.ReferenceIdeal.Read

variable (m : (ℓ : Loc nD τ sig) → Buf (Elt Ideal) ℓ)
  (m' : (ℓ : Loc ReferenceIdeal.nD ReferenceIdeal.τ ReferenceIdeal.sig) → Buf (Elt Ideal) ℓ)

abbrev argLoc := ((0 : Dev ReferenceIdeal.nD).tc : Thread ReferenceIdeal.nD ReferenceIdeal.τ).loc ReferenceIdeal.main_arg0

abbrev X : ReferenceIdeal.S16384x1024.Idx → EReal := m' argLoc

/-- Device `c`'s argument is its block of the reference's, as the mesh lays the array out. -/
abbrev Agree : Prop := ∀ c : Dev nD,
  m ((c.tc : Thread nD τ).loc main_arg0) = Layout.blockN ⟨2, ![8192, 1024]⟩ ⟨2, ![16384, 1024]⟩ (Layout.meshBlock [2, 2] ![[0], []] c) (m' argLoc)

def row (k : Fin 2) (i : ReferenceIdeal.S8192x1024.Idx) : ReferenceIdeal.S16384x1024.Idx :=
  ix2 (n0 := 16384) (n1 := 1024) ⟨8192 * k.val + (i 0).val, by have := idx2_lt0 i; omega⟩ (i 1)

/-- At `(r, l)`: zero plus the sum of the two blocks' elements there. -/
def refOut :
    Buf (Elt Ideal) (((0 : Dev ReferenceIdeal.nD).tc : Thread ReferenceIdeal.nD ReferenceIdeal.τ).loc ReferenceIdeal.main_v2) :=
  fun i => (0 : EReal) + (X m' (row 0 i) + X m' (row 1 i))

theorem idx_row (i : ReferenceIdeal.S8192x1024.Idx) (k : Fin 2) :
    idx_main_v0 (idx_main_v1 i k) = row k i := by
  have h0 : (i 0).val < 8192 := idx2_lt0 i
  have h1 : (i 1).val < 1024 := idx2_lt1 i
  funext a
  refine Fin.ext ?_
  match a with
  | ⟨0, _⟩ =>
    show ((k.val * 8192 + (i 0).val) * 1024 + (i 1).val) / 1024 = 8192 * k.val + (i 0).val
    omega
  | ⟨1, _⟩ =>
    show ((k.val * 8192 + (i 0).val) * 1024 + (i 1).val) % 1024 = (i 1).val
    omega

theorem val_eq_refOut :
    val_main_v2 (F := Ideal) (X m') = refOut m' := by
  funext i
  rw [val_main_v2_apply, val_main_v1_apply, Fin.sum_univ_two,
    val_main_v0_apply, val_main_v0_apply,
    val_main_cst_apply, idx_row, idx_row]
  show Ideal.ofBits .f32 0x00000000#32 + (X m' (row 0 i) + X m' (row 1 i)) = _
  rw [Ideal.ofBits_zero_f32]
  rfl

theorem ref_run
    (g' : Dev ReferenceIdeal.nD → PrngReg) :
    θ_run (ReferenceIdeal.defs (F := Ideal)) (onTc (τ := ReferenceIdeal.τ) (ReferenceIdeal.main (F := Ideal))) ⟨m', fun _ => 0, g'⟩ (fun r =>
      r.2.mem (((0 : Dev ReferenceIdeal.nD).tc : Thread ReferenceIdeal.nD ReferenceIdeal.τ).loc ReferenceIdeal.main_v2) = refOut m'
      ∧ r.2.mem argLoc = m' argLoc) :=
  (θ_run ReferenceIdeal.defs _ _).mono
    (fun _ h => ⟨(h 0).1.trans ((val_main_v2_eq (F := Ideal) (X m')).trans (val_eq_refOut m')), (h 0).2⟩)
    (ReferenceIdeal.Value.run (F := Ideal) m' g')

theorem ref_frame : frame_ReferenceIdeal (hReferenceIdeal := ReferenceIdeal.Gen.facts)
    (hPre_finite_inputs_ReferenceIdeal := Pre_finite_inputs_ReferenceIdeal.Gen.facts) :=
  fun m ρ _ => (θ_run ReferenceIdeal.defs _ _).mono (fun _ h c => (h c).2) (ReferenceIdeal.Value.run (F := Ideal) m ρ)

/-- Numbered row-major, the coordinate of `c` on the axis the array is cut along is `c / 2`. -/
theorem A_eq (hagree : Agree m m')
    (c : Dev nD) (i : S8192x1024.Idx) :
    A (F := Ideal) m c i = X m' (row ⟨c.val / 2, by have : c.val < 4 := c.isLt; omega⟩ i) := by
  have hc : c.val < 4 := c.isLt
  unfold A
  rw [show m ((c : Thread nD τ).loc main_arg0) = _ from hagree c]
  show X m' _ = X m' _
  refine congrArg (X m') (funext fun a => Fin.ext ?_)
  match a with
  | ⟨0, _⟩ =>
    show Layout.meshLin [2, 2] c.val [0] * 8192 + (i 0).val = 8192 * (c.val / 2) + (i 0).val
    have hl : Layout.meshLin [2, 2] c.val [0] = c.val / 2 % 2 * 1 + 0 := rfl
    omega
  | ⟨1, _⟩ =>
    show Layout.meshLin [2, 2] c.val [] * 1024 + (i 1).val = (i 1).val
    have hl : Layout.meshLin [2, 2] c.val [] = 0 := rfl
    omega

theorem up_low (d : Dev nD) (i : S8192x1024.Idx) (h : (i 0).val / 4096 = d.val % 2) :
    up d (low i) = i := by
  have h0 : (i 0).val < 8192 := idx2_lt0 i
  funext a
  refine Fin.ext ?_
  match a with
  | ⟨0, _⟩ =>
    show 4096 * (d.val % 2) + (i 0).val % 4096 = (i 0).val
    omega
  | ⟨1, _⟩ => rfl

theorem SX2_low
    (d : Dev nD) (i : S8192x1024.Idx) (h : (i 0).val / 4096 = d.val % 2) :
    SX2 (F := Ideal) m d (low i) = (show EReal from A (F := Ideal) m d i) + (show EReal from A (F := Ideal) m (xn d) i) := by
  unfold SX2 RX SX1
  rw [up_low d i h, up_low (xn d) i (by rw [xn_mod]; exact h)]
  rfl

theorem pair_sum (x : ReferenceIdeal.S16384x1024.Idx → EReal) (i : ReferenceIdeal.S8192x1024.Idx) (k k' : Fin 2)
    (h : k'.val = 1 - k.val) : x (row k i) + x (row k' i) = 0 + (x (row 0 i) + x (row 1 i)) := by
  obtain ⟨k, hk⟩ := k
  obtain ⟨k', hk'⟩ := k'
  simp only at h
  have hcases : (k = 0 ∧ k' = 1) ∨ (k = 1 ∧ k' = 0) := by omega
  rw [zero_add]
  rcases hcases with ⟨rfl, rfl⟩ | ⟨rfl, rfl⟩
  · rfl
  · exact add_comm (G := EReal) _ _

/-- Each of the two sums a device writes is its block's element plus the other block's; addition commutes and zero is neutral. -/
theorem out_eq_ref (hagree : Agree m m') (c : Dev nD) :
    OUT (F := Ideal) m c = refOut m' := by
  funext i
  have h0 : (i 0).val < 8192 := idx2_lt0 i
  have hc : c.val < 4 := c.isLt
  show (if (i 0).val / 4096 = c.val % 2 then SX2 (F := Ideal) m c (low i) else SX2 (F := Ideal) m (yn c) (low i))
    = (0 : EReal) + (X m' (row 0 i) + X m' (row 1 i))
  by_cases h : (i 0).val / 4096 = c.val % 2
  · rw [if_pos h, SX2_low m c i h, A_eq m m' hagree c i, A_eq m m' hagree (xn c) i]
    exact pair_sum (X m') i _ _ (xn_div c)
  · have h' : (i 0).val / 4096 = (yn c).val % 2 := by rw [yn_mod]; omega
    rw [if_neg h, SX2_low m (yn c) i h', A_eq m m' hagree (yn c) i, A_eq m m' hagree (xn (yn c)) i]
    exact pair_sum (X m') i _ _ (xn_div (yn c))

end Cert.RefValue

end
-- ==== Proof.Algebraic.lean ====
import proofs.«900136_g7700000000000137_dist_ar_v7x_xy2x2_x_m8192_n1024_bf16_1_alg».proof.Defs
import proofs.«900136_g7700000000000137_dist_ar_v7x_xy2x2_x_m8192_n1024_bf16_1_alg».proof.Proof.Gen.ReferenceIdeal
import proofs.«900136_g7700000000000137_dist_ar_v7x_xy2x2_x_m8192_n1024_bf16_1_alg».proof.Proof.Gen.Pre_finite_inputs_Kernel
import proofs.«900136_g7700000000000137_dist_ar_v7x_xy2x2_x_m8192_n1024_bf16_1_alg».proof.Proof.LaunchKernelIdeal
import proofs.«900136_g7700000000000137_dist_ar_v7x_xy2x2_x_m8192_n1024_bf16_1_alg».proof.Proof.ObligKernelIdeal
import proofs.«900136_g7700000000000137_dist_ar_v7x_xy2x2_x_m8192_n1024_bf16_1_alg».proof.Proof.RefValue

noncomputable section

namespace Cert.KernelIdealProof

open Cert.KernelIdeal Cert.KernelIdeal.Gen
open Idealize.ShloMosaic Idealize.ShloMosaic.TcCoe Idealize.SL.Sem

/-- The run leaves `OUT m c`, which is the reference's value at every index. -/
theorem algebraic : Cert.algebraic_KernelIdeal_ReferenceIdeal (hKernelIdeal := Cert.KernelIdeal.Gen.facts)
    (hReferenceIdeal := Cert.ReferenceIdeal.Gen.facts) (hPre_finite_inputs_Kernel := Cert.Pre_finite_inputs_Kernel.Gen.facts) :=
  fun m ρ m' ρ' _ hagree => ⟨Cert.RefValue.refOut m',
    (θ_run Cert.KernelIdeal.defs _ _).mono
      (fun _ h c => ⟨(h c).1.trans (Cert.RefValue.out_eq_ref m m' hagree c), (h c).2⟩)
      (run_main m ρ (body_obligation m)),
    Cert.RefValue.ref_run m' ρ'⟩

end Cert.KernelIdealProof

end
-- ==== Proof.lean ====
/- On a 2 × 2 mesh device `c` holds block `c / 2` of `x`; it adds its half of that block to its first-axis partner's and writes the sum to itself
   and to its second-axis partner, so every device ends with block 0 plus block 1 row for row: the reference's `x.reshape(2, 8192, 1024).sum(0)`,
   since addition of extended reals commutes and zero is neutral for it. -/
import proofs.«900136_g7700000000000137_dist_ar_v7x_xy2x2_x_m8192_n1024_bf16_1_alg».proof.Defs
import proofs.«900136_g7700000000000137_dist_ar_v7x_xy2x2_x_m8192_n1024_bf16_1_alg».proof.Proof.Gen.Kernel
import proofs.«900136_g7700000000000137_dist_ar_v7x_xy2x2_x_m8192_n1024_bf16_1_alg».proof.Proof.Gen.Kernel.Skeleton
import proofs.«900136_g7700000000000137_dist_ar_v7x_xy2x2_x_m8192_n1024_bf16_1_alg».proof.Proof.Gen.Kernel.Launch
import proofs.«900136_g7700000000000137_dist_ar_v7x_xy2x2_x_m8192_n1024_bf16_1_alg».proof.Proof.Gen.Kernel.Points
import proofs.«900136_g7700000000000137_dist_ar_v7x_xy2x2_x_m8192_n1024_bf16_1_alg».proof.Proof.Gen.Kernel.Frame
import proofs.«900136_g7700000000000137_dist_ar_v7x_xy2x2_x_m8192_n1024_bf16_1_alg».proof.Proof.Gen.KernelIdeal
import proofs.«900136_g7700000000000137_dist_ar_v7x_xy2x2_x_m8192_n1024_bf16_1_alg».proof.Proof.Gen.KernelIdeal.Skeleton
import proofs.«900136_g7700000000000137_dist_ar_v7x_xy2x2_x_m8192_n1024_bf16_1_alg».proof.Proof.Gen.KernelIdeal.Launch
import proofs.«900136_g7700000000000137_dist_ar_v7x_xy2x2_x_m8192_n1024_bf16_1_alg».proof.Proof.Gen.KernelIdeal.Points
import proofs.«900136_g7700000000000137_dist_ar_v7x_xy2x2_x_m8192_n1024_bf16_1_alg».proof.Proof.Gen.KernelIdeal.Frame
import proofs.«900136_g7700000000000137_dist_ar_v7x_xy2x2_x_m8192_n1024_bf16_1_alg».proof.Proof.Gen.ReferenceIdeal
import proofs.«900136_g7700000000000137_dist_ar_v7x_xy2x2_x_m8192_n1024_bf16_1_alg».proof.Proof.Gen.Pre_finite_inputs_Kernel
import proofs.«900136_g7700000000000137_dist_ar_v7x_xy2x2_x_m8192_n1024_bf16_1_alg».proof.Proof.Gen.Pre_finite_inputs_ReferenceIdeal
import proofs.«900136_g7700000000000137_dist_ar_v7x_xy2x2_x_m8192_n1024_bf16_1_alg».proof.Proof.FrameKernel
import proofs.«900136_g7700000000000137_dist_ar_v7x_xy2x2_x_m8192_n1024_bf16_1_alg».proof.Proof.FrameKernelIdeal
import proofs.«900136_g7700000000000137_dist_ar_v7x_xy2x2_x_m8192_n1024_bf16_1_alg».proof.Proof.RefValue
import proofs.«900136_g7700000000000137_dist_ar_v7x_xy2x2_x_m8192_n1024_bf16_1_alg».proof.Proof.Algebraic
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  Cert.KernelProof.frame, Cert.KernelIdealProof.frame, Cert.RefValue.ref_frame, trivial, Cert.KernelIdealProof.algebraic⟩

end Cert.Proof

end
